-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x3 : Shape := ⟨2, ![800000, 3]⟩
abbrev S128x64 : Shape := ⟨2, ![128, 64]⟩
abbrev S64 : Shape := ⟨1, ![64]⟩
abbrev S192x64 : Shape := ⟨2, ![192, 64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S64 .f32) (main_arg9 : FVec F S192x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S192x64 .f32) (main_arg6 : FVec F S64 .f32) (main_arg7 : FVec F S192x64 .f32) (main_arg8 : FVec F S64 .f32) (main_arg9 : FVec F S192x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S800000x3 .f32) (main_arg3 : FVec F S128x64 .f32) (main_arg4 : FVec F S64 .f32) (main_arg5 : FVec F S192x64 .f32) (main_arg6 : FVec F S64 .f32) (main_arg7 : FVec F S192x64 .f32) (main_arg8 : FVec F S64 .f32) (main_arg9 : FVec F S192x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x3 : Shape := ⟨2, ![800000, 3]⟩
abbrev S128x64 : Shape := ⟨2, ![128, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S800000x1 : Shape := ⟨2, ![800000, 1]⟩
abbrev S50000x1 : Shape := ⟨2, ![50000, 1]⟩
abbrev S1x1280 : Shape := ⟨2, ![1, 1280]⟩
abbrev S5000x1 : Shape := ⟨2, ![5000, 1]⟩
abbrev S5000x1280 : Shape := ⟨2, ![5000, 1280]⟩
abbrev S1280x128 : Shape := ⟨2, ![1280, 128]⟩
abbrev S5000x128 : Shape := ⟨2, ![5000, 128]⟩
abbrev S50000x64 : Shape := ⟨2, ![50000, 64]⟩
abbrev S5000x64 : Shape := ⟨2, ![5000, 64]⟩
abbrev S1x64 : Shape := ⟨2, ![1, 64]⟩
abbrev S800000x192 : Shape := ⟨2, ![800000, 192]⟩
abbrev S5000x3 : Shape := ⟨2, ![5000, 3]⟩
abbrev S1000x64 : Shape := ⟨2, ![1000, 64]⟩
abbrev S5000x192 : Shape := ⟨2, ![5000, 192]⟩
abbrev S1x1000 : Shape := ⟨2, ![1, 1000]⟩
abbrev S5000x1000 : Shape := ⟨2, ![5000, 1000]⟩
abbrev S1280x192 : Shape := ⟨2, ![1280, 192]⟩
abbrev S5000 : Shape := ⟨1, ![5000]⟩

abbrev nBuf : Space → Nat
  | .hbm => 30
  | .vmem => 71
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x64, .f32⟩
  | .hbm, ⟨4, _⟩ => ⟨S64, .f32⟩
  | .hbm, ⟨5, _⟩ => ⟨S192x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S800000x1, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S128x64, .bf16⟩
  | .hbm, ⟨18, _⟩ => ⟨S192x64, .bf16⟩
  | .hbm, ⟨19, _⟩ => ⟨S192x64, .bf16⟩
  | .hbm, ⟨20, _⟩ => ⟨S192x64, .bf16⟩
  | .hbm, ⟨21, _⟩ => ⟨S50000x1, .f32⟩
  | .hbm, ⟨22, _⟩ => ⟨S50000x64, .f32⟩
  | .hbm, ⟨23, _⟩ => ⟨S50000x64, .bf16⟩
  | .hbm, ⟨24, _⟩ => ⟨S800000x192, .bf16⟩
  | .hbm, ⟨25, _⟩ => ⟨S50000x64, .bf16⟩
  | .hbm, ⟨26, _⟩ => ⟨S800000x192, .bf16⟩
  | .hbm, ⟨27, _⟩ => ⟨S50000x64, .bf16⟩
  | .hbm, ⟨28, _⟩ => ⟨S800000x192, .bf16⟩
  | .hbm, ⟨29, _⟩ => ⟨S50000x64, .f32⟩
  | .local _ .vmem, ⟨0, _⟩ => ⟨S1x1280, .i32⟩
  | .local _ .vmem, ⟨1, _⟩ => ⟨S1x1280, .i32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S128x64, .bf16⟩
  | .local _ .vmem, ⟨8, _⟩ => ⟨S64, .f32⟩
  | .local _ .vmem, ⟨9, _⟩ => ⟨S5000x64, .f32⟩
  | .local _ .vmem, ⟨10, _⟩ => ⟨S5000x64, .f32⟩
  | .local _ .vmem, ⟨11, _⟩ => ⟨S5000x1, .i32⟩
  | .local _ .vmem, ⟨12, _⟩ => ⟨S5000x1, .i32⟩
  | .local _ .vmem, ⟨13, _⟩ => ⟨S5000x3, .f32⟩
  | .local _ .vmem, ⟨14, _⟩ => ⟨S5000x3, .f32⟩
  | .local _ .vmem, ⟨15, _⟩ => ⟨S1000x64, .bf16⟩
  | .local _ .vmem, ⟨16, _⟩ => ⟨S1000x64, .bf16⟩
  | .local _ .vmem, ⟨17, _⟩ => ⟨S5000x192, .bf16⟩
  | .local _ .vmem, ⟨18, _⟩ => ⟨S5000x192, .bf16⟩
  | .local _ .vmem, ⟨19, _⟩ => ⟨S5000x64, .f32⟩
  | .local _ .vmem, ⟨20, _⟩ => ⟨S1x1280, .i32⟩
  | .local _ .vmem, ⟨21, _⟩ => ⟨S1x1280, .i32⟩
  | .local _ .vmem, ⟨22, _⟩ => ⟨S1280x192, .bf16⟩
  | .local _ .vmem, ⟨23, _⟩ => ⟨S1280x192, .bf16⟩
  | .local _ .vmem, ⟨24, _⟩ => ⟨S192x64, .bf16⟩
  | .local _ .vmem, ⟨25, _⟩ => ⟨S64, .f32⟩
  | .local _ .vmem, ⟨26, _⟩ => ⟨S5000x1, .f32⟩
  | .local _ .vmem, ⟨27, _⟩ => ⟨S5000x1, .f32⟩
  | .local _ .vmem, ⟨28, _⟩ => ⟨S5000x64, .bf16⟩
  | .local _ .vmem, ⟨29, _⟩ => ⟨S5000x64, .bf16⟩
  | .local _ .vmem, ⟨30, _⟩ => ⟨S5000x192, .f32⟩
  | .local _ .vmem, ⟨31, _⟩ => ⟨S5000x1, .i32⟩
  | .local _ .vmem, ⟨32, _⟩ => ⟨S5000x1, .i32⟩
  | .local _ .vmem, ⟨33, _⟩ => ⟨S5000x3, .f32⟩
  | .local _ .vmem, ⟨34, _⟩ => ⟨S5000x3, .f32⟩
  | .local _ .vmem, ⟨35, _⟩ => ⟨S1000x64, .bf16⟩
  | .local _ .vmem, ⟨36, _⟩ => ⟨S1000x64, .bf16⟩
  | .local _ .vmem, ⟨37, _⟩ => ⟨S5000x192, .bf16⟩
  | .local _ .vmem, ⟨38, _⟩ => ⟨S5000x192, .bf16⟩
  | .local _ .vmem, ⟨39, _⟩ => ⟨S5000x64, .f32⟩
  | .local _ .vmem, ⟨40, _⟩ => ⟨S1x1280, .i32⟩
  | .local _ .vmem, ⟨41, _⟩ => ⟨S1x1280, .i32⟩
  | .local _ .vmem, ⟨42, _⟩ => ⟨S1280x192, .bf16⟩
  | .local _ .vmem, ⟨43, _⟩ => ⟨S1280x192, .bf16⟩
  | .local _ .vmem, ⟨44, _⟩ => ⟨S192x64, .bf16⟩
  | .local _ .vmem, ⟨45, _⟩ => ⟨S64, .f32⟩
  | .local _ .vmem, ⟨46, _⟩ => ⟨S5000x1, .f32⟩
  | .local _ .vmem, ⟨47, _⟩ => ⟨S5000x1, .f32⟩
  | .local _ .vmem, ⟨48, _⟩ => ⟨S5000x64, .bf16⟩
  | .local _ .vmem, ⟨49, _⟩ => ⟨S5000x64, .bf16⟩
  | .local _ .vmem, ⟨50, _⟩ => ⟨S5000x192, .f32⟩
  | .local _ .vmem, ⟨51, _⟩ => ⟨S5000x1, .i32⟩
  | .local _ .vmem, ⟨52, _⟩ => ⟨S5000x1, .i32⟩
  | .local _ .vmem, ⟨53, _⟩ => ⟨S5000x3, .f32⟩
  | .local _ .vmem, ⟨54, _⟩ => ⟨S5000x3, .f32⟩
  | .local _ .vmem, ⟨55, _⟩ => ⟨S1000x64, .bf16⟩
  | .local _ .vmem, ⟨56, _⟩ => ⟨S1000x64, .bf16⟩
  | .local _ .vmem, ⟨57, _⟩ => ⟨S5000x192, .bf16⟩
  | .local _ .vmem, ⟨58, _⟩ => ⟨S5000x192, .bf16⟩
  | .local _ .vmem, ⟨59, _⟩ => ⟨S5000x64, .f32⟩
  | .local _ .vmem, ⟨60, _⟩ => ⟨S1x1280, .i32⟩
  | .local _ .vmem, ⟨61, _⟩ => ⟨S1x1280, .i32⟩
  | .local _ .vmem, ⟨62, _⟩ => ⟨S1280x192, .bf16⟩
  | .local _ .vmem, ⟨63, _⟩ => ⟨S1280x192, .bf16⟩
  | .local _ .vmem, ⟨64, _⟩ => ⟨S192x64, .bf16⟩
  | .local _ .vmem, ⟨65, _⟩ => ⟨S64, .f32⟩
  | .local _ .vmem, ⟨66, _⟩ => ⟨S5000x1, .f32⟩
  | .local _ .vmem, ⟨67, _⟩ => ⟨S5000x1, .f32⟩
  | .local _ .vmem, ⟨68, _⟩ => ⟨S5000x64, .f32⟩
  | .local _ .vmem, ⟨69, _⟩ => ⟨S5000x64, .f32⟩
  | .local _ .vmem, ⟨70, _⟩ => ⟨S5000x192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc5_stg5_0 : Ref sig .tc := ⟨.vmem, 48, rfl⟩
abbrev cc5_stg5_1 : Ref sig .tc := ⟨.vmem, 49, rfl⟩
abbrev cc5_scratch0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc6_scratch0 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg4_1 : Ref sig .tc := ⟨.vmem, 67, rfl⟩
abbrev cc7_stg5_0 : Ref sig .tc := ⟨.vmem, 68, rfl⟩
abbrev cc7_stg5_1 : Ref sig .tc := ⟨.vmem, 69, rfl⟩
abbrev cc7_scratch0 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨2, ![10, 625], ![false, false]⟩

def k0_cond2 (i : grid0.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_7 : BitVec 32 := 0#32
  let v25 : BitVec 1 := Scalar.cmpi .ne v24 c0_i32_7
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![160, 50], ![false, false]⟩

def k2_cond2 (i : grid2.Coords) : BitVec 1 :=
  let arg1 : BitVec 32 := BitVec.ofNat 32 (i 1).val
  let c49_i32 : BitVec 32 := 49#32
  let v23 : BitVec 1 := Scalar.cmpi .eq arg1 c49_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S5000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S5000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S5000x192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![10, 625], ![false, false]⟩

def k3_cond2 (i : grid3.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1280 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1280x192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S192x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S5000x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![160, 50], ![false, false]⟩

def k4_cond2 (i : grid4.Coords) : BitVec 1 :=
  let arg1 : BitVec 32 := BitVec.ofNat 32 (i 1).val
  let c49_i32 : BitVec 32 := 49#32
  let v23 : BitVec 1 := Scalar.cmpi .eq arg1 c49_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S5000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S5000x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S5000x192 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![10, 625], ![false, false]⟩

def k5_cond2 (i : grid5.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x1280 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1280x192 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S192x64 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S5000x64 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![160, 50], ![false, false]⟩

def k6_cond2 (i : grid6.Coords) : BitVec 1 :=
  let arg1 : BitVec 32 := BitVec.ofNat 32 (i 1).val
  let c49_i32 : BitVec 32 := 49#32
  let v23 : BitVec 1 := Scalar.cmpi .eq arg1 c49_i32
  let v24 : BitVec 32 := Scalar.extui v23
  let c0_i32_8 : BitVec 32 := 0#32
  let v25 : BitVec 1 := Scalar.cmpi .ne v24 c0_i32_8
  v25

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S5000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S5000x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1000x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S5000x192 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![10, 625], ![false, false]⟩

def k7_cond2 (i : grid7.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x1280 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1280x192 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S192x64 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S5000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

class Facts₀ : Prop where
  slices_S2x800000_S1x800000_0_0 : S2x800000.Slices ![0, 0] S1x800000
  shapeCasts_S1x800000_S800000 : S1x800000.ShapeCasts S800000
  shapeCasts_S800000_S800000x1 : S800000.ShapeCasts S800000x1
  slices_S2x800000_S1x800000_1_0 : S2x800000.Slices ![1, 0] S1x800000
  shapeCasts_S800000_S1x800000 : S800000.ShapeCasts S1x800000
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x1_d0_w32 : S5000x1.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S5000x1_S5000x1280 : S5000x1.Broadcasts S5000x1280
  broadcasts_S1x1280_S5000x1280 : S1x1280.Broadcasts S5000x1280
  natLt_1_32 : 1 < 32
  slices_S5000x128_o0_0_S5000x1 : S5000x128.Slices ![0, 0] S5000x1
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  iota_S1x1000_d1_w32 : S1x1000.Iotas .tc 32 [1]
  broadcasts_S5000x1_S5000x1000 : S5000x1.Broadcasts S5000x1000
  broadcasts_S1x1000_S5000x1000 : S1x1000.Broadcasts S5000x1000
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S5000x3_S5000x3_0_0 : ∀ a, (![0, 0] : Fin 2 → Nat) a + S5000x3.size a ≤ S5000x3.size a
  h_S5000x3 : 0 < S5000x3.numel
  slices_S5000x3_o0_0_S5000x1 : S5000x3.Slices ![0, 0] S5000x1
  broadcasts_S5000x1_S5000x64 : S5000x1.Broadcasts S5000x64
  slices_S5000x3_o0_1_S5000x1 : S5000x3.Slices ![0, 1] S5000x1
  slices_S5000x3_o0_2_S5000x1 : S5000x3.Slices ![0, 2] S5000x1
  concatenates_S5000x64_S5000x64_S5000x64_S5000x192_d1 : Shape.Concatenates [S5000x64, S5000x64, S5000x64] S5000x192 1
  inb_S5000x192_S5000x192_0_0 : ∀ a, (![0, 0] : Fin 2 → Nat) a + S5000x192.size a ≤ S5000x192.size a
  h_S5000x192 : 0 < S5000x192.numel
  packedbf16_S5000x192_S5000x192_0_0 : (Rect.unit (s := S5000x192) ![0, 0] S5000x192.size inb_S5000x192_S5000x192_0_0).PackedRows (EltTy.packing .bf16)
  shapeCasts_S5000x192_S5000x192 : S5000x192.ShapeCasts S5000x192
  inb_S1280x192_S1280x192_0_0 : ∀ a, (![0, 0] : Fin 2 → Nat) a + S1280x192.size a ≤ S1280x192.size a
  h_S1280x192 : 0 < S1280x192.numel
  shapeCasts_S1280x192_S1280x192 : S1280x192.ShapeCasts S1280x192
  broadcasts_S5000x1_S5000x192 : S5000x1.Broadcasts S5000x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  packedbf16_S5000x64_S5000x64_0_0 : (Rect.unit (s := S5000x64) ![0, 0] S5000x64.size inb_S5000x64_S5000x64_0_0).PackedRows (EltTy.packing .bf16)
  reduces_S5000x64_S5000 : S5000x64.Reduces [1] S5000
  shapeCasts_S5000_S5000x1 : S5000.ShapeCasts S5000x1
  dot_S5000x1280_S1280x128_S5000x128_1_0_0_1_n_n_wf : DotDims.WF S5000x1280 S1280x128 S5000x128 [1] [0] [0] [1] [] []
  dot_S5000x128_S128x64_S5000x64_1_0_0_1_n_n_wf : DotDims.WF S5000x128 S128x64 S5000x64 [1] [0] [0] [1] [] []
  dot_S5000x1000_S1000x64_S5000x64_1_0_0_1_n_n_wf : DotDims.WF S5000x1000 S1000x64 S5000x64 [1] [0] [0] [1] [] []
  dot_S5000x1280_S1280x192_S5000x192_1_0_0_1_n_n_wf : DotDims.WF S5000x1280 S1280x192 S5000x192 [1] [0] [0] [1] [] []
  dot_S5000x192_S192x64_S5000x64_1_0_0_1_n_n_wf : DotDims.WF S5000x192 S192x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280.size a ≤ S1x800000.size a
  hwx0_0 : ∀ i : grid0.Coords, EltTy.bits .i32 = 32 ∨ (Rect.block (s := S1x800000) S1x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S800000x1.size a
  hwx2_0 : ∀ i : grid2.Coords, EltTy.bits .i32 = 32 ∨ (Rect.block (s := S800000x1) S5000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x3.size a ≤ S800000x3.size a
  hwx2_1 : ∀ i : grid2.Coords, EltTy.bits .f32 = 32 ∨ (Rect.block (s := S800000x3) S5000x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .bf16 = 32 ∨ (Rect.block (s := S50000x64) S1000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x192.size a ≤ S800000x192.size a
  hwx2_3 : ∀ i : grid2.Coords, EltTy.bits .bf16 = 32 ∨ (Rect.block (s := S800000x192) S5000x192.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1280.size a ≤ S1x800000.size a
  hwx3_0 : ∀ i : grid3.Coords, EltTy.bits .i32 = 32 ∨ (Rect.block (s := S1x800000) S1x1280.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x192.size a ≤ S800000x192.size a
  hwx3_1 : ∀ i : grid3.Coords, EltTy.bits .bf16 = 32 ∨ (Rect.block (s := S800000x192) S1280x192.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x64.size a ≤ S192x64.size a
  hwx3_2 : ∀ i : grid3.Coords, EltTy.bits .bf16 = 32 ∨ (Rect.block (s := S192x64) S192x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .f32 = 32 ∨ (Rect.block (s := S50000x1) S5000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .bf16 = 32 ∨ (Rect.block (s := S50000x64) S5000x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S800000x1.size a
  hwx4_0 : ∀ i : grid4.Coords, EltTy.bits .i32 = 32 ∨ (Rect.block (s := S800000x1) S5000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x3.size a ≤ S800000x3.size a
  hwx4_1 : ∀ i : grid4.Coords, EltTy.bits .f32 = 32 ∨ (Rect.block (s := S800000x3) S5000x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x64.size a ≤ S50000x64.size a
  hwx4_2 : ∀ i : grid4.Coords, EltTy.bits .bf16 = 32 ∨ (Rect.block (s := S50000x64) S1000x64.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x192.size a ≤ S800000x192.size a
  hwx4_3 : ∀ i : grid4.Coords, EltTy.bits .bf16 = 32 ∨ (Rect.block (s := S800000x192) S5000x192.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1280.size a ≤ S1x800000.size a
  hwx5_0 : ∀ i : grid5.Coords, EltTy.bits .i32 = 32 ∨ (Rect.block (s := S1x800000) S1x1280.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1280x192.size a ≤ S800000x192.size a
  hwx5_1 : ∀ i : grid5.Coords, EltTy.bits .bf16 = 32 ∨ (Rect.block (s := S800000x192) S1280x192.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S192x64.size a ≤ S192x64.size a
  hwx5_2 : ∀ i : grid5.Coords, EltTy.bits .bf16 = 32 ∨ (Rect.block (s := S192x64) S192x64.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S50000x1.size a
  hwx5_4 : ∀ i : grid5.Coords, EltTy.bits .f32 = 32 ∨ (Rect.block (s := S50000x1) S5000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .bf16 = 32 ∨ (Rect.block (s := S50000x64) S5000x64.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x1.size a ≤ S800000x1.size a
  hwx6_0 : ∀ i : grid6.Coords, EltTy.bits .i32 = 32 ∨ (Rect.block (s := S800000x1) S5000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x3.size a ≤ S800000x3.size a
  hwx6_1 : ∀ i : grid6.Coords, EltTy.bits .f32 = 32 ∨ (Rect.block (s := S800000x3) S5000x3.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x64.size a ≤ S50000x64.size a
  hwx6_2 : ∀ i : grid6.Coords, EltTy.bits .bf16 = 32 ∨ (Rect.block (s := S50000x64) S1000x64.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x192.size a ≤ S800000x192.size a
  hwx6_3 : ∀ i : grid6.Coords, EltTy.bits .bf16 = 32 ∨ (Rect.block (s := S800000x192) S5000x192.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x1280.size a ≤ S1x800000.size a
  hwx7_0 : ∀ i : grid7.Coords, EltTy.bits .i32 = 32 ∨ (Rect.block (s := S1x800000) S1x1280.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1280x192.size a ≤ S800000x192.size a
  hwx7_1 : ∀ i : grid7.Coords, EltTy.bits .bf16 = 32 ∨ (Rect.block (s := S800000x192) S1280x192.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S192x64.size a ≤ S192x64.size a
  hwx7_2 : ∀ i : grid7.Coords, EltTy.bits .bf16 = 32 ∨ (Rect.block (s := S192x64) S192x64.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64.size a ≤ S64.size a
  hwx7_3 : ∀ i : grid7.Coords, EltTy.bits .f32 = 32 ∨ (Rect.block (s := S64) S64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x1.size a ≤ S50000x1.size a
  hwx7_4 : ∀ i : grid7.Coords, EltTy.bits .f32 = 32 ∨ (Rect.block (s := S50000x1) S5000x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)

variable [Facts₀]

def dot_S5000x1280_S1280x128_S5000x128_1_0_0_1_n_n : DotDims S5000x1280 S1280x128 S5000x128 where
  lhsContracting := [1]
  rhsContracting := [0]
  lhsNonContracting := [0]
  rhsNonContracting := [1]
  lhsBatch := []
  rhsBatch := []
  wf := dot_S5000x1280_S1280x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x1000_S1000x64_S5000x64_1_0_0_1_n_n : DotDims S5000x1000 S1000x64 S5000x64 where
  lhsContracting := [1]
  rhsContracting := [0]
  lhsNonContracting := [0]
  rhsNonContracting := [1]
  lhsBatch := []
  rhsBatch := []
  wf := dot_S5000x1000_S1000x64_S5000x64_1_0_0_1_n_n_wf
def dot_S5000x1280_S1280x192_S5000x192_1_0_0_1_n_n : DotDims S5000x1280 S1280x192 S5000x192 where
  lhsContracting := [1]
  rhsContracting := [0]
  lhsNonContracting := [0]
  rhsNonContracting := [1]
  lhsBatch := []
  rhsBatch := []
  wf := dot_S5000x1280_S1280x192_S5000x192_1_0_0_1_n_n_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf

abbrev win0_0 : Pipeline.Window sig grid0 :=
  Pipeline.Window.ofSpec (Memref.whole main_v5) S1x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S5000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S5000x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v5) S1x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S1280x192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S192x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v14) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v2) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S5000x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S5000x192.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v5) S1x1280.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S1280x192.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S192x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v10) S5000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v16) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v2) S5000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S5000x3.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v16) S1000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v17) S5000x192.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v5) S1x1280.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v17) S1280x192.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v9) S192x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg10) S64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v10) S5000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v18) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S800000x3 : Shape := ⟨2, ![800000, 3]⟩
abbrev S128x64 : Shape := ⟨2, ![128, 64]⟩
abbrev S64 : Shape := ⟨1, ![64]⟩
abbrev S192x64 : Shape := ⟨2, ![192, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x3x1 : Shape := ⟨3, ![800000, 3, 1]⟩
abbrev S800000x1x64 : Shape := ⟨3, ![800000, 1, 64]⟩
abbrev S800000x3x64 : Shape := ⟨3, ![800000, 3, 64]⟩
abbrev S800000x192 : Shape := ⟨2, ![800000, 192]⟩
abbrev S50000x192 : Shape := ⟨2, ![50000, 192]⟩
abbrev S50000 : Shape := ⟨1, ![50000]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S800000x3, .f32⟩
  | 3 => ⟨S128x64, .f32⟩
  | 4 => ⟨S64, .f32⟩
  | 5 => ⟨S192x64, .f32⟩
  | 6 => ⟨S64, .f32⟩
  | 7 => ⟨S192x64, .f32⟩
  | 8 => ⟨S64, .f32⟩
  | 9 => ⟨S192x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S1x64, .f32⟩
  | 17 => ⟨S50000x64, .f32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x3x1, .f32⟩
  | 29 => ⟨S800000x1x64, .f32⟩
  | 30 => ⟨S800000x3x64, .f32⟩
  | 31 => ⟨S800000x3x64, .f32⟩
  | 32 => ⟨S800000x3x64, .f32⟩
  | 33 => ⟨S800000x192, .f32⟩
  | 34 => ⟨S_, .f32⟩
  | 35 => ⟨S50000x192, .f32⟩
  | 36 => ⟨S800000x1, .i32⟩
  | 37 => ⟨S50000x192, .f32⟩
  | 38 => ⟨S_, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x192, .f32⟩
  | 49 => ⟨S50000x192, .f32⟩
  | 50 => ⟨S50000x64, .f32⟩
  | 51 => ⟨S1x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x3x1, .f32⟩
  | 67 => ⟨S800000x1x64, .f32⟩
  | 68 => ⟨S800000x3x64, .f32⟩
  | 69 => ⟨S800000x3x64, .f32⟩
  | 70 => ⟨S800000x3x64, .f32⟩
  | 71 => ⟨S800000x192, .f32⟩
  | 72 => ⟨S_, .f32⟩
  | 73 => ⟨S50000x192, .f32⟩
  | 74 => ⟨S800000x1, .i32⟩
  | 75 => ⟨S50000x192, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x192, .f32⟩
  | 87 => ⟨S50000x192, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S800000x3x1, .f32⟩
  | 105 => ⟨S800000x1x64, .f32⟩
  | 106 => ⟨S800000x3x64, .f32⟩
  | 107 => ⟨S800000x3x64, .f32⟩
  | 108 => ⟨S800000x3x64, .f32⟩
  | 109 => ⟨S800000x192, .f32⟩
  | 110 => ⟨S_, .f32⟩
  | 111 => ⟨S50000x192, .f32⟩
  | 112 => ⟨S800000x1, .i32⟩
  | 113 => ⟨S50000x192, .f32⟩
  | 114 => ⟨S_, .f32⟩
  | 115 => ⟨S800000, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x192, .f32⟩
  | 125 => ⟨S50000x192, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S50000x1, .f32⟩
  | 7 => ⟨S_, .f32⟩
  | 8 => ⟨S50000x1, .f32⟩
  | 9 => ⟨S50000x1, .f32⟩
  | 10 => ⟨S50000x64, .f32⟩
  | 11 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_c_4 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_16 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_17 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x3_S800000x3x1_0_1 : S800000x3.BroadcastsInDim S800000x3x1 (![0, 1] : Fin 2 → Fin S800000x3x1.rank)
  bcast_S800000x64_S800000x1x64_0_2 : S800000x64.BroadcastsInDim S800000x1x64 (![0, 2] : Fin 2 → Fin S800000x1x64.rank)
  bcast_S800000x3x1_S800000x3x64_0_1_2 : S800000x3x1.BroadcastsInDim S800000x3x64 (![0, 1, 2] : Fin 3 → Fin S800000x3x64.rank)
  bcast_S800000x1x64_S800000x3x64_0_1_2 : S800000x1x64.BroadcastsInDim S800000x3x64 (![0, 1, 2] : Fin 3 → Fin S800000x3x64.rank)
  shapeCasts_S800000x3x64_S800000x192 : S800000x3x64.ShapeCasts S800000x192
  bcast_S_S50000x192 : S_.BroadcastsInDim S50000x192 (![] : Fin 0 → Fin S50000x192.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x192_0_1 : S50000x1.BroadcastsInDim S50000x192 (![0, 1] : Fin 2 → Fin S50000x192.rank)
  bcast_S_S50000x64 : S_.BroadcastsInDim S50000x64 (![] : Fin 0 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x192_S800000x1_S800000x192_1_0_0_1_wf : ScatterDims.WF S50000x192 S800000x1 S800000x192 [1] [0] [0] 1
  scatter_S50000_S800000x1_S800000_n_0_0_1_wf : ScatterDims.WF S50000 S800000x1 S800000 [] [0] [0] 1
  dot_S50000x192_S192x64_S50000x64_1_0_0_1_n_n_wf : DotDims.WF S50000x192 S192x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def arr2 {n0 n1 : Nat} (f : Fin n0 → Fin n1 → EReal) : (⟨2, ![n0, n1]⟩ : Shape).Idx → EReal :=
  fun j => f (j 0) (j 1)

@[simp] theorem arr2_ix2 {n0 n1 : Nat} (f : Fin n0 → Fin n1 → EReal) (a : Fin n0) (b : Fin n1) :
    arr2 f (ix2 a b) = f a b := rfl

theorem arr2_apply {n0 n1 : Nat} (f : Fin n0 → Fin n1 → EReal) (j : (⟨2, ![n0, n1]⟩ : Shape).Idx) :
    arr2 f j = f (j 0) (j 1) := rfl

def lin {N K O : Nat} (a : Fin N → Fin K → EReal) (w : Fin K → Fin O → EReal) (b : Fin O → EReal)
    (n : Fin N) (o : Fin O) : EReal :=
  (∑ k : Fin K, a n k * w k o) + b o

abbrev endsIn (tgt : Fin 800000 → BitVec 32) (e : Fin 800000) (n : Fin 50000) : Prop :=
  (tgt e).toInt = (n.val : Int)

def indeg (tgt : Fin 800000 → BitVec 32) (n : Fin 50000) : EReal :=
  ∑ e : Fin 800000, if endsIn tgt e n then (1 : EReal) else 0

def rowOf (w : BitVec 32) : Fin 50000 := ⟨min w.toInt.toNat 49999, by omega⟩

def msg (h : Fin 50000 → Fin 64 → EReal) (src : Fin 800000 → BitVec 32) (ea : Fin 800000 → Fin 3 → EReal)
    (e : Fin 800000) (j : Fin 192) : EReal :=
  h (rowOf (src e)) ⟨j.val % 64, Nat.mod_lt _ (by decide)⟩ * ea e ⟨j.val / 64, by omega⟩

def msgSum (m : Fin 800000 → Fin 192 → EReal) (tgt : Fin 800000 → BitVec 32) (n : Fin 50000) (j : Fin 192) : EReal :=
  ∑ e : Fin 800000, if endsIn tgt e n then m e j else 0

def agg (m : Fin 800000 → Fin 192 → EReal) (tgt : Fin 800000 → BitVec 32) (cnt : Fin 50000 → EReal)
    (n : Fin 50000) (j : Fin 192) : EReal :=
  Ideal.div (msgSum m tgt n j) (max (cnt n) 1)

def layer (h : Fin 50000 → Fin 64 → EReal) (src tgt : Fin 800000 → BitVec 32) (ea : Fin 800000 → Fin 3 → EReal)
    (cnt : Fin 50000 → EReal) (w : Fin 192 → Fin 64 → EReal) (b : Fin 64 → EReal) : Fin 50000 → Fin 64 → EReal :=
  lin (agg (msg h src ea) tgt cnt) w b

def relu (h : Fin 50000 → Fin 64 → EReal) : Fin 50000 → Fin 64 → EReal := fun n o => max (h n o) 0

def normalize (eps : EReal) (h : Fin 50000 → Fin 64 → EReal) : Fin 50000 → Fin 64 → EReal := fun n o =>
  Ideal.div (h n o) (max (Ideal.sqrt (∑ k : Fin 64, h n k * h n k)) eps)

def net (eps : EReal) (x : Fin 50000 → Fin 128 → EReal) (src tgt : Fin 800000 → BitVec 32)
    (ea : Fin 800000 → Fin 3 → EReal) (pw : Fin 128 → Fin 64 → EReal) (pb : Fin 64 → EReal)
    (w1 : Fin 192 → Fin 64 → EReal) (b1 : Fin 64 → EReal) (w2 : Fin 192 → Fin 64 → EReal) (b2 : Fin 64 → EReal)
    (w3 : Fin 192 → Fin 64 → EReal) (b3 : Fin 64 → EReal) : Fin 50000 → Fin 64 → EReal :=
  let cnt := indeg tgt
  let h0 := lin x pw pb
  let h1 := relu (layer h0 src tgt ea cnt w1 b1)
  let h2 := relu (layer h1 src tgt ea cnt w2 b2)
  normalize eps (layer h2 src tgt ea cnt w3 b3)

end Cert.Spec

end
-- ==== Proof.I.Dat0.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S5000x1 .f32
  | 0, hn => k0_pay2 (grid0.coords ⟨0, hn⟩) (iblk0 V c 0 ⟨0, hn⟩) (k0_pay1 (F := F))
  | n + 1, hn =>
    if (n + 1) % 625 = 0 then k0_pay2 (grid0.coords ⟨n + 1, hn⟩) (iblk0 V c 0 ⟨n + 1, hn⟩) (k0_pay1 (F := F))
    else k0_pay2 (grid0.coords ⟨n + 1, hn⟩) (iblk0 V c 0 ⟨n + 1, hn⟩) (acc0 c n (Nat.lt_of_succ_lt hn))

theorem acc0_reset (c : Dev nD) (t : Fin cfg0.N) (h : t.val % 625 = 0) :
    acc0 V c t.val t.isLt = k0_pay2 (grid0.coords t) (iblk0 V c 0 t) (k0_pay1 (F := F)) := by
  obtain ⟨n, hn⟩ := t
  cases n with
  | zero => rfl
  | succ n => exact if_pos h

theorem acc0_step (c : Dev nD) (t : Fin cfg0.N) (h : ¬t.val % 625 = 0) :
    acc0 V c t.val t.isLt = k0_pay2 (grid0.coords t) (iblk0 V c 0 t)
      (acc0 V c (t.val - 1) (Nat.lt_of_le_of_lt (Nat.sub_le _ _) t.isLt)) := by
  obtain ⟨n, hn⟩ := t
  cases n with
  | zero => exact absurd (Nat.zero_mod _) h
  | succ n => exact if_neg h

abbrev scM0 : Memref sig .tc .vmem S5000x1 .f32 := Memref.whole cc0_scratch0

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

theorem PhiS0_succ (c : Dev nD) (n : ℕ) (hn : n < cfg0.N) :
    PhiS0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]

end

end Cert.KernelIdeal.Hand
end
-- ==== Proof.I.Dat1.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA
open Idealize.ShloMosaic.Pipeline (Dat)

variable {F : FTy → Type} [FloatOps F]

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1 (c : Dev nD) (t : Fin cfg1.N) : Vec F S5000x64 .f32 :=
  k1_pay1 (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

end

end Cert.KernelIdeal.Hand
end
-- ==== Proof.I.Dat2.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The scratch block after position n: the selected rows of this node block, over zeros at the first node block of an edge block and over the block before otherwise.
def acc2 (c : Dev nD) : (n : ℕ) → n < cfg2.N → Vec F S5000x64 .f32
  | 0, hn => k2_pay2 (grid2.coords ⟨0, hn⟩) (iblk2 V c 0 ⟨0, hn⟩) (k2_pay1 (F := F)) (iblk2 V c 2 ⟨0, hn⟩)
  | n + 1, hn =>
    if (n + 1) % 50 = 0 then k2_pay2 (grid2.coords ⟨n + 1, hn⟩) (iblk2 V c 0 ⟨n + 1, hn⟩) (k2_pay1 (F := F)) (iblk2 V c 2 ⟨n + 1, hn⟩)
    else k2_pay2 (grid2.coords ⟨n + 1, hn⟩) (iblk2 V c 0 ⟨n + 1, hn⟩) (acc2 c n (Nat.lt_of_succ_lt hn)) (iblk2 V c 2 ⟨n + 1, hn⟩)

theorem acc2_reset (c : Dev nD) (t : Fin cfg2.N) (h : t.val % 50 = 0) :
    acc2 V c t.val t.isLt = k2_pay2 (grid2.coords t) (iblk2 V c 0 t) (k2_pay1 (F := F)) (iblk2 V c 2 t) := by
  obtain ⟨n, hn⟩ := t
  cases n with
  | zero => rfl
  | succ n => exact if_pos h

theorem acc2_step (c : Dev nD) (t : Fin cfg2.N) (h : ¬t.val % 50 = 0) :
    acc2 V c t.val t.isLt = k2_pay2 (grid2.coords t) (iblk2 V c 0 t)
      (acc2 V c (t.val - 1) (Nat.lt_of_le_of_lt (Nat.sub_le _ _) t.isLt)) (iblk2 V c 2 t) := by
  obtain ⟨n, hn⟩ := t
  cases n with
  | zero => exact absurd (Nat.zero_mod _) h
  | succ n => exact if_neg h

def out2 (c : Dev nD) (t : Fin cfg2.N) : Vec F S5000x192 .bf16 :=
  k2_pay3 (acc2 V c t.val t.isLt) (iblk2 V c 1 t)

abbrev scM2 : Memref sig .tc .vmem S5000x64 .f32 := Memref.whole cc2_scratch0

-- The invariant before position n: the scratch at what the position before left (at anything before the first).
def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

theorem PhiS2_pos (c : Dev nD) (n : ℕ) (h : n ≤ cfg2.N) (hz : n ≠ 0) :
    PhiS2 V c n h = PhiS2 V c (n - 1 + 1) (by omega) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
end

end Cert.KernelIdeal.Hand
end
-- ==== Proof.I.Dat3.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S5000x192 .f32
  | 0, hn => k3_pay2 (grid3.coords ⟨0, hn⟩) (iblk3 V c 0 ⟨0, hn⟩) (k3_pay1 (F := F)) (iblk3 V c 1 ⟨0, hn⟩)
  | n + 1, hn =>
    if (n + 1) % 625 = 0 then k3_pay2 (grid3.coords ⟨n + 1, hn⟩) (iblk3 V c 0 ⟨n + 1, hn⟩) (k3_pay1 (F := F)) (iblk3 V c 1 ⟨n + 1, hn⟩)
    else k3_pay2 (grid3.coords ⟨n + 1, hn⟩) (iblk3 V c 0 ⟨n + 1, hn⟩) (acc3 c n (Nat.lt_of_succ_lt hn)) (iblk3 V c 1 ⟨n + 1, hn⟩)

theorem acc3_reset (c : Dev nD) (t : Fin cfg3.N) (h : t.val % 625 = 0) :
    acc3 V c t.val t.isLt = k3_pay2 (grid3.coords t) (iblk3 V c 0 t) (k3_pay1 (F := F)) (iblk3 V c 1 t) := by
  obtain ⟨n, hn⟩ := t
  cases n with
  | zero => rfl
  | succ n => exact if_pos h

theorem acc3_step (c : Dev nD) (t : Fin cfg3.N) (h : ¬t.val % 625 = 0) :
    acc3 V c t.val t.isLt = k3_pay2 (grid3.coords t) (iblk3 V c 0 t)
      (acc3 V c (t.val - 1) (Nat.lt_of_le_of_lt (Nat.sub_le _ _) t.isLt)) (iblk3 V c 1 t) := by
  obtain ⟨n, hn⟩ := t
  cases n with
  | zero => exact absurd (Nat.zero_mod _) h
  | succ n => exact if_neg h

def out3 (c : Dev nD) (t : Fin cfg3.N) :=
  k3_pay3 (acc3 V c t.val t.isLt) (iblk3 V c 4 t) (iblk3 V c 2 t) (iblk3 V c 3 t)

abbrev scM3 : Memref sig .tc .vmem S5000x192 .f32 := Memref.whole cc3_scratch0

def PhiS3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

theorem PhiS3_pos (c : Dev nD) (n : ℕ) (h : n ≤ cfg3.N) (hz : n ≠ 0) :
    PhiS3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := PhiS3 V c t.val (Nat.le_of_lt_succ t.isLt)
  q _ := fullShare
  owed _ := 0

theorem after3_5 (c : Dev nD) (t : Fin cfg3.N) : (dat3 V c).after 5 t = out3 V c t := by dsimp only [dat3]

end

end Cert.KernelIdeal.Hand
end
-- ==== Proof.I.Dat4.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- The scratch block after position n: the selected rows of this node block, over zeros at the first node block of an edge block and over the block before otherwise.
def acc4 (c : Dev nD) : (n : ℕ) → n < cfg4.N → Vec F S5000x64 .f32
  | 0, hn => k4_pay2 (grid4.coords ⟨0, hn⟩) (iblk4 V c 0 ⟨0, hn⟩) (k4_pay1 (F := F)) (iblk4 V c 2 ⟨0, hn⟩)
  | n + 1, hn =>
    if (n + 1) % 50 = 0 then k4_pay2 (grid4.coords ⟨n + 1, hn⟩) (iblk4 V c 0 ⟨n + 1, hn⟩) (k4_pay1 (F := F)) (iblk4 V c 2 ⟨n + 1, hn⟩)
    else k4_pay2 (grid4.coords ⟨n + 1, hn⟩) (iblk4 V c 0 ⟨n + 1, hn⟩) (acc4 c n (Nat.lt_of_succ_lt hn)) (iblk4 V c 2 ⟨n + 1, hn⟩)

theorem acc4_reset (c : Dev nD) (t : Fin cfg4.N) (h : t.val % 50 = 0) :
    acc4 V c t.val t.isLt = k4_pay2 (grid4.coords t) (iblk4 V c 0 t) (k4_pay1 (F := F)) (iblk4 V c 2 t) := by
  obtain ⟨n, hn⟩ := t
  cases n with
  | zero => rfl
  | succ n => exact if_pos h

theorem acc4_step (c : Dev nD) (t : Fin cfg4.N) (h : ¬t.val % 50 = 0) :
    acc4 V c t.val t.isLt = k4_pay2 (grid4.coords t) (iblk4 V c 0 t)
      (acc4 V c (t.val - 1) (Nat.lt_of_le_of_lt (Nat.sub_le _ _) t.isLt)) (iblk4 V c 2 t) := by
  obtain ⟨n, hn⟩ := t
  cases n with
  | zero => exact absurd (Nat.zero_mod _) h
  | succ n => exact if_neg h

def out4 (c : Dev nD) (t : Fin cfg4.N) : Vec F S5000x192 .bf16 :=
  k4_pay3 (acc4 V c t.val t.isLt) (iblk4 V c 1 t)

abbrev scM4 : Memref sig .tc .vmem S5000x64 .f32 := Memref.whole cc4_scratch0

-- The invariant before position n: the scratch at what the position before left (at anything before the first).
def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

theorem PhiS4_pos (c : Dev nD) (n : ℕ) (h : n ≤ cfg4.N) (hz : n ≠ 0) :
    PhiS4 V c n h = PhiS4 V c (n - 1 + 1) (by omega) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
end

end Cert.KernelIdeal.Hand
end
-- ==== Proof.I.Dat5.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S5000x192 .f32
  | 0, hn => k5_pay2 (grid5.coords ⟨0, hn⟩) (iblk5 V c 0 ⟨0, hn⟩) (k5_pay1 (F := F)) (iblk5 V c 1 ⟨0, hn⟩)
  | n + 1, hn =>
    if (n + 1) % 625 = 0 then k5_pay2 (grid5.coords ⟨n + 1, hn⟩) (iblk5 V c 0 ⟨n + 1, hn⟩) (k5_pay1 (F := F)) (iblk5 V c 1 ⟨n + 1, hn⟩)
    else k5_pay2 (grid5.coords ⟨n + 1, hn⟩) (iblk5 V c 0 ⟨n + 1, hn⟩) (acc5 c n (Nat.lt_of_succ_lt hn)) (iblk5 V c 1 ⟨n + 1, hn⟩)

theorem acc5_reset (c : Dev nD) (t : Fin cfg5.N) (h : t.val % 625 = 0) :
    acc5 V c t.val t.isLt = k5_pay2 (grid5.coords t) (iblk5 V c 0 t) (k5_pay1 (F := F)) (iblk5 V c 1 t) := by
  obtain ⟨n, hn⟩ := t
  cases n with
  | zero => rfl
  | succ n => exact if_pos h

theorem acc5_step (c : Dev nD) (t : Fin cfg5.N) (h : ¬t.val % 625 = 0) :
    acc5 V c t.val t.isLt = k5_pay2 (grid5.coords t) (iblk5 V c 0 t)
      (acc5 V c (t.val - 1) (Nat.lt_of_le_of_lt (Nat.sub_le _ _) t.isLt)) (iblk5 V c 1 t) := by
  obtain ⟨n, hn⟩ := t
  cases n with
  | zero => exact absurd (Nat.zero_mod _) h
  | succ n => exact if_neg h

def out5 (c : Dev nD) (t : Fin cfg5.N) :=
  k5_pay3 (acc5 V c t.val t.isLt) (iblk5 V c 4 t) (iblk5 V c 2 t) (iblk5 V c 3 t)

abbrev scM5 : Memref sig .tc .vmem S5000x192 .f32 := Memref.whole cc5_scratch0

def PhiS5 (c : Dev nD) : (n : ℕ) → n ≤ cfg5.N → sProp 𝕄
  | 0, _ => Pipeline.ΦA spec5 c
  | n + 1, hn => iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c t
  Φ t := PhiS5 V c t.val (Nat.le_of_lt_succ t.isLt)
  q _ := fullShare
  owed _ := 0

theorem after5_5 (c : Dev nD) (t : Fin cfg5.N) : (dat5 V c).after 5 t = out5 V c t := by dsimp only [dat5]

end

end Cert.KernelIdeal.Hand
end
-- ==== Proof.I.Dat6.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

-- The scratch block after position n: the selected rows of this node block, over zeros at the first node block of an edge block and over the block before otherwise.
def acc6 (c : Dev nD) : (n : ℕ) → n < cfg6.N → Vec F S5000x64 .f32
  | 0, hn => k6_pay2 (grid6.coords ⟨0, hn⟩) (iblk6 V c 0 ⟨0, hn⟩) (k6_pay1 (F := F)) (iblk6 V c 2 ⟨0, hn⟩)
  | n + 1, hn =>
    if (n + 1) % 50 = 0 then k6_pay2 (grid6.coords ⟨n + 1, hn⟩) (iblk6 V c 0 ⟨n + 1, hn⟩) (k6_pay1 (F := F)) (iblk6 V c 2 ⟨n + 1, hn⟩)
    else k6_pay2 (grid6.coords ⟨n + 1, hn⟩) (iblk6 V c 0 ⟨n + 1, hn⟩) (acc6 c n (Nat.lt_of_succ_lt hn)) (iblk6 V c 2 ⟨n + 1, hn⟩)

theorem acc6_reset (c : Dev nD) (t : Fin cfg6.N) (h : t.val % 50 = 0) :
    acc6 V c t.val t.isLt = k6_pay2 (grid6.coords t) (iblk6 V c 0 t) (k6_pay1 (F := F)) (iblk6 V c 2 t) := by
  obtain ⟨n, hn⟩ := t
  cases n with
  | zero => rfl
  | succ n => exact if_pos h

theorem acc6_step (c : Dev nD) (t : Fin cfg6.N) (h : ¬t.val % 50 = 0) :
    acc6 V c t.val t.isLt = k6_pay2 (grid6.coords t) (iblk6 V c 0 t)
      (acc6 V c (t.val - 1) (Nat.lt_of_le_of_lt (Nat.sub_le _ _) t.isLt)) (iblk6 V c 2 t) := by
  obtain ⟨n, hn⟩ := t
  cases n with
  | zero => exact absurd (Nat.zero_mod _) h
  | succ n => exact if_neg h

def out6 (c : Dev nD) (t : Fin cfg6.N) : Vec F S5000x192 .bf16 :=
  k6_pay3 (acc6 V c t.val t.isLt) (iblk6 V c 1 t)

abbrev scM6 : Memref sig .tc .vmem S5000x64 .f32 := Memref.whole cc6_scratch0

-- The invariant before position n: the scratch at what the position before left (at anything before the first).
def PhiS6 (c : Dev nD) : (n : ℕ) → n ≤ cfg6.N → sProp 𝕄
  | 0, _ => Pipeline.ΦA spec6 c
  | n + 1, hn => iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r))

theorem PhiS6_succ (c : Dev nD) (n : ℕ) (hn : n < cfg6.N) :
    PhiS6 V c (n + 1) hn = iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r)) := rfl

theorem PhiS6_pos (c : Dev nD) (n : ℕ) (h : n ≤ cfg6.N) (hz : n ≠ 0) :
    PhiS6 V c n h = PhiS6 V c (n - 1 + 1) (by omega) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
end

end Cert.KernelIdeal.Hand
end
-- ==== Proof.I.Dat7.lean ====
import proofs.«408094_j50861002719986_3_alg».proof.Proof.Gen.KernelIdeal.Skeleton
import proofs.«408094_j50861002719986_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S5000x192 .f32
  | 0, hn => k7_pay2 (grid7.coords ⟨0, hn⟩) (iblk7 V c 0 ⟨0, hn⟩) (k7_pay1 (F := F)) (iblk7 V c 1 ⟨0, hn⟩)
  | n + 1, hn =>
    if (n + 1) % 625 = 0 then k7_pay2 (grid7.coords ⟨n + 1, hn⟩) (iblk7 V c 0 ⟨n + 1, hn⟩) (k7_pay1 (F := F)) (iblk7 V c 1 ⟨n + 1, hn⟩)
    else k7_pay2 (grid7.coords ⟨n + 1, hn⟩) (iblk7 V c 0 ⟨n + 1, hn⟩) (acc7 c n (Nat.lt_of_succ_lt hn)) (iblk7 V c 1 ⟨n + 1, hn⟩)

theorem acc7_reset (c : Dev nD) (t : Fin cfg7.N) (h : t.val % 625 = 0) :
    acc7 V c t.val t.isLt = k7_pay2 (grid7.coords t) (iblk7 V c 0 t) (k7_pay1 (F := F)) (iblk7 V c 1 t) := by
  obtain ⟨n, hn⟩ := t
  cases n with
  | zero => rfl
  | succ n => exact if_pos h

theorem acc7_step (c : Dev nD) (t : Fin cfg7.N) (h : ¬t.val % 625 = 0) :
    acc7 V c t.val t.isLt = k7_pay2 (grid7.coords t) (iblk7 V c 0 t)
      (acc7 V c (t.val - 1) (Nat.lt_of_le_of_lt (Nat.sub_le _ _) t.isLt)) (iblk7 V c 1 t) := by
  obtain ⟨n, hn⟩ := t
  cases n with
  | zero => exact absurd (Nat.zero_mod _) h
  | succ n => exact if_neg h

def out7 (c : Dev nD) (t : Fin cfg7.N) :=
  k7_pay3 (acc7 V c t.val t.isLt) (iblk7 V c 4 t) (iblk7 V c 2 t) (iblk7 V c 3 t)

abbrev scM7 : Memref sig .tc .vmem S5000x192 .f32 := Memref.whole cc7_scratch0

def PhiS7 (c : Dev nD) : (n : ℕ) → n ≤ cfg7.N → sProp 𝕄
  | 0, _ => Pipeline.ΦA spec7 c
  | n + 1, hn => iprop(owns (c : Thread nD τ) scM7 fullShare (acc7 V c n hn)
      ∗ Pipeline.scopedRestBut (Ix := Unit) (Name := ℕ) (U := UR sig nD τ) (Lvl := ℕ) (Val := Elt F) spec7 c [cc7_scratch0]
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(owns (c : Thread nD τ) scM7 fullShare (acc7 V c n hn)
      ∗ Pipeline.scopedRestBut (Ix := Unit) (Name := ℕ) (U := UR sig nD τ) (Lvl := ℕ) (Val := Elt F) spec7 c [cc7_scratch0]
      ∗ (∃ r, prngReg c r)) := rfl

theorem PhiS7_pos (c : Dev nD) (n : ℕ) (h : n ≤ cfg7.N) (hz : n ≠ 0) :
    PhiS7 V c n h = iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]
      ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 V c t
  Φ t := PhiS7 V c t.val (Nat.le_of_lt_succ t.isLt)
  q _ := fullShare
  owed _ := 0

theorem after7_5 (c : Dev nD) (t : Fin cfg7.N) : (dat7 V c).after 5 t = out7 V c t := by dsimp only [dat7]

end

end Cert.KernelIdeal.Hand
end
-- ==== Proof.I.PDats.lean ====
import proofs.«408094_j50861002719986_3_alg».proof.Proof.Gen.KernelIdeal.Regions
import proofs.«408094_j50861002719986_3_alg».proof.Proof.I.Dat0
import proofs.«408094_j50861002719986_3_alg».proof.Proof.I.Dat1
import proofs.«408094_j50861002719986_3_alg».proof.Proof.I.Dat2
import proofs.«408094_j50861002719986_3_alg».proof.Proof.I.Dat3
import proofs.«408094_j50861002719986_3_alg».proof.Proof.I.Dat4
import proofs.«408094_j50861002719986_3_alg».proof.Proof.I.Dat5
import proofs.«408094_j50861002719986_3_alg».proof.Proof.I.Dat6
import proofs.«408094_j50861002719986_3_alg».proof.Proof.I.Dat7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev U1 (c : Dev nD) : Valuation τ sig (Elt F) := StableHlo.after hostOps0 (fun b => m (c, b))
def o2 (c : Dev nD) : Buf (Elt F) ((c : Thread nD τ).loc main_v10) := (dat0 (rd (U1 m)) c).arrAt 1 cfg0.N
def U2 (c : Dev nD) : Valuation τ sig (Elt F) := Function.update (U1 m c) main_v10 (o2 m c)
def o3 (c : Dev nD) : Buf (Elt F) ((c : Thread nD τ).loc main_v11) := (dat1 (rd (U2 m)) c).arrAt 3 cfg1.N
def U3 (c : Dev nD) : Valuation τ sig (Elt F) := Function.update (U2 m c) main_v11 (o3 m c)
abbrev U4 (c : Dev nD) : Valuation τ sig (Elt F) := StableHlo.after hostOps2 (U3 m c)
def o5 (c : Dev nD) : Buf (Elt F) ((c : Thread nD τ).loc main_v13) := (dat2 (rd (U4 m)) c).arrAt 3 cfg2.N
def U5 (c : Dev nD) : Valuation τ sig (Elt F) := Function.update (U4 m c) main_v13 (o5 m c)
def o6 (c : Dev nD) : Buf (Elt F) ((c : Thread nD τ).loc main_v14) := (dat3 (rd (U5 m)) c).arrAt 5 cfg3.N
def U6 (c : Dev nD) : Valuation τ sig (Elt F) := Function.update (U5 m c) main_v14 (o6 m c)
def o7 (c : Dev nD) : Buf (Elt F) ((c : Thread nD τ).loc main_v15) := (dat4 (rd (U6 m)) c).arrAt 3 cfg4.N
def U7 (c : Dev nD) : Valuation τ sig (Elt F) := Function.update (U6 m c) main_v15 (o7 m c)
def o8 (c : Dev nD) : Buf (Elt F) ((c : Thread nD τ).loc main_v16) := (dat5 (rd (U7 m)) c).arrAt 5 cfg5.N
def U8 (c : Dev nD) : Valuation τ sig (Elt F) := Function.update (U7 m c) main_v16 (o8 m c)
def o9 (c : Dev nD) : Buf (Elt F) ((c : Thread nD τ).loc main_v17) := (dat6 (rd (U8 m)) c).arrAt 3 cfg6.N
def U9 (c : Dev nD) : Valuation τ sig (Elt F) := Function.update (U8 m c) main_v17 (o9 m c)
def o10 (c : Dev nD) : Buf (Elt F) ((c : Thread nD τ).loc main_v18) := (dat7 (rd (U9 m)) c).arrAt 5 cfg7.N
def U10 (c : Dev nD) : Valuation τ sig (Elt F) := Function.update (U9 m c) main_v18 (o10 m c)

def outs : Outs (F := F) := fun J r c =>
  match J with
  | 2 => U2 m c r
  | 3 => U3 m c r
  | 5 => U5 m c r
  | 6 => U6 m c r
  | 7 => U7 m c r
  | 8 => U8 m c r
  | 9 => U9 m c r
  | 10 => U10 m c r
  | _ => U1 m c r

theorem V1_eq (c : Dev nD) : V1 m c = U1 m c := rfl

-- An update at `r` with the value another update at `r` has there is that other update.
theorem update_update_self {V W : Valuation τ sig (Elt F)} (h : V = W) (r : DevRef τ sig) (o : r.ty.Contents (Elt F)) :
    Function.update V r (Function.update W r o r) = Function.update W r o := by rw [h, Function.update_self]

theorem V2_eq (c : Dev nD) : V2 m (outs m) c = U2 m c := update_update_self (V1_eq m c) ..
theorem V3_eq (c : Dev nD) : V3 m (outs m) c = U3 m c := update_update_self (V2_eq m c) ..
theorem V4_eq (c : Dev nD) : V4 m (outs m) c = U4 m c := congrArg (StableHlo.after hostOps2) (V3_eq m c)
theorem V5_eq (c : Dev nD) : V5 m (outs m) c = U5 m c := update_update_self (V4_eq m c) ..
theorem V6_eq (c : Dev nD) : V6 m (outs m) c = U6 m c := update_update_self (V5_eq m c) ..
theorem V7_eq (c : Dev nD) : V7 m (outs m) c = U7 m c := update_update_self (V6_eq m c) ..
theorem V8_eq (c : Dev nD) : V8 m (outs m) c = U8 m c := update_update_self (V7_eq m c) ..
theorem V9_eq (c : Dev nD) : V9 m (outs m) c = U9 m c := update_update_self (V8_eq m c) ..
theorem V10_eq (c : Dev nD) : V10 m (outs m) c = U10 m c := update_update_self (V9_eq m c) ..

abbrev Rr (c : Dev nD) : sProp 𝕄 :=
  iprop((∃ r, prngReg c r) ∗ ∃ W, owes (c : Thread nD τ) (0 : CellTallies nD τ sig Unit) W)

def pdats : (p : Fin 8) → (c : Dev nD) → Dat τ (Elt F) Unit ℕ (UR sig nD τ) ℕ (Pipeline.pin (pcfgs (F := F)) adm p) c
  | ⟨0, _⟩ => fun c => dat0 (rd (U1 m)) c
  | ⟨1, _⟩ => fun c => dat1 (rd (U2 m)) c
  | ⟨2, _⟩ => fun c => dat2 (rd (U4 m)) c
  | ⟨3, _⟩ => fun c => dat3 (rd (U5 m)) c
  | ⟨4, _⟩ => fun c => dat4 (rd (U6 m)) c
  | ⟨5, _⟩ => fun c => dat5 (rd (U7 m)) c
  | ⟨6, _⟩ => fun c => dat6 (rd (U8 m)) c
  | ⟨7, _⟩ => fun c => dat7 (rd (U9 m)) c

end Cert.KernelIdeal.Hand
end
-- ==== Proof.V.PreDecode.lean ====
import proofs.«408094_j50861002719986_3_alg».proof.Defs
import proofs.«408094_j50861002719986_3_alg».proof.Proof.Gen.Pre_finite_inputs
import Idealize.ShloMosaic.Lib.StableHlo.Predicate
import Idealize.ShloMosaic.Lib.ReduceAll
import Idealize.ShloMosaic.Lib.ValueIdx

noncomputable section

namespace Cert.KernelIdeal.PreDecode

open Idealize.ShloMosaic Idealize.ShloMosaic.ValueIdx Idealize.SL.Sem
open Cert.Pre_finite_inputs (S_ S800000 S1x800000 S2x800000)

local instance : Subsingleton S_.Idx := ⟨fun a b => funext fun d => d.elim0⟩

theorem ofBool_one (b : Bool) : BitVec.ofBool b = 1#1 ↔ b = true := by cases b <;> decide

theorem row0_read [Cert.Pre_finite_inputs.Facts] (a1 : IVec S2x800000 32) (e : Fin 800000) :
    shapeCast S800000 (extractStridedSlice S1x800000 ![0, 0] a1 Cert.Pre_finite_inputs.Facts.slices_S2x800000_S1x800000_0_0)
      Cert.Pre_finite_inputs.Facts.shapeCasts_S1x800000_S800000 (ix1 e) = a1 (ix2 0 e) := by
  unfold shapeCast
  have hk : Shape.reshapeEquiv Cert.Pre_finite_inputs.Facts.shapeCasts_S1x800000_S800000 (ix1 e) = (ix2 (0 : Fin 1) e : S1x800000.Idx) :=
    Shape.reshapeEquiv_eq_of_rowMajor _ (by
      rw [Shape.rowMajor_val_two, Shape.rowMajor_val_one]
      show (0 : Nat) * 800000 + e.val = e.val
      omega)
  rw [hk]
  unfold extractStridedSlice
  refine congrArg a1 (funext fun a => Fin.ext ?_)
  match a with
  | ⟨0, _⟩ => rfl
  | ⟨1, _⟩ => show 0 + e.val = e.val; omega

theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [ofBool_one] at h0 h1
  simp only [BitVec.sle, BitVec.slt, decide_eq_true_eq] at h0 h1
  have z : (0#32 : BitVec 32).toInt = 0 := by decide
  have f : (50000#32 : BitVec 32).toInt = 50000 := by decide
  rw [z] at h0
  rw [f] at h1
  exact ⟨h0, h1⟩

theorem part3_range [Cert.Pre_finite_inputs.Facts] (a1 : IVec S2x800000 32) (v48 : IVec S_ 1)
    (h : Cert.Pre_finite_inputs.fn_part3 (F := Ideal) a1 v48
      (shapeCast S800000 (extractStridedSlice S1x800000 ![0, 0] a1 Cert.Pre_finite_inputs.Facts.slices_S2x800000_S1x800000_0_0)
        Cert.Pre_finite_inputs.Facts.shapeCasts_S1x800000_S800000)
      (constantI S_ 32 0#32) = fun _ => 1#1) (e : Fin 800000) :
    0 ≤ (a1 (ix2 0 e)).toInt ∧ (a1 (ix2 0 e)).toInt < 50000 := by
  have h1 := congrFun h ix0
  unfold Cert.Pre_finite_inputs.fn_part3 at h1
  dsimp only at h1
  obtain ⟨-, hall⟩ := IntOp.andi_eq_one.1 h1
  have hel := Host.reduce_andi_all _ _ _ _ ix0 hall (ix1 e : S800000.Idx)
  obtain ⟨hge, hlt⟩ := IntOp.andi_eq_one.1 hel
  have hge' : IntOp.cmpi .sge (a1 (ix2 0 e)) 0#32 = 1#1 := (congrArg (fun w => IntOp.cmpi .sge w 0#32) (row0_read a1 e)).symm.trans hge
  have hlt' : IntOp.cmpi .slt (a1 (ix2 0 e)) 50000#32 = 1#1 := (congrArg (fun w => IntOp.cmpi .slt w 50000#32) (row0_read a1 e)).symm.trans hlt
  exact word_range _ hge' hlt'

theorem src_in_range [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (e : Fin 800000) :
    0 ≤ ((m ((c.tc : Thread Cert.KernelIdeal.nD Cert.KernelIdeal.τ).loc Cert.KernelIdeal.main_arg1) : Cert.KernelIdeal.S2x800000.Idx → BitVec 32) (ix2 0 e)).toInt
    ∧ ((m ((c.tc : Thread Cert.KernelIdeal.nD Cert.KernelIdeal.τ).loc Cert.KernelIdeal.main_arg1) : Cert.KernelIdeal.S2x800000.Idx → BitVec 32) (ix2 0 e)).toInt < 50000 :=
  part3_range (m ((c.tc : Thread Cert.KernelIdeal.nD Cert.KernelIdeal.τ).loc Cert.KernelIdeal.main_arg1)) _ (h c) e

end Cert.KernelIdeal.PreDecode

end
-- ==== Proof.B.Dat0.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S5000x1 .f32
  | 0, hn => k0_pay2 (grid0.coords ⟨0, hn⟩) (iblk0 V c 0 ⟨0, hn⟩) (k0_pay1 (F := F))
  | n + 1, hn =>
    if (n + 1) % 625 = 0 then k0_pay2 (grid0.coords ⟨n + 1, hn⟩) (iblk0 V c 0 ⟨n + 1, hn⟩) (k0_pay1 (F := F))
    else k0_pay2 (grid0.coords ⟨n + 1, hn⟩) (iblk0 V c 0 ⟨n + 1, hn⟩) (acc0 c n (Nat.lt_of_succ_lt hn))

theorem acc0_reset (c : Dev nD) (t : Fin cfg0.N) (h : t.val % 625 = 0) :
    acc0 V c t.val t.isLt = k0_pay2 (grid0.coords t) (iblk0 V c 0 t) (k0_pay1 (F := F)) := by
  obtain ⟨n, hn⟩ := t
  cases n with
  | zero => rfl
  | succ n => exact if_pos h

theorem acc0_step (c : Dev nD) (t : Fin cfg0.N) (h : ¬t.val % 625 = 0) :
    acc0 V c t.val t.isLt = k0_pay2 (grid0.coords t) (iblk0 V c 0 t)
      (acc0 V c (t.val - 1) (Nat.lt_of_le_of_lt (Nat.sub_le _ _) t.isLt)) := by
  obtain ⟨n, hn⟩ := t
  cases n with
  | zero => exact absurd (Nat.zero_mod _) h
  | succ n => exact if_neg h

abbrev scM0 : Memref sig .tc .vmem S5000x1 .f32 := Memref.whole cc0_scratch0

def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

theorem PhiS0_succ (c : Dev nD) (n : ℕ) (hn : n < cfg0.N) :
    PhiS0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]

end

end Cert.Kernel.Hand
end
-- ==== Proof.B.Dat1.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA
open Idealize.ShloMosaic.Pipeline (Dat)

variable {F : FTy → Type} [FloatOps F]

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1 (c : Dev nD) (t : Fin cfg1.N) : Vec F S5000x64 .f32 :=
  k1_pay1 (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

end

end Cert.Kernel.Hand
end
-- ==== Proof.B.Dat2.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The scratch block after position n: the selected rows of this node block, over zeros at the first node block of an edge block and over the block before otherwise.
def acc2 (c : Dev nD) : (n : ℕ) → n < cfg2.N → Vec F S5000x64 .f32
  | 0, hn => k2_pay2 (grid2.coords ⟨0, hn⟩) (iblk2 V c 0 ⟨0, hn⟩) (k2_pay1 (F := F)) (iblk2 V c 2 ⟨0, hn⟩)
  | n + 1, hn =>
    if (n + 1) % 50 = 0 then k2_pay2 (grid2.coords ⟨n + 1, hn⟩) (iblk2 V c 0 ⟨n + 1, hn⟩) (k2_pay1 (F := F)) (iblk2 V c 2 ⟨n + 1, hn⟩)
    else k2_pay2 (grid2.coords ⟨n + 1, hn⟩) (iblk2 V c 0 ⟨n + 1, hn⟩) (acc2 c n (Nat.lt_of_succ_lt hn)) (iblk2 V c 2 ⟨n + 1, hn⟩)

theorem acc2_reset (c : Dev nD) (t : Fin cfg2.N) (h : t.val % 50 = 0) :
    acc2 V c t.val t.isLt = k2_pay2 (grid2.coords t) (iblk2 V c 0 t) (k2_pay1 (F := F)) (iblk2 V c 2 t) := by
  obtain ⟨n, hn⟩ := t
  cases n with
  | zero => rfl
  | succ n => exact if_pos h

theorem acc2_step (c : Dev nD) (t : Fin cfg2.N) (h : ¬t.val % 50 = 0) :
    acc2 V c t.val t.isLt = k2_pay2 (grid2.coords t) (iblk2 V c 0 t)
      (acc2 V c (t.val - 1) (Nat.lt_of_le_of_lt (Nat.sub_le _ _) t.isLt)) (iblk2 V c 2 t) := by
  obtain ⟨n, hn⟩ := t
  cases n with
  | zero => exact absurd (Nat.zero_mod _) h
  | succ n => exact if_neg h

def out2 (c : Dev nD) (t : Fin cfg2.N) : Vec F S5000x192 .bf16 :=
  k2_pay3 (acc2 V c t.val t.isLt) (iblk2 V c 1 t)

abbrev scM2 : Memref sig .tc .vmem S5000x64 .f32 := Memref.whole cc2_scratch0

-- The invariant before position n: the scratch at what the position before left (at anything before the first).
def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

theorem PhiS2_pos (c : Dev nD) (n : ℕ) (h : n ≤ cfg2.N) (hz : n ≠ 0) :
    PhiS2 V c n h = PhiS2 V c (n - 1 + 1) (by omega) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
end

end Cert.Kernel.Hand
end
-- ==== Proof.B.Dat3.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S5000x192 .f32
  | 0, hn => k3_pay2 (grid3.coords ⟨0, hn⟩) (iblk3 V c 0 ⟨0, hn⟩) (k3_pay1 (F := F)) (iblk3 V c 1 ⟨0, hn⟩)
  | n + 1, hn =>
    if (n + 1) % 625 = 0 then k3_pay2 (grid3.coords ⟨n + 1, hn⟩) (iblk3 V c 0 ⟨n + 1, hn⟩) (k3_pay1 (F := F)) (iblk3 V c 1 ⟨n + 1, hn⟩)
    else k3_pay2 (grid3.coords ⟨n + 1, hn⟩) (iblk3 V c 0 ⟨n + 1, hn⟩) (acc3 c n (Nat.lt_of_succ_lt hn)) (iblk3 V c 1 ⟨n + 1, hn⟩)

theorem acc3_reset (c : Dev nD) (t : Fin cfg3.N) (h : t.val % 625 = 0) :
    acc3 V c t.val t.isLt = k3_pay2 (grid3.coords t) (iblk3 V c 0 t) (k3_pay1 (F := F)) (iblk3 V c 1 t) := by
  obtain ⟨n, hn⟩ := t
  cases n with
  | zero => rfl
  | succ n => exact if_pos h

theorem acc3_step (c : Dev nD) (t : Fin cfg3.N) (h : ¬t.val % 625 = 0) :
    acc3 V c t.val t.isLt = k3_pay2 (grid3.coords t) (iblk3 V c 0 t)
      (acc3 V c (t.val - 1) (Nat.lt_of_le_of_lt (Nat.sub_le _ _) t.isLt)) (iblk3 V c 1 t) := by
  obtain ⟨n, hn⟩ := t
  cases n with
  | zero => exact absurd (Nat.zero_mod _) h
  | succ n => exact if_neg h

def out3 (c : Dev nD) (t : Fin cfg3.N) :=
  k3_pay3 (acc3 V c t.val t.isLt) (iblk3 V c 4 t) (iblk3 V c 2 t) (iblk3 V c 3 t)

abbrev scM3 : Memref sig .tc .vmem S5000x192 .f32 := Memref.whole cc3_scratch0

def PhiS3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

theorem PhiS3_pos (c : Dev nD) (n : ℕ) (h : n ≤ cfg3.N) (hz : n ≠ 0) :
    PhiS3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := PhiS3 V c t.val (Nat.le_of_lt_succ t.isLt)
  q _ := fullShare
  owed _ := 0

theorem after3_5 (c : Dev nD) (t : Fin cfg3.N) : (dat3 V c).after 5 t = out3 V c t := by dsimp only [dat3]

end

end Cert.Kernel.Hand
end
-- ==== Proof.B.Dat4.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- The scratch block after position n: the selected rows of this node block, over zeros at the first node block of an edge block and over the block before otherwise.
def acc4 (c : Dev nD) : (n : ℕ) → n < cfg4.N → Vec F S5000x64 .f32
  | 0, hn => k4_pay2 (grid4.coords ⟨0, hn⟩) (iblk4 V c 0 ⟨0, hn⟩) (k4_pay1 (F := F)) (iblk4 V c 2 ⟨0, hn⟩)
  | n + 1, hn =>
    if (n + 1) % 50 = 0 then k4_pay2 (grid4.coords ⟨n + 1, hn⟩) (iblk4 V c 0 ⟨n + 1, hn⟩) (k4_pay1 (F := F)) (iblk4 V c 2 ⟨n + 1, hn⟩)
    else k4_pay2 (grid4.coords ⟨n + 1, hn⟩) (iblk4 V c 0 ⟨n + 1, hn⟩) (acc4 c n (Nat.lt_of_succ_lt hn)) (iblk4 V c 2 ⟨n + 1, hn⟩)

theorem acc4_reset (c : Dev nD) (t : Fin cfg4.N) (h : t.val % 50 = 0) :
    acc4 V c t.val t.isLt = k4_pay2 (grid4.coords t) (iblk4 V c 0 t) (k4_pay1 (F := F)) (iblk4 V c 2 t) := by
  obtain ⟨n, hn⟩ := t
  cases n with
  | zero => rfl
  | succ n => exact if_pos h

theorem acc4_step (c : Dev nD) (t : Fin cfg4.N) (h : ¬t.val % 50 = 0) :
    acc4 V c t.val t.isLt = k4_pay2 (grid4.coords t) (iblk4 V c 0 t)
      (acc4 V c (t.val - 1) (Nat.lt_of_le_of_lt (Nat.sub_le _ _) t.isLt)) (iblk4 V c 2 t) := by
  obtain ⟨n, hn⟩ := t
  cases n with
  | zero => exact absurd (Nat.zero_mod _) h
  | succ n => exact if_neg h

def out4 (c : Dev nD) (t : Fin cfg4.N) : Vec F S5000x192 .bf16 :=
  k4_pay3 (acc4 V c t.val t.isLt) (iblk4 V c 1 t)

abbrev scM4 : Memref sig .tc .vmem S5000x64 .f32 := Memref.whole cc4_scratch0

-- The invariant before position n: the scratch at what the position before left (at anything before the first).
def PhiS4 (c : Dev nD) : (n : ℕ) → n ≤ cfg4.N → sProp 𝕄
  | 0, _ => Pipeline.ΦA spec4 c
  | n + 1, hn => iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r))

theorem PhiS4_succ (c : Dev nD) (n : ℕ) (hn : n < cfg4.N) :
    PhiS4 V c (n + 1) hn = iprop(owns (c : Thread nD τ) scM4 fullShare (acc4 V c n hn)
      ∗ Pipeline.scopedRestBut (Ix := Unit) (Name := ℕ) (U := UR sig nD τ) (Lvl := ℕ) (Val := Elt F) spec4 c [cc4_scratch0]
      ∗ (∃ r, prngReg c r)) := rfl

theorem PhiS4_pos (c : Dev nD) (n : ℕ) (h : n ≤ cfg4.N) (hz : n ≠ 0) :
    PhiS4 V c n h = PhiS4 V c (n - 1 + 1) (by omega) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
end

end Cert.Kernel.Hand
end
-- ==== Proof.B.Dat5.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S5000x192 .f32
  | 0, hn => k5_pay2 (grid5.coords ⟨0, hn⟩) (iblk5 V c 0 ⟨0, hn⟩) (k5_pay1 (F := F)) (iblk5 V c 1 ⟨0, hn⟩)
  | n + 1, hn =>
    if (n + 1) % 625 = 0 then k5_pay2 (grid5.coords ⟨n + 1, hn⟩) (iblk5 V c 0 ⟨n + 1, hn⟩) (k5_pay1 (F := F)) (iblk5 V c 1 ⟨n + 1, hn⟩)
    else k5_pay2 (grid5.coords ⟨n + 1, hn⟩) (iblk5 V c 0 ⟨n + 1, hn⟩) (acc5 c n (Nat.lt_of_succ_lt hn)) (iblk5 V c 1 ⟨n + 1, hn⟩)

theorem acc5_reset (c : Dev nD) (t : Fin cfg5.N) (h : t.val % 625 = 0) :
    acc5 V c t.val t.isLt = k5_pay2 (grid5.coords t) (iblk5 V c 0 t) (k5_pay1 (F := F)) (iblk5 V c 1 t) := by
  obtain ⟨n, hn⟩ := t
  cases n with
  | zero => rfl
  | succ n => exact if_pos h

theorem acc5_step (c : Dev nD) (t : Fin cfg5.N) (h : ¬t.val % 625 = 0) :
    acc5 V c t.val t.isLt = k5_pay2 (grid5.coords t) (iblk5 V c 0 t)
      (acc5 V c (t.val - 1) (Nat.lt_of_le_of_lt (Nat.sub_le _ _) t.isLt)) (iblk5 V c 1 t) := by
  obtain ⟨n, hn⟩ := t
  cases n with
  | zero => exact absurd (Nat.zero_mod _) h
  | succ n => exact if_neg h

def out5 (c : Dev nD) (t : Fin cfg5.N) :=
  k5_pay3 (acc5 V c t.val t.isLt) (iblk5 V c 4 t) (iblk5 V c 2 t) (iblk5 V c 3 t)

abbrev scM5 : Memref sig .tc .vmem S5000x192 .f32 := Memref.whole cc5_scratch0

def PhiS5 (c : Dev nD) : (n : ℕ) → n ≤ cfg5.N → sProp 𝕄
  | 0, _ => Pipeline.ΦA spec5 c
  | n + 1, hn => iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (acc5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (acc5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 V c t
  Φ t := PhiS5 V c t.val (Nat.le_of_lt_succ t.isLt)
  q _ := fullShare
  owed _ := 0

theorem after5_5 (c : Dev nD) (t : Fin cfg5.N) : (dat5 V c).after 5 t = out5 V c t := by dsimp only [dat5]

end

end Cert.Kernel.Hand
end
-- ==== Proof.B.Dat6.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

-- The scratch block after position n: the selected rows of this node block, over zeros at the first node block of an edge block and over the block before otherwise.
def acc6 (c : Dev nD) : (n : ℕ) → n < cfg6.N → Vec F S5000x64 .f32
  | 0, hn => k6_pay2 (grid6.coords ⟨0, hn⟩) (iblk6 V c 0 ⟨0, hn⟩) (k6_pay1 (F := F)) (iblk6 V c 2 ⟨0, hn⟩)
  | n + 1, hn =>
    if (n + 1) % 50 = 0 then k6_pay2 (grid6.coords ⟨n + 1, hn⟩) (iblk6 V c 0 ⟨n + 1, hn⟩) (k6_pay1 (F := F)) (iblk6 V c 2 ⟨n + 1, hn⟩)
    else k6_pay2 (grid6.coords ⟨n + 1, hn⟩) (iblk6 V c 0 ⟨n + 1, hn⟩) (acc6 c n (Nat.lt_of_succ_lt hn)) (iblk6 V c 2 ⟨n + 1, hn⟩)

theorem acc6_reset (c : Dev nD) (t : Fin cfg6.N) (h : t.val % 50 = 0) :
    acc6 V c t.val t.isLt = k6_pay2 (grid6.coords t) (iblk6 V c 0 t) (k6_pay1 (F := F)) (iblk6 V c 2 t) := by
  obtain ⟨n, hn⟩ := t
  cases n with
  | zero => rfl
  | succ n => exact if_pos h

theorem acc6_step (c : Dev nD) (t : Fin cfg6.N) (h : ¬t.val % 50 = 0) :
    acc6 V c t.val t.isLt = k6_pay2 (grid6.coords t) (iblk6 V c 0 t)
      (acc6 V c (t.val - 1) (Nat.lt_of_le_of_lt (Nat.sub_le _ _) t.isLt)) (iblk6 V c 2 t) := by
  obtain ⟨n, hn⟩ := t
  cases n with
  | zero => exact absurd (Nat.zero_mod _) h
  | succ n => exact if_neg h

def out6 (c : Dev nD) (t : Fin cfg6.N) : Vec F S5000x192 .bf16 :=
  k6_pay3 (acc6 V c t.val t.isLt) (iblk6 V c 1 t)

abbrev scM6 : Memref sig .tc .vmem S5000x64 .f32 := Memref.whole cc6_scratch0

-- The invariant before position n: the scratch at what the position before left (at anything before the first).
def PhiS6 (c : Dev nD) : (n : ℕ) → n ≤ cfg6.N → sProp 𝕄
  | 0, _ => Pipeline.ΦA spec6 c
  | n + 1, hn => iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r))

theorem PhiS6_succ (c : Dev nD) (n : ℕ) (hn : n < cfg6.N) :
    PhiS6 V c (n + 1) hn = iprop(owns (c : Thread nD τ) scM6 fullShare (acc6 V c n hn)
      ∗ Pipeline.scopedRestBut (Ix := Unit) (Name := ℕ) (U := UR sig nD τ) (Lvl := ℕ) (Val := Elt F) spec6 c [cc6_scratch0]
      ∗ (∃ r, prngReg c r)) := rfl

theorem PhiS6_pos (c : Dev nD) (n : ℕ) (h : n ≤ cfg6.N) (hz : n ≠ 0) :
    PhiS6 V c n h = PhiS6 V c (n - 1 + 1) (by omega) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
end

end Cert.Kernel.Hand
end
-- ==== Proof.B.Dat7.lean ====
import proofs.«408094_j50861002719986_3_alg».proof.Proof.Gen.Kernel.Skeleton
import proofs.«408094_j50861002719986_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (c : Dev nD) : (n : ℕ) → n < cfg7.N → Vec F S5000x192 .f32
  | 0, hn => k7_pay2 (grid7.coords ⟨0, hn⟩) (iblk7 V c 0 ⟨0, hn⟩) (k7_pay1 (F := F)) (iblk7 V c 1 ⟨0, hn⟩)
  | n + 1, hn =>
    if (n + 1) % 625 = 0 then k7_pay2 (grid7.coords ⟨n + 1, hn⟩) (iblk7 V c 0 ⟨n + 1, hn⟩) (k7_pay1 (F := F)) (iblk7 V c 1 ⟨n + 1, hn⟩)
    else k7_pay2 (grid7.coords ⟨n + 1, hn⟩) (iblk7 V c 0 ⟨n + 1, hn⟩) (acc7 c n (Nat.lt_of_succ_lt hn)) (iblk7 V c 1 ⟨n + 1, hn⟩)

theorem acc7_reset (c : Dev nD) (t : Fin cfg7.N) (h : t.val % 625 = 0) :
    acc7 V c t.val t.isLt = k7_pay2 (grid7.coords t) (iblk7 V c 0 t) (k7_pay1 (F := F)) (iblk7 V c 1 t) := by
  obtain ⟨n, hn⟩ := t
  cases n with
  | zero => rfl
  | succ n => exact if_pos h

theorem acc7_step (c : Dev nD) (t : Fin cfg7.N) (h : ¬t.val % 625 = 0) :
    acc7 V c t.val t.isLt = k7_pay2 (grid7.coords t) (iblk7 V c 0 t)
      (acc7 V c (t.val - 1) (Nat.lt_of_le_of_lt (Nat.sub_le _ _) t.isLt)) (iblk7 V c 1 t) := by
  obtain ⟨n, hn⟩ := t
  cases n with
  | zero => exact absurd (Nat.zero_mod _) h
  | succ n => exact if_neg h

def out7 (c : Dev nD) (t : Fin cfg7.N) :=
  k7_pay3 (acc7 V c t.val t.isLt) (iblk7 V c 4 t) (iblk7 V c 2 t) (iblk7 V c 3 t)

abbrev scM7 : Memref sig .tc .vmem S5000x192 .f32 := Memref.whole cc7_scratch0

def PhiS7 (c : Dev nD) : (n : ℕ) → n ≤ cfg7.N → sProp 𝕄
  | 0, _ => Pipeline.ΦA spec7 c
  | n + 1, hn => iprop(owns (c : Thread nD τ) scM7 fullShare (acc7 V c n hn)
      ∗ Pipeline.scopedRestBut (Ix := Unit) (Name := ℕ) (U := UR sig nD τ) (Lvl := ℕ) (Val := Elt F) spec7 c [cc7_scratch0]
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(owns (c : Thread nD τ) scM7 fullShare (acc7 V c n hn)
      ∗ Pipeline.scopedRestBut (Ix := Unit) (Name := ℕ) (U := UR sig nD τ) (Lvl := ℕ) (Val := Elt F) spec7 c [cc7_scratch0]
      ∗ (∃ r, prngReg c r)) := rfl

theorem PhiS7_pos (c : Dev nD) (n : ℕ) (h : n ≤ cfg7.N) (hz : n ≠ 0) :
    PhiS7 V c n h = iprop(owns (c : Thread nD τ) scM7 fullShare (acc7 V c (n - 1) (by omega))
      ∗ Pipeline.scopedRestBut (Ix := Unit) (Name := ℕ) (U := UR sig nD τ) (Lvl := ℕ) (Val := Elt F) spec7 c [cc7_scratch0]
      ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 V c t
  Φ t := PhiS7 V c t.val (Nat.le_of_lt_succ t.isLt)
  q _ := fullShare
  owed _ := 0

theorem after7_5 (c : Dev nD) (t : Fin cfg7.N) : (dat7 V c).after 5 t = out7 V c t := by dsimp only [dat7]

end

end Cert.Kernel.Hand
end
-- ==== Proof.B.PDats.lean ====
import proofs.«408094_j50861002719986_3_alg».proof.Proof.Gen.Kernel.Regions
import proofs.«408094_j50861002719986_3_alg».proof.Proof.B.Dat0
import proofs.«408094_j50861002719986_3_alg».proof.Proof.B.Dat1
import proofs.«408094_j50861002719986_3_alg».proof.Proof.B.Dat2
import proofs.«408094_j50861002719986_3_alg».proof.Proof.B.Dat3
import proofs.«408094_j50861002719986_3_alg».proof.Proof.B.Dat4
import proofs.«408094_j50861002719986_3_alg».proof.Proof.B.Dat5
import proofs.«408094_j50861002719986_3_alg».proof.Proof.B.Dat6
import proofs.«408094_j50861002719986_3_alg».proof.Proof.B.Dat7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

abbrev U1 (c : Dev nD) : Valuation τ sig (Elt F) := StableHlo.after hostOps0 (fun b => m (c, b))
def o2 (c : Dev nD) : Buf (Elt F) ((c : Thread nD τ).loc main_v10) := (dat0 (rd (U1 m)) c).arrAt 1 cfg0.N
def U2 (c : Dev nD) : Valuation τ sig (Elt F) := Function.update (U1 m c) main_v10 (o2 m c)
def o3 (c : Dev nD) : Buf (Elt F) ((c : Thread nD τ).loc main_v11) := (dat1 (rd (U2 m)) c).arrAt 3 cfg1.N
def U3 (c : Dev nD) : Valuation τ sig (Elt F) := Function.update (U2 m c) main_v11 (o3 m c)
abbrev U4 (c : Dev nD) : Valuation τ sig (Elt F) := StableHlo.after hostOps2 (U3 m c)
def o5 (c : Dev nD) : Buf (Elt F) ((c : Thread nD τ).loc main_v13) := (dat2 (rd (U4 m)) c).arrAt 3 cfg2.N
def U5 (c : Dev nD) : Valuation τ sig (Elt F) := Function.update (U4 m c) main_v13 (o5 m c)
def o6 (c : Dev nD) : Buf (Elt F) ((c : Thread nD τ).loc main_v14) := (dat3 (rd (U5 m)) c).arrAt 5 cfg3.N
def U6 (c : Dev nD) : Valuation τ sig (Elt F) := Function.update (U5 m c) main_v14 (o6 m c)
def o7 (c : Dev nD) : Buf (Elt F) ((c : Thread nD τ).loc main_v15) := (dat4 (rd (U6 m)) c).arrAt 3 cfg4.N
def U7 (c : Dev nD) : Valuation τ sig (Elt F) := Function.update (U6 m c) main_v15 (o7 m c)
def o8 (c : Dev nD) : Buf (Elt F) ((c : Thread nD τ).loc main_v16) := (dat5 (rd (U7 m)) c).arrAt 5 cfg5.N
def U8 (c : Dev nD) : Valuation τ sig (Elt F) := Function.update (U7 m c) main_v16 (o8 m c)
def o9 (c : Dev nD) : Buf (Elt F) ((c : Thread nD τ).loc main_v17) := (dat6 (rd (U8 m)) c).arrAt 3 cfg6.N
def U9 (c : Dev nD) : Valuation τ sig (Elt F) := Function.update (U8 m c) main_v17 (o9 m c)
def o10 (c : Dev nD) : Buf (Elt F) ((c : Thread nD τ).loc main_v18) := (dat7 (rd (U9 m)) c).arrAt 5 cfg7.N
def U10 (c : Dev nD) : Valuation τ sig (Elt F) := Function.update (U9 m c) main_v18 (o10 m c)

def outs : Outs (F := F) := fun J r c =>
  match J with
  | 2 => U2 m c r
  | 3 => U3 m c r
  | 5 => U5 m c r
  | 6 => U6 m c r
  | 7 => U7 m c r
  | 8 => U8 m c r
  | 9 => U9 m c r
  | 10 => U10 m c r
  | _ => U1 m c r

theorem V1_eq (c : Dev nD) : V1 m c = U1 m c := rfl

-- An update at `r` with the value another update at `r` has there is that other update.
theorem update_update_self {V W : Valuation τ sig (Elt F)} (h : V = W) (r : DevRef τ sig) (o : r.ty.Contents (Elt F)) :
    Function.update V r (Function.update W r o r) = Function.update W r o := by rw [h, Function.update_self]

theorem V2_eq (c : Dev nD) : V2 m (outs m) c = U2 m c := update_update_self (V1_eq m c) ..
theorem V3_eq (c : Dev nD) : V3 m (outs m) c = U3 m c := update_update_self (V2_eq m c) ..
theorem V4_eq (c : Dev nD) : V4 m (outs m) c = U4 m c := congrArg (StableHlo.after hostOps2) (V3_eq m c)
theorem V5_eq (c : Dev nD) : V5 m (outs m) c = U5 m c := update_update_self (V4_eq m c) ..
theorem V6_eq (c : Dev nD) : V6 m (outs m) c = U6 m c := update_update_self (V5_eq m c) ..
theorem V7_eq (c : Dev nD) : V7 m (outs m) c = U7 m c := update_update_self (V6_eq m c) ..
theorem V8_eq (c : Dev nD) : V8 m (outs m) c = U8 m c := update_update_self (V7_eq m c) ..
theorem V9_eq (c : Dev nD) : V9 m (outs m) c = U9 m c := update_update_self (V8_eq m c) ..
theorem V10_eq (c : Dev nD) : V10 m (outs m) c = U10 m c := update_update_self (V9_eq m c) ..

abbrev Rr (c : Dev nD) : sProp 𝕄 :=
  iprop((∃ r, prngReg c r) ∗ ∃ W, owes (c : Thread nD τ) (0 : CellTallies nD τ sig Unit) W)

def pdats : (p : Fin 8) → (c : Dev nD) → Dat τ (Elt F) Unit ℕ (UR sig nD τ) ℕ (Pipeline.pin (pcfgs (F := F)) adm p) c
  | ⟨0, _⟩ => fun c => dat0 (rd (U1 m)) c
  | ⟨1, _⟩ => fun c => dat1 (rd (U2 m)) c
  | ⟨2, _⟩ => fun c => dat2 (rd (U4 m)) c
  | ⟨3, _⟩ => fun c => dat3 (rd (U5 m)) c
  | ⟨4, _⟩ => fun c => dat4 (rd (U6 m)) c
  | ⟨5, _⟩ => fun c => dat5 (rd (U7 m)) c
  | ⟨6, _⟩ => fun c => dat6 (rd (U8 m)) c
  | ⟨7, _⟩ => fun c => dat7 (rd (U9 m)) c

end Cert.Kernel.Hand
end
-- ==== Proof.B.RegOf.lean ====
import proofs.«408094_j50861002719986_3_alg».proof.Proof.B.PDats

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (p : Fin 8)

-- The type of region `p`'s record as a segment of the run: no semaphore of its own, nothing owed.
abbrev Reg := Pipeline.RegionSeg (pcfgs (F := F)) adm (pdats m) () defs₀ Variants.none (fun _ => ∅) (fun _ _ => 0) p

variable (Uin : Dev nD → Valuation τ sig (Elt F)) (outw : Fin (cfgs p).W)

-- The exit valuation: the entry valuation with the output window's array at its final contents.
def Uout (c : Dev nD) : Valuation τ sig (Elt F) :=
  Function.update (Uin c) (Pipeline.arrRef (cfgs p).spec outw) ((pdats m p c).arrAt outw (cfgs p).N)

set_option backward.isDefEq.respectTransparency.types false in
-- One output window: the valuation changes at that window's array only (inputs keep their entry contents; the arrays are distinct).
def regOf (kit : Pipeline.LaunchFacts (nD := nD) (τ := τ) cfgs p)
    (hΦN : ∀ c, (pdats m p c).Φ (Fin.last (cfgs p).N) ⊢ Pipeline.ΦA (cfgs p).spec c)
    (hbody : ∀ c, BodyObligation (pdats m p c) (defs₀ (F := F)) Variants.none () Set.univ)
    (hin : ∀ w, w ≠ outw → ((cfgs p).win w).isOut = false := by decide)
    (hq : ∀ c w, (pdats m p c).q w = fullShare := by exact fun _ _ => rfl)
    (hA : ∀ c w, (pdats m p c).A w = rd Uin c (Pipeline.arrRef (cfgs p).spec w) := by exact fun _ _ => rfl)
    (howed : ∀ c t, (pdats m p c).owed t = 0 := by exact fun _ _ => rfl)
    (hrec : ∀ c, (pdats m p c).recorded 0 = Set.univ := by exact fun _ => rfl)
    (hΦ0 : ∀ c, (pdats m p c).Φ 0 = Pipeline.ΦA (cfgs p).spec c := by exact fun _ => rfl) :
    Reg m p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (Uin c) ∗ Rr c)
  post c := iprop(StableHlo.held (c : Thread nD τ) (Pipeline.ucRefs τ sig) (Uout m p Uin outw c) ∗ Rr c)
  X c := iprop(∃ r, prngReg c r)
  Y c := iprop(∃ r, prngReg c r)
  Z c := Pipeline.unscopedRest (Ix := Unit) (Name := ℕ) (U := UR sig nD τ) (Lvl := ℕ) (cfgs p).spec c (rd Uin c)
  hentry c := by
    rw [Pipeline.ownSems0_none]
    have hsplit := Pipeline.arrays_of_unscopedBufs (p := p) (pcfgs (F := F)) adm (pdats m) kit.win kit.arr_whole c
      ((pdats m p c).share_full (hq c)) (rd Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c ▸ trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (rd Uin c) (rd (Uout m p Uin outw) c) ((pdats m p c).arrAt · (cfgs p).N)
      (fun w => by
        by_cases hw : w = outw
        · subst hw; exact (Function.update_self (f := Uin c) ..).symm
        · refine ((pdats m p c).arrAt_in w (hin w hw) _).trans ((hA c w).trans ?_)
          exact (Function.update_of_ne (StableHlo.devRef_ne_of_ne fun e => hw (kit.win.arr_inj e)) ..).symm)
      (fun b hb => Function.update_of_ne (StableHlo.devRef_ne_of_ne fun e =>
        hb (Finset.mem_image.mpr ⟨outw, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.Kernel.Hand
end
-- ==== Proof.B.Whole.lean ====
import Idealize.ShloMosaic.Lib.Pipeline.Value

namespace Cert.Kernel.Hand

open Idealize.ShloMosaic

theorem zeros2 : (![0, 0] : Fin 2 → Nat) = fun _ => 0 := funext fun a => by fin_cases a <;> rfl

theorem zeros1 : (![0] : Fin 1 → Nat) = fun _ => 0 := funext fun a => by fin_cases a <;> rfl

-- A view whose last store covers it whole reads as that store's payload: every index lies in the first piece.
theorem whole_stored {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

end Cert.Kernel.Hand
-- ==== Proof.B.Body0.lean ====
import proofs.«408094_j50861002719986_3_alg».proof.Proof.B.Dat0
import proofs.«408094_j50861002719986_3_alg».proof.Proof.B.Whole
import proofs.«408094_j50861002719986_3_alg».proof.Proof.Gen.Kernel.Points
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 625 = 0 :=
  (by decide +kernel : ∀ t : Fin grid0.N, cond0_0 (grid0.coords t) ↔ t.val % 625 = 0)

abbrev cond0_1 (i : grid0.Coords) : Prop := k0_cond2 i = 1#1
theorem hcond0_1 : ∀ t : Fin cfg0.N, cond0_1 (grid0.coords t) ↔ t.val % 625 = 624 :=
  (by decide +kernel : ∀ t : Fin grid0.N, cond0_1 (grid0.coords t) ↔ t.val % 625 = 624)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem liveAt0_1 : ∀ t : Fin cfg0.N, cond0_1 (grid0.coords t) → cfg0.idle 1 (grid0.coords t) = false := by decide +kernel
theorem noFlush0_1 (t : Fin cfg0.N) (h : ¬t.val % 625 = 624) : (cfg0.win 1).flush t = false := by
  cases hf : (cfg0.win 1).flush t with
  | false => rfl
  | true => exact absurd ((flush0_1 t).mp hf) h

abbrev ms0_0 (t : Fin cfg0.N) : Memref sig .tc .vmem S1x1280 .i32 := win0_0.stage (cfg0.slots t 0)
abbrev ms0_1 (t : Fin cfg0.N) : Memref sig .tc .vmem S5000x1 .f32 := win0_1.stage (cfg0.slots t 1)
private theorem k0_readAt_unit {S : Shape} {e : EltTy} (m : Memref sig .tc .vmem S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread]; exact View.ld_unit_zero h inb X

private theorem k0_whole_owns (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) := by
  simp only [owns_whole]

set_option maxHeartbeats 1000000 in
theorem sound_kernel0_first (c : Dev nD) (i : grid0.Coords)
    (arg2 : Memref sig .tc .vmem S1x1280 .i32) (harg2 : arg2.IsWhole)
    (arg3 : Memref sig .tc .vmem S5000x1 .f32) (harg3 : arg3.IsWhole)
    (arg4 : Memref sig .tc .vmem S5000x1 .f32) (harg4 : arg4.IsWhole)
    (hca : cond0_0 i) (hcb : ¬cond0_1 i) (xi : Vec F S1x1280 .i32) (xo : Vec F S5000x1 .f32)
    (E : Set ℕ) (K : PUnit → sProp 𝕄) :
    iprop(owns (c : Thread nD τ) arg2 fullShare xi ∗ owns (c : Thread nD τ) arg3 fullShare xo
        ∗ (∃ d, owns (c : Thread nD τ) arg4 fullShare d)
        ∗ (iprop(owns (c : Thread nD τ) arg2 fullShare xi ∗ owns (c : Thread nD τ) arg3 fullShare xo
            ∗ owns (c : Thread nD τ) arg4 fullShare (k0_pay2 i xi (k0_pay1 (F := F)))) -∗ K ⟨⟩))
      ⊢ wp frame (wpE (defs₀ (F := F)) Variants.none c none) E (cc0__indegree_kernel i arg2 harg2 arg3 harg3 arg4 harg4) K := by
  simp only [cc0__indegree_kernel_eq_skeleton]; unfold cc0__indegree_kernel_skel
  unfold owns
  iintro ⟨⟨%fi, %hfi, HI⟩, ⟨%fo, %hfo, HO⟩, ⟨%ds, %fs, -, HS⟩, Hk⟩
  obtain rfl := harg2.eq_unread hfi
  sl_exec (disch := first | exact hca | exact hcb)
  sl_step
  iapply Hk
  isplitl [HI]
  · iexists _; isplitr; · ipureintro; exact harg2.read_unread _
    iexact HI
  isplitl [HO]
  · iexists _; isplitr; · ipureintro; exact hfo
    iexact HO
  iexists _; isplitr
  swap; · iexact HS
  ipureintro
  sl_unfold_run_names
  refine (whole_stored arg4.view _ zeros2 _ _ _).trans ?_
  exact congrArg₂ (k0_pay2 i) (k0_readAt_unit arg2 harg2 zeros2 _ xi) (View.readCov_unit_zero _ zeros2 _ _)

set_option maxHeartbeats 1000000 in
theorem sound_kernel0_middle (c : Dev nD) (i : grid0.Coords)
    (arg2 : Memref sig .tc .vmem S1x1280 .i32) (harg2 : arg2.IsWhole)
    (arg3 : Memref sig .tc .vmem S5000x1 .f32) (harg3 : arg3.IsWhole)
    (arg4 : Memref sig .tc .vmem S5000x1 .f32) (harg4 : arg4.IsWhole)
    (hca : ¬cond0_0 i) (hcb : ¬cond0_1 i) (xi : Vec F S1x1280 .i32) (xo : Vec F S5000x1 .f32) (xs : Vec F S5000x1 .f32)
    (E : Set ℕ) (K : PUnit → sProp 𝕄) :
    iprop(owns (c : Thread nD τ) arg2 fullShare xi ∗ owns (c : Thread nD τ) arg3 fullShare xo
        ∗ owns (c : Thread nD τ) arg4 fullShare xs
        ∗ (iprop(owns (c : Thread nD τ) arg2 fullShare xi ∗ owns (c : Thread nD τ) arg3 fullShare xo
            ∗ owns (c : Thread nD τ) arg4 fullShare (k0_pay2 i xi xs)) -∗ K ⟨⟩))
      ⊢ wp frame (wpE (defs₀ (F := F)) Variants.none c none) E (cc0__indegree_kernel i arg2 harg2 arg3 harg3 arg4 harg4) K := by
  simp only [cc0__indegree_kernel_eq_skeleton]; unfold cc0__indegree_kernel_skel
  unfold owns
  iintro ⟨⟨%fi, %hfi, HI⟩, ⟨%fo, %hfo, HO⟩, ⟨%fs, %hfs, HS⟩, Hk⟩
  obtain rfl := harg2.eq_unread hfi; obtain rfl := harg4.eq_unread hfs
  sl_exec (disch := first | exact hca | exact hcb)
  sl_step
  iapply Hk
  isplitl [HI]
  · iexists _; isplitr; · ipureintro; exact harg2.read_unread _
    iexact HI
  isplitl [HO]
  · iexists _; isplitr; · ipureintro; exact hfo
    iexact HO
  iexists _; isplitr
  swap; · iexact HS
  ipureintro
  refine (whole_stored arg4.view _ zeros2 _ _ _).trans ?_
  exact congrArg₂ (k0_pay2 i) (k0_readAt_unit arg2 harg2 zeros2 _ xi) (k0_readAt_unit arg4 harg4 zeros2 _ xs)

set_option maxHeartbeats 1000000 in
theorem sound_kernel0_last (c : Dev nD) (i : grid0.Coords)
    (arg2 : Memref sig .tc .vmem S1x1280 .i32) (harg2 : arg2.IsWhole)
    (arg3 : Memref sig .tc .vmem S5000x1 .f32) (harg3 : arg3.IsWhole)
    (arg4 : Memref sig .tc .vmem S5000x1 .f32) (harg4 : arg4.IsWhole)
    (hca : ¬cond0_0 i) (hcb : cond0_1 i) (xi : Vec F S1x1280 .i32) (xs : Vec F S5000x1 .f32)
    (E : Set ℕ) (K : PUnit → sProp 𝕄) :
    iprop(owns (c : Thread nD τ) arg2 fullShare xi ∗ (∃ d, owns (c : Thread nD τ) arg3 fullShare d)
        ∗ owns (c : Thread nD τ) arg4 fullShare xs
        ∗ (iprop(owns (c : Thread nD τ) arg2 fullShare xi ∗ owns (c : Thread nD τ) arg3 fullShare (k0_pay2 i xi xs)
            ∗ owns (c : Thread nD τ) arg4 fullShare (k0_pay2 i xi xs)) -∗ K ⟨⟩))
      ⊢ wp frame (wpE (defs₀ (F := F)) Variants.none c none) E (cc0__indegree_kernel i arg2 harg2 arg3 harg3 arg4 harg4) K := by
  simp only [cc0__indegree_kernel_eq_skeleton]; unfold cc0__indegree_kernel_skel
  unfold owns
  iintro ⟨⟨%fi, %hfi, HI⟩, ⟨%dO, %fo, -, HO⟩, ⟨%fs, %hfs, HS⟩, Hk⟩
  obtain rfl := harg2.eq_unread hfi; obtain rfl := harg4.eq_unread hfs
  sl_exec (disch := first | exact hca | exact hcb)
  sl_step
  iapply Hk
  isplitl [HI]
  · iexists _; isplitr; · ipureintro; exact harg2.read_unread _
    iexact HI
  isplitl [HO]
  · iexists _; isplitr
    swap; · iexact HO
    ipureintro
    sl_unfold_run_names
    refine (whole_stored arg3.view _ zeros2 _ _ _).trans ?_
    refine (View.readCov_unit_zero _ zeros2 _ _).trans ?_
    exact congrArg₂ (k0_pay2 i) (k0_readAt_unit arg2 harg2 zeros2 _ xi) (k0_readAt_unit arg4 harg4 zeros2 _ xs)
  iexists _; isplitr
  swap; · iexact HS
  ipureintro
  sl_unfold_run_names
  refine (whole_stored arg4.view _ zeros2 _ _ _).trans ?_
  exact congrArg₂ (k0_pay2 i) (k0_readAt_unit arg2 harg2 zeros2 _ xi) (k0_readAt_unit arg4 harg4 zeros2 _ xs)

section
variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

-- At any position the invariant gives the entry invariant back: the scratch column's contents are forgotten.
theorem PhiS0_any (c : Dev nD) (n : ℕ) (h : n ≤ cfg0.N) : PhiS0 V c n h ⊢ Pipeline.ΦA spec0 c := by
  cases n with
  | zero => exact .rfl
  | succ n =>
    rw [PhiS0_succ]; unfold Pipeline.ΦA; rw [scopedRest0_split, k0_whole_owns]
    iintro ⟨HS, HR, Hg⟩
    isplitl [HS HR]
    · isplitl [HS]; · iexists _; iexact HS
      iexact HR
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  have hN : t.val < 6250 := lt_of_lt_of_eq t.isLt (show cfg0.N = 6250 from N_0)
  by_cases hfst : t.val % 625 = 0
  · have hlst : ¬t.val % 625 = 624 := by omega
    rw [Dat.leavesExact_idle (dat0 V c) 1 t (idleAt0_1 t (fun h => hlst ((hcond0_1 t).mp h))) (noFlush0_1 t hlst)]
    rw [acc0_reset V c t hfst]
    rw [Phi0_castSucc V c t]
    refine (sep_mono (PhiS0_any V c _ _) .rfl).trans ?_
    unfold Pipeline.ΦA; rw [scopedRest0_split, k0_whole_owns]
    iintro ⟨⟨⟨HS, HR⟩, Hg⟩, Ho, ⟨%di, HI⟩, ⟨%dO, HO⟩⟩
    iapply (sound_kernel0_first c (grid0.coords t) _ _ _ _ _ _ ((hcond0_0 t).mpr hfst) (fun h => hlst ((hcond0_1 t).mp h)) (iblk0 V c 0 t) _ Set.univ _)
    iframe HI HO HS
    iintro ⟨HI, HO, HS⟩
    iframe HS HR Hg Ho HI
    iexists _; iexact HO
  · have hz : t.val ≠ 0 := fun h => hfst (by rw [h])
    rw [acc0_step V c t hfst]
    rw [Phi0_castSucc V c t, PhiS0_pos V c _ _ hz]
    by_cases hlst : t.val % 625 = 624
    · rw [show (dat0 V c).leavesExact 1 t = owns (c : Thread nD τ) (ms0_1 t) fullShare ((dat0 V c).after 1 t) from by
        unfold Dat.leavesExact; rw [liveAt0_1 t ((hcond0_1 t).mpr hlst)], after0_1]
      rw [acc0_step V c t hfst]
      iintro ⟨⟨HS, HR, Hg⟩, Ho, ⟨%di, HI⟩, ⟨%dO, HO⟩⟩
      iapply (sound_kernel0_last c (grid0.coords t) _ _ _ _ _ _ (fun h => hfst ((hcond0_0 t).mp h)) ((hcond0_1 t).mpr hlst) (iblk0 V c 0 t) _ Set.univ _)
      isplitl [HI]; · iexact HI
      isplitl [HO]; · iexists _; iexact HO
      isplitl [HS]; · iexact HS
      iintro ⟨HI, HO, HS⟩
      iframe HS HR Hg Ho HI
      iexact HO
    · rw [Dat.leavesExact_idle (dat0 V c) 1 t (idleAt0_1 t (fun h => hlst ((hcond0_1 t).mp h))) (noFlush0_1 t hlst)]
      iintro ⟨⟨HS, HR, Hg⟩, Ho, ⟨%di, HI⟩, ⟨%dO, HO⟩⟩
      iapply (sound_kernel0_middle c (grid0.coords t) _ _ _ _ _ _ (fun h => hfst ((hcond0_0 t).mp h)) (fun h => hlst ((hcond0_1 t).mp h)) (iblk0 V c 0 t) _ _ Set.univ _)
      iframe HI HO HS
      iintro ⟨HI, HO, HS⟩
      iframe HS HR Hg Ho HI
      iexists _; iexact HO

theorem body_obligation0 (c : Dev nD) : BodyObligation (dat0 (F := F) V c) (defs₀ (F := F)) Variants.none () Set.univ := fun t => by
  rw [bigSep_W0, bigSep_W0]
  exact sound_body0 V c t

theorem Phi0_last (c : Dev nD) : (dat0 V c).Φ (Fin.last cfg0.N) ⊢ Pipeline.ΦA spec0 c :=
  PhiS0_any V c (Fin.last cfg0.N).val (Nat.le_of_lt_succ (Fin.last cfg0.N).isLt)

end

end Cert.Kernel.Hand
end
-- ==== Proof.B.Body1.lean ====
import proofs.«408094_j50861002719986_3_alg».proof.Proof.B.Dat1
import proofs.«408094_j50861002719986_3_alg».proof.Proof.B.Whole
import proofs.«408094_j50861002719986_3_alg».proof.Proof.Gen.Kernel.Points
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨?_, ?_, ?_⟩ <;> intro d <;>
  exact ((dat1 V c).before_in_eq_fetched _ rfl (fun _ => rfl) (fun _ _ _ => rfl)
    (fun t => by simp only [after1_0, after1_1, after1_2]; unfold Dat.blockOf iblk1; rw [A_eq1]; try rfl) t d).trans
    (by unfold Dat.fetched Dat.blockOf iblk1; rw [A_eq1]; try rfl)

abbrev r1_3 : Rect S5000x64 := Rect.unit (s := S5000x64) ![0, 0] S5000x64.size inb_S5000x64_S5000x64_0_0

theorem cover1_3 (p : Vec F S5000x64 .f32) (y : S5000x64.Idx) :
    ∃ pc ∈ ([⟨r1_3, p⟩] : List (View.Piece (Elt F) S5000x64 .f32)), y ∈ pc.1.set :=
  ⟨⟨r1_3, p⟩, List.mem_singleton_self _, View.mem_set_unit_zero (S := S5000x64) zeros2 inb_S5000x64_S5000x64_0_0 y⟩

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S128x64 .bf16) (harg2 : arg2.IsWhole)
    (arg3 : Memref sig .tc .vmem S64 .f32) (harg3 : arg3.IsWhole)
    (arg4 : Memref sig .tc .vmem S5000x64 .f32) (harg4 : arg4.IsWhole)
    (x0 : Vec F S5000x128 .f32) (x1 : Vec F S128x64 .bf16) (x2 : Vec F S64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__pre_linear_kernel i arg1 harg1 arg2 harg2 arg3 harg3 arg4 harg4) K := by
  simp only [cc1__pre_linear_kernel_eq_skeleton]; unfold cc1__pre_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.readAt_eq_ld, View.readAt_eq_ld, View.readAt_eq_ld, View.ld_unit_zero zeros2, View.ld_unit_zero zeros2, View.ld_unit_zero zeros1]
  refine (View.read_writes_eq_canon _ _ _ (cover1_3 _)).trans ?_
  exact View.canon_unit_zero (S := S5000x64) zeros2 inb_S5000x64_S5000x64_0_0 _

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [show (dat1 V c).Φ t.succ = (dat1 V c).Φ t.castSucc from rfl,
    show (dat1 V c).owesAt () t.succ = (dat1 V c).owesAt () t.castSucc from rfl,
    after1_0, after1_1, after1_2, after1_3]
  unfold out1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end

end Cert.Kernel.Hand
end
-- ==== Proof.B.Body2.lean ====
import proofs.«408094_j50861002719986_3_alg».proof.Proof.B.Dat2
import proofs.«408094_j50861002719986_3_alg».proof.Proof.B.Whole
import proofs.«408094_j50861002719986_3_alg».proof.Proof.Gen.Kernel.Points
import Idealize.ShloMosaic.Lib.Pipeline.Value
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

-- The two branch conditions depend on the position modulo 50 only.
theorem hcond2_0 : ∀ t : Fin grid2.N, cond2_0 (grid2.coords t) ↔ t.val % 50 = 0 := by decide +kernel
theorem hcond2_1 : ∀ t : Fin grid2.N, cond2_1 (grid2.coords t) ↔ t.val % 50 = 49 := by decide +kernel

theorem idleAt2_3 (i : grid2.Coords) (h : ¬cond2_1 i) : cfg2.idle 3 i = true := by
  show (!(k2_cond2 i == 1#1)) = true
  rw [beq_eq_false_iff_ne.mpr h]; rfl
theorem liveAt2_3 (i : grid2.Coords) (h : cond2_1 i) : cfg2.idle 3 i = false := by
  show (!(k2_cond2 i == 1#1)) = false
  rw [beq_iff_eq.mpr h]; rfl

-- A view loaded whole at its representative of X gives X.
theorem sound_kernel2_load {S : Shape} {e : EltTy} {off : Fin S.rank → ℕ} (hz : off = fun _ => 0)
    (inb : ∀ a, off a + S.size a ≤ S.size a) (v : View sig .tc .vmem S e) (X : S.Idx → Elt F e) :
    View.readAt (Elt F) v (Rect.unit off S.size inb).toLoadRect (v.rep X) = X :=
  (View.readAt_eq_ld _ _ _).trans ((congrArg (fun Y => View.ld Y (Rect.unit off S.size inb)) (View.read_rep v X)).trans
    (View.ld_unit_zero hz inb X))

section
variable (c : Dev nD) (E : Set ℕ) (i : grid2.Coords)
  {msrc : Memref sig .tc .vmem S5000x1 .i32} (hsrc : msrc.IsWhole)
  {matt : Memref sig .tc .vmem S5000x3 .f32} (hatt : matt.IsWhole)
  {mnod : Memref sig .tc .vmem S1000x64 .bf16} (hnod : mnod.IsWhole)
  {mout : Memref sig .tc .vmem S5000x192 .bf16} (hout : mout.IsWhole)
  {mscr : Memref sig .tc .vmem S5000x64 .f32} (hscr : mscr.IsWhole)
  (xsrc : Vec F S5000x1 .i32) (xatt : Vec F S5000x3 .f32) (xnod : Vec F S1000x64 .bf16) (xs : Vec F S5000x64 .f32)

-- At the first node block of an edge block the scratch, at anything, is cleared and then gains the selected rows.
theorem sound_kernel2_first (K : PUnit → sProp 𝕄) (hc0 : cond2_0 i) (hc1 : ¬cond2_1 i) :
    iprop(owns (c : Thread nD τ) msrc fullShare xsrc ∗ owns (c : Thread nD τ) mnod fullShare xnod
        ∗ (∃ d, owns (c : Thread nD τ) mscr fullShare d)
        ∗ (iprop(owns (c : Thread nD τ) msrc fullShare xsrc ∗ owns (c : Thread nD τ) mnod fullShare xnod
            ∗ owns (c : Thread nD τ) mscr fullShare (k2_pay2 i xsrc (k2_pay1 (F := F)) xnod)) -∗ K ⟨⟩))
      ⊢ wp frame (wpE (defs₀ (F := F)) Variants.none c none) E (cc2__gather_kernel i msrc hsrc matt hatt mnod hnod mout hout mscr hscr) K := by
  simp only [cc2__gather_kernel_eq_skeleton]; unfold cc2__gather_kernel_skel
  rw [owns_eq_rep (c : Thread nD τ) msrc, owns_eq_rep (c : Thread nD τ) mnod]
  unfold owns
  iintro ⟨Hsrc, Hnod, ⟨%ds, %fs, %hfs, Hscr⟩, Hk⟩
  sl_exec (disch := first | exact hc0 | exact hc1)
  sl_step
  iapply Hk
  iframe Hsrc Hnod
  iexists _; isplitr
  swap; · iexact Hscr
  ipureintro
  sl_unfold_run_names
  refine (whole_stored _ _ zeros2 _ _ _).trans ?_
  exact congr (congr (congrArg (k2_pay2 i) (sound_kernel2_load zeros2 _ _ xsrc))
      (View.readCov_unit_zero (S := S5000x64) _ zeros2 _ _))
    (sound_kernel2_load zeros2 _ _ xnod)

-- At a node block between, the scratch gains the selected rows.
theorem sound_kernel2_middle (K : PUnit → sProp 𝕄) (hc0 : ¬cond2_0 i) (hc1 : ¬cond2_1 i) :
    iprop(owns (c : Thread nD τ) msrc fullShare xsrc ∗ owns (c : Thread nD τ) mnod fullShare xnod
        ∗ owns (c : Thread nD τ) mscr fullShare xs
        ∗ (iprop(owns (c : Thread nD τ) msrc fullShare xsrc ∗ owns (c : Thread nD τ) mnod fullShare xnod
            ∗ owns (c : Thread nD τ) mscr fullShare (k2_pay2 i xsrc xs xnod)) -∗ K ⟨⟩))
      ⊢ wp frame (wpE (defs₀ (F := F)) Variants.none c none) E (cc2__gather_kernel i msrc hsrc matt hatt mnod hnod mout hout mscr hscr) K := by
  simp only [cc2__gather_kernel_eq_skeleton]; unfold cc2__gather_kernel_skel
  rw [owns_eq_rep (c : Thread nD τ) msrc, owns_eq_rep (c : Thread nD τ) mnod, owns_eq_rep (c : Thread nD τ) mscr _ xs]
  unfold owns
  iintro ⟨Hsrc, Hnod, Hscr, Hk⟩
  sl_exec (disch := first | exact hc0 | exact hc1)
  sl_step
  iapply Hk
  iframe Hsrc Hnod
  iexists _; isplitr
  swap; · iexact Hscr
  ipureintro
  sl_unfold_run_names
  refine (whole_stored _ _ zeros2 _ _ _).trans ?_
  exact congr (congr (congrArg (k2_pay2 i) (sound_kernel2_load zeros2 _ _ xsrc))
      (sound_kernel2_load zeros2 _ _ xs))
    (sound_kernel2_load zeros2 _ _ xnod)

-- At the last node block the scratch gains the selected rows and the output block is stored whole, at the scratch scaled by the attributes.
theorem sound_kernel2_last (K : PUnit → sProp 𝕄) (hc0 : ¬cond2_0 i) (hc1 : cond2_1 i) :
    iprop(owns (c : Thread nD τ) msrc fullShare xsrc ∗ owns (c : Thread nD τ) matt fullShare xatt ∗ owns (c : Thread nD τ) mnod fullShare xnod
        ∗ (∃ d, owns (c : Thread nD τ) mout fullShare d) ∗ owns (c : Thread nD τ) mscr fullShare xs
        ∗ (iprop(owns (c : Thread nD τ) msrc fullShare xsrc ∗ owns (c : Thread nD τ) matt fullShare xatt ∗ owns (c : Thread nD τ) mnod fullShare xnod
            ∗ owns (c : Thread nD τ) mout fullShare (k2_pay3 (k2_pay2 i xsrc xs xnod) xatt)
            ∗ owns (c : Thread nD τ) mscr fullShare (k2_pay2 i xsrc xs xnod)) -∗ K ⟨⟩))
      ⊢ wp frame (wpE (defs₀ (F := F)) Variants.none c none) E (cc2__gather_kernel i msrc hsrc matt hatt mnod hnod mout hout mscr hscr) K := by
  simp only [cc2__gather_kernel_eq_skeleton]; unfold cc2__gather_kernel_skel
  rw [owns_eq_rep (c : Thread nD τ) msrc, owns_eq_rep (c : Thread nD τ) matt, owns_eq_rep (c : Thread nD τ) mnod, owns_eq_rep (c : Thread nD τ) mscr _ xs]
  unfold owns
  iintro ⟨Hsrc, Hatt, Hnod, ⟨%dd, %fd, %hfd, Hout⟩, Hscr, Hk⟩
  sl_exec (disch := first | exact hc0 | exact hc1)
  sl_step
  have hacc := congr (congr (congrArg (k2_pay2 i) (sound_kernel2_load zeros2 inb_S5000x1_S5000x1_0_0 msrc.view xsrc))
      (sound_kernel2_load zeros2 inb_S5000x64_S5000x64_0_0 mscr.view xs))
    (sound_kernel2_load zeros2 inb_S1000x64_S1000x64_0_0 mnod.view xnod)
  iapply Hk
  iframe Hsrc Hatt Hnod
  isplitl [Hout]
  · iexists _; isplitr
    swap; · iexact Hout
    ipureintro
    sl_unfold_run_names
    refine (whole_stored _ _ zeros2 _ _ _).trans ?_
    exact congr (congrArg k2_pay3 ((View.readCov_unit_zero (S := S5000x64) _ zeros2 _ _).trans hacc))
      (sound_kernel2_load zeros2 _ _ xatt)
  iexists _; isplitr
  swap; · iexact Hscr
  ipureintro
  sl_unfold_run_names
  exact (whole_stored _ _ zeros2 _ _ _).trans hacc

end

-- The body's post for a window at a point where the window is not idle.
theorem leavesExact_live {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

section
variable (V : (c : Dev nD) → (b : Ref sig .tc) → Buf (Elt F) ((c : Thread nD τ).loc b))

theorem before2 (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨?_, ?_, ?_⟩ <;> intro d <;>
  exact ((dat2 V c).before_in_eq_fetched _ rfl (fun _ => rfl) (fun _ _ _ => rfl)
    (fun t => by simp only [after2_0, after2_1, after2_2]; unfold Dat.blockOf iblk2; rw [A_eq2]; try rfl) t d).trans
    (by unfold Dat.fetched Dat.blockOf iblk2; rw [A_eq2]; try rfl)

abbrev ms2_0 (t : Fin cfg2.N) : Memref sig .tc .vmem S5000x1 .i32 := win2_0.stage (cfg2.slots t 0)
abbrev ms2_1 (t : Fin cfg2.N) : Memref sig .tc .vmem S5000x3 .f32 := win2_1.stage (cfg2.slots t 1)
abbrev ms2_2 (t : Fin cfg2.N) : Memref sig .tc .vmem S1000x64 .bf16 := win2_2.stage (cfg2.slots t 2)
abbrev ms2_3 (t : Fin cfg2.N) : Memref sig .tc .vmem S5000x192 .bf16 := win2_3.stage (cfg2.slots t 3)

theorem Phi2_enter (c : Dev nD) :
    (Pipeline.ΦA spec2 c : sProp 𝕄)
      = iprop((iprop((∃ d, owns (c : Thread nD τ) scM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

-- The invariant at any position gives the region's entry invariant: the scratch's contents are forgotten.
theorem PhiS2_any (c : Dev nD) (n : ℕ) (h : n ≤ cfg2.N) : PhiS2 V c n h ⊢ Pipeline.ΦA spec2 c := by
  cases n with
  | zero => exact .rfl
  | succ n =>
    rw [Phi2_enter, PhiS2_succ]
    iintro ⟨H, R, G⟩
    isplitl [H R]
    · isplitl [H]; · iexists _; iexact H
      iexact R
    iexact G

-- The body at any point: the position modulo 50 says which of the three cases the point is in.
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop(PhiS2 V c (t.val + 1) t.isLt ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t)) := by
  unfold bodyAt2
  simp only [(before2 V c t).1, (before2 V c t).2.1, (before2 V c t).2.2]
  rw [PhiS2_succ]
  have hc0 := hcond2_0 t
  have hc1 := hcond2_1 t
  by_cases h0 : t.val % 50 = 0
  · have h1 : ¬t.val % 50 = 49 := by omega
    rw [Dat.leavesExact_idle (dat2 V c) 3 t (idleAt2_3 (grid2.coords t) (mt hc1.mp h1)) (Bool.eq_false_iff.mpr (mt (flush2_3 t).mp h1)),
      acc2_reset V c t h0]
    iintro ⟨HP, Howe, ⟨%da, Hsrc⟩, ⟨%db, Hatt⟩, ⟨%dc, Hnod⟩, Hout⟩
    icases ((PhiS2_any V c _ _).trans (.of_eq (Phi2_enter c))) $$ HP with ⟨⟨Hscr, Hrest⟩, Hgen⟩
    iapply (sound_kernel2_first c Set.univ (grid2.coords t) _ _ _ _ _ (iblk2 V c 0 t) (iblk2 V c 2 t) _ (hc0.mpr h0) (mt hc1.mp h1))
    iframe Hsrc Hnod Hscr
    iintro ⟨Hsrc, Hnod, Hscr⟩
    iframe
  · have hz : t.val ≠ 0 := fun h => h0 (by rw [h])
    rw [acc2_step V c t h0, PhiS2_pos V c _ _ hz, PhiS2_succ]
    by_cases h1 : t.val % 50 = 49
    · rw [show (dat2 V c).leavesExact 3 t = owns (c : Thread nD τ) (ms2_3 t) fullShare (out2 V c t) from
        leavesExact_live _ 3 t (liveAt2_3 (grid2.coords t) (hc1.mpr h1))]
      unfold out2
      rw [acc2_step V c t h0]
      iintro ⟨⟨Hscr, Hrest, Hgen⟩, Howe, ⟨%da, Hsrc⟩, ⟨%db, Hatt⟩, ⟨%dc, Hnod⟩, ⟨%dd, Hout⟩⟩
      iapply (sound_kernel2_last c Set.univ (grid2.coords t) _ _ _ _ _ (iblk2 V c 0 t) (iblk2 V c 1 t) (iblk2 V c 2 t) _ _ (mt hc0.mp h0) (hc1.mpr h1))
      iframe Hsrc Hatt Hnod Hscr
      isplitl [Hout]; · iexists _; iexact Hout
      iintro ⟨Hsrc, Hatt, Hnod, Hout, Hscr⟩
      iframe
    · rw [Dat.leavesExact_idle (dat2 V c) 3 t (idleAt2_3 (grid2.coords t) (mt hc1.mp h1)) (Bool.eq_false_iff.mpr (mt (flush2_3 t).mp h1))]
      iintro ⟨⟨Hscr, Hrest, Hgen⟩, Howe, ⟨%da, Hsrc⟩, ⟨%db, Hatt⟩, ⟨%dc, Hnod⟩, Hout⟩
      iapply (sound_kernel2_middle c Set.univ (grid2.coords t) _ _ _ _ _ (iblk2 V c 0 t) (iblk2 V c 2 t) _ _ (mt hc0.mp h0) (mt hc1.mp h1))
      iframe Hsrc Hnod Hscr
      iintro ⟨Hsrc, Hnod, Hscr⟩
      iframe

theorem body_obligation2 (c : Dev nD) : BodyObligation (dat2 (F := F) V c) (defs₀ (F := F)) Variants.none () Set.univ := fun t => by
  rw [bigSep_W2, bigSep_W2]
  exact sound_body2 V c t

theorem Phi2_last (c : Dev nD) : (dat2 V c).Φ (Fin.last cfg2.N) ⊢ Pipeline.ΦA spec2 c :=
  PhiS2_any V c cfg2.N le_rfl

end

end Cert.Kernel.Hand
end
-- ==== Proof.B.Body3.lean ====
import proofs.«408094_j50861002719986_3_alg».proof.Proof.B.Dat3
import proofs.«408094_j50861002719986_3_alg».proof.Proof.Gen.Kernel.Points
import proofs.«408094_j50861002719986_3_alg».proof.Proof.B.Whole
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

abbrev cond3_0 (i : grid3.Coords) : Prop :=
  (Scalar.cmpi .ne (Scalar.extui (Scalar.cmpi .eq (BitVec.ofNat 32 (i 1).val) 0#32)) 0#32) = 1#1

abbrev cond3_1 (i : grid3.Coords) : Prop := k3_cond2 i = 1#1

theorem hcond3_0 : ∀ t : Fin cfg3.N, cond3_0 (grid3.coords t) ↔ t.val % 625 = 0 :=
  (by decide +kernel : ∀ t : Fin grid3.N, cond3_0 (grid3.coords t) ↔ t.val % 625 = 0)

theorem hcond3_1 : ∀ t : Fin cfg3.N, cond3_1 (grid3.coords t) ↔ t.val % 625 = 624 :=
  (by decide +kernel : ∀ t : Fin grid3.N, cond3_1 (grid3.coords t) ↔ t.val % 625 = 624)

set_option maxHeartbeats 1000000 in
/-- The four cases of the two conditions in one statement, the values written as conditionals. -/
theorem sound_kernel3 (c : Dev nD) (E : Set ℕ) (i : grid3.Coords) {Mt : Memref sig .tc .vmem S1x1280 .i32} (hMt : Mt.IsWhole)
    {Mm : Memref sig .tc .vmem S1280x192 .bf16} (hMm : Mm.IsWhole) {Mw : Memref sig .tc .vmem S192x64 .bf16} (hMw : Mw.IsWhole)
    {Mb : Memref sig .tc .vmem S64 .f32} (hMb : Mb.IsWhole) {Mg : Memref sig .tc .vmem S5000x1 .f32} (hMg : Mg.IsWhole)
    {Mo : Memref sig .tc .vmem S5000x64 .bf16} (hMo : Mo.IsWhole) {Ma : Memref sig .tc .vmem S5000x192 .f32} (hMa : Ma.IsWhole)
    (xt : Vec F S1x1280 .i32) (xm : Vec F S1280x192 .bf16) (xw : Vec F S192x64 .bf16) (xb : Vec F S64 .f32) (xg : Vec F S5000x1 .f32)
    (xo : Vec F S5000x64 .bf16) (xs : Vec F S5000x192 .f32) (K : PUnit → sProp 𝕄) :
    iprop(owns (c : Thread nD τ) Mt fullShare xt ∗ owns (c : Thread nD τ) Mm fullShare xm ∗ owns (c : Thread nD τ) Mw fullShare xw
        ∗ owns (c : Thread nD τ) Mb fullShare xb ∗ owns (c : Thread nD τ) Mg fullShare xg ∗ owns (c : Thread nD τ) Mo fullShare xo
        ∗ owns (c : Thread nD τ) Ma fullShare xs
        ∗ (iprop(owns (c : Thread nD τ) Mt fullShare xt ∗ owns (c : Thread nD τ) Mm fullShare xm ∗ owns (c : Thread nD τ) Mw fullShare xw
            ∗ owns (c : Thread nD τ) Mb fullShare xb ∗ owns (c : Thread nD τ) Mg fullShare xg
            ∗ owns (c : Thread nD τ) Mo fullShare
                (if cond3_1 i then k3_pay3 (k3_pay2 i xt (if cond3_0 i then k3_pay1 (F := F) else xs) xm) xg xw xb else xo)
            ∗ owns (c : Thread nD τ) Ma fullShare (k3_pay2 i xt (if cond3_0 i then k3_pay1 (F := F) else xs) xm)) -∗ K ⟨⟩))
      ⊢ wp frame (wpE (defs₀ (F := F)) Variants.none c none) E (cc3__scatter_kernel i Mt hMt Mm hMm Mw hMw Mb hMb Mg hMg Mo hMo Ma hMa) K := by
  by_cases hc0 : cond3_0 i <;> by_cases hc1 : cond3_1 i
  all_goals
    first | rw [if_pos hc0] | rw [if_neg hc0]
    first | rw [if_pos hc1] | rw [if_neg hc1]
    simp only [cc3__scatter_kernel_eq_skeleton]; unfold cc3__scatter_kernel_skel owns
    iintro ⟨⟨%ft, %hft, Ht⟩, ⟨%fm, %hfm, Hm⟩, ⟨%fw, %hfw, Hw⟩, ⟨%fb, %hfb, Hb⟩, ⟨%fg, %hfg, Hg⟩, ⟨%fo, %hfo, Ho⟩, ⟨%fa, %hfa, Ha⟩, Hk⟩
    subst hft hfm hfw hfb hfg hfo hfa
    sl_exec (disch := first | exact hc0 | exact hc1)
    sl_step
    iapply Hk
    repeat' first | isplitl [Ht] | isplitl [Hm] | isplitl [Hw] | isplitl [Hb] | isplitl [Hg] | isplitl [Ho]
    all_goals
      iexists _; isplitr; swap; iassumption
      ipureintro
      first
      | rfl
      | sl_unfold_words
        refine (whole_stored _ _ zeros2 _ _ _).trans ?_
        simp only [View.readAt_eq_ld, View.ld_unit_zero (S := S1x1280) zeros2, View.ld_unit_zero (S := S1280x192) zeros2,
          View.ld_unit_zero (S := S192x64) zeros2, View.ld_unit_zero (S := S64) zeros1, View.ld_unit_zero (S := S5000x1) zeros2,
          View.ld_unit_zero (S := S5000x192) zeros2, readCov_cons_unit_zero (S := S5000x192) _ zeros2]

theorem idleAt3_5 (t : Fin cfg3.N) (h : ¬cond3_1 (grid3.coords t)) : cfg3.idle 5 (grid3.coords t) = true := by
  show (!(k3_cond2 (grid3.coords t) == 1#1)) = true
  rw [Bool.not_eq_true', beq_eq_false_iff_ne]; exact h

theorem liveAt3_5 (t : Fin cfg3.N) (h : cond3_1 (grid3.coords t)) : cfg3.idle 5 (grid3.coords t) = false := by
  show (!(k3_cond2 (grid3.coords t) == 1#1)) = false
  rw [show k3_cond2 (grid3.coords t) = 1#1 from h]; rfl

theorem noFlush3_5 (t : Fin cfg3.N) (h : ¬cond3_1 (grid3.coords t)) : (cfg3.win 5).flush t = false :=
  Bool.eq_false_iff.mpr fun hf => h ((hcond3_1 t).mpr ((flush3_5 t).mp hf))

section
variable (V : (c : Dev nD) → (b : Ref sig .tc) → Buf (Elt F) ((c : Thread nD τ).loc b))

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

theorem Phi3_entry (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

/-- The two defining cases of `acc3` in one equation. -/
theorem acc3_eq (c : Dev nD) (t : Fin cfg3.N) (xs : Vec F S5000x192 .f32)
    (hxs : t.val ≠ 0 → xs = acc3 V c (t.val - 1) (Nat.lt_of_le_of_lt (Nat.sub_le _ _) t.isLt)) :
    k3_pay2 (grid3.coords t) (iblk3 V c 0 t) (if cond3_0 (grid3.coords t) then k3_pay1 (F := F) else xs) (iblk3 V c 1 t)
      = acc3 V c t.val t.isLt := by
  by_cases h : t.val % 625 = 0
  · rw [acc3_reset V c t h, if_pos ((hcond3_0 t).mpr h)]
  · rw [acc3_step V c t h, if_neg (mt (hcond3_0 t).mp h), hxs fun hz => h (by rw [hz])]

/-- The output block's two cases in one entailment. -/
theorem leaves3_5 (c : Dev nD) (t : Fin cfg3.N) (d : Vec F S5000x64 .bf16) :
    owns (c : Thread nD τ) (st3_5 t) fullShare (if cond3_1 (grid3.coords t)
      then k3_pay3 (acc3 V c t.val t.isLt) (iblk3 V c 4 t) (iblk3 V c 2 t) (iblk3 V c 3 t) else (dat3 V c).before 5 t d)
      ⊢ (dat3 V c).leavesExact 5 t := by
  by_cases h : cond3_1 (grid3.coords t)
  · rw [if_pos h]; unfold Dat.leavesExact; rw [liveAt3_5 t h]; exact .rfl
  · rw [if_neg h, Dat.leavesExact_idle _ 5 t (idleAt3_5 t h) (noFlush3_5 t h)]; iintro H; iexists d; iexact H

theorem body_obligation3 (c : Dev nD) : BodyObligation (dat3 (F := F) V c) (defs₀ (F := F)) Variants.none () Set.univ := fun t => by
  rw [bigSep_W3, bigSep_W3]
  show iprop(PhiS3 V c t.val (Nat.le_of_lt t.isLt) ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) fun _ =>
      iprop(PhiS3 V c (t.val + 1) t.isLt ∗ (dat3 V c).owesAt () t.castSucc
        ∗ owns (c : Thread nD τ) (st3_0 t) fullShare (iblk3 V c 0 t) ∗ owns (c : Thread nD τ) (st3_1 t) fullShare (iblk3 V c 1 t)
        ∗ owns (c : Thread nD τ) (st3_2 t) fullShare (iblk3 V c 2 t) ∗ owns (c : Thread nD τ) (st3_3 t) fullShare (iblk3 V c 3 t)
        ∗ owns (c : Thread nD τ) (st3_4 t) fullShare (iblk3 V c 4 t) ∗ (dat3 V c).leavesExact 5 t)
  simp only [before3_0, before3_1, before3_2, before3_3, before3_4]
  rw [PhiS3_succ]
  by_cases hz : t.val = 0
  case' pos => rw [PhiS3_zero V c _ _ hz, Phi3_entry]; iintro ⟨⟨⟨⟨%xs, Hs⟩, Hrest⟩, Hr⟩, H⟩
  case' neg => rw [PhiS3_pos V c _ _ hz]; iintro ⟨⟨Hs, Hrest, Hr⟩, H⟩
  all_goals
    icases H with ⟨Hown, ⟨%_, Ht⟩, ⟨%_, Hm⟩, ⟨%_, Hw⟩, ⟨%_, Hb⟩, ⟨%_, Hg⟩, ⟨%d, Ho⟩⟩
    iapply sound_kernel3 c Set.univ (grid3.coords t)
    iframe Ht Hm Hw Hb Hg Ho Hs
    iintro ⟨Ht, Hm, Hw, Hb, Hg, Ho, Hs⟩
    rw [acc3_eq V c t _ fun h => by first | exact absurd hz h | rfl]
    ihave Ho := (leaves3_5 V c t d) $$ Ho
    iframe

theorem Phi3_last (c : Dev nD) : (dat3 V c).Φ (Fin.last cfg3.N) ⊢ Pipeline.ΦA spec3 c := by
  have hl : (Fin.last cfg3.N).val ≠ 0 := by rw [Fin.val_last]; have : cfg3.N = 6250 := N_3; omega
  rw [show (dat3 V c).Φ (Fin.last cfg3.N) = PhiS3 V c (Fin.last cfg3.N).val (Nat.le_of_lt_succ (Fin.last cfg3.N).isLt) from rfl,
    PhiS3_pos V c _ _ hl, Phi3_entry]
  iintro ⟨Hs, Hrest, Hr⟩
  iframe Hrest Hr
  iexists _; iexact Hs

end

end Cert.Kernel.Hand
end
-- ==== Proof.B.Body4.lean ====
import proofs.«408094_j50861002719986_3_alg».proof.Proof.B.Dat4
import proofs.«408094_j50861002719986_3_alg».proof.Proof.B.Body2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- This region runs region 2's kernel function on region 2's payloads: the definitions have the same bodies.
theorem cc4_eq : cc4__gather_kernel (F := F) = cc2__gather_kernel := rfl
theorem k4_pay1_eq : k4_pay1 (F := F) = k2_pay1 := rfl
theorem k4_pay2_eq : k4_pay2 (F := F) = k2_pay2 := rfl
theorem k4_pay3_eq : k4_pay3 (F := F) = k2_pay3 := rfl

section
variable (V : (c : Dev nD) → (b : Ref sig .tc) → Buf (Elt F) ((c : Thread nD τ).loc b))

theorem before4 (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨?_, ?_, ?_⟩ <;> intro d <;>
  exact ((dat4 V c).before_in_eq_fetched _ rfl (fun _ => rfl) (fun _ _ _ => rfl)
    (fun t => by simp only [after4_0, after4_1, after4_2]; unfold Dat.blockOf iblk4; rw [A_eq4]; try rfl) t d).trans
    (by unfold Dat.fetched Dat.blockOf iblk4; rw [A_eq4]; try rfl)

abbrev ms4_0 (t : Fin cfg4.N) : Memref sig .tc .vmem S5000x1 .i32 := win4_0.stage (cfg4.slots t 0)
abbrev ms4_1 (t : Fin cfg4.N) : Memref sig .tc .vmem S5000x3 .f32 := win4_1.stage (cfg4.slots t 1)
abbrev ms4_2 (t : Fin cfg4.N) : Memref sig .tc .vmem S1000x64 .bf16 := win4_2.stage (cfg4.slots t 2)
abbrev ms4_3 (t : Fin cfg4.N) : Memref sig .tc .vmem S5000x192 .bf16 := win4_3.stage (cfg4.slots t 3)

theorem Phi4_enter (c : Dev nD) :
    (Pipeline.ΦA spec4 c : sProp 𝕄)
      = iprop((iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

-- The invariant at any position gives the region's entry invariant: the scratch's contents are forgotten.
theorem PhiS4_any (c : Dev nD) (n : ℕ) (h : n ≤ cfg4.N) : PhiS4 V c n h ⊢ Pipeline.ΦA spec4 c := by
  cases n with
  | zero => exact .rfl
  | succ n =>
    rw [Phi4_enter, PhiS4_succ]
    iintro ⟨H, R, G⟩
    isplitl [H R]
    · isplitl [H]; · iexists _; iexact H
      iexact R
    iexact G

-- The body at any point: the position modulo 50 says which of the three cases the point is in.
theorem sound_body4 (c : Dev nD) (t : Fin cfg4.N) :
    iprop(PhiS4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
    ⊢ wp frame (wpE (defs₀ (F := F)) Variants.none c none) Set.univ (bodyAt4 t) (fun _ =>
      iprop(PhiS4 V c (t.val + 1) t.isLt ∗ (dat4 V c).owesAt () t.castSucc
        ∗ owns (c : Thread nD τ) (ms4_0 t) fullShare (iblk4 V c 0 t)
        ∗ owns (c : Thread nD τ) (ms4_1 t) fullShare (iblk4 V c 1 t)
        ∗ owns (c : Thread nD τ) (ms4_2 t) fullShare (iblk4 V c 2 t)
        ∗ (dat4 V c).leavesExact 3 t)) := by
  unfold bodyAt4
  rw [cc4_eq]
  simp only [(before4 V c t).1, (before4 V c t).2.1, (before4 V c t).2.2]
  rw [PhiS4_succ]
  have hc0 := hcond2_0 t
  have hc1 := hcond2_1 t
  by_cases h0 : t.val % 50 = 0
  · have h1 : ¬t.val % 50 = 49 := by omega
    rw [Dat.leavesExact_idle (dat4 V c) 3 t (idleAt2_3 (grid4.coords t) (mt hc1.mp h1)) (Bool.eq_false_iff.mpr (mt (flush4_3 t).mp h1)),
      acc4_reset V c t h0]
    simp only [k4_pay1_eq, k4_pay2_eq, k4_pay3_eq]
    iintro ⟨HP, Howe, ⟨%da, Hsrc⟩, ⟨%db, Hatt⟩, ⟨%dc, Hnod⟩, Hout⟩
    icases ((PhiS4_any V c _ _).trans (.of_eq (Phi4_enter c))) $$ HP with ⟨⟨Hscr, Hrest⟩, Hgen⟩
    iapply (sound_kernel2_first c Set.univ (grid4.coords t) _ _ _ _ _ (iblk4 V c 0 t) (iblk4 V c 2 t) _ (hc0.mpr h0) (mt hc1.mp h1))
    iframe Hsrc Hnod Hscr
    iintro ⟨Hsrc, Hnod, Hscr⟩
    iframe
  · have hz : t.val ≠ 0 := fun h => h0 (by rw [h])
    rw [acc4_step V c t h0, PhiS4_pos V c _ _ hz, PhiS4_succ]
    by_cases h1 : t.val % 50 = 49
    · rw [show (dat4 V c).leavesExact 3 t = owns (c : Thread nD τ) (ms4_3 t) fullShare (out4 V c t) from
        leavesExact_live _ 3 t (liveAt2_3 (grid4.coords t) (hc1.mpr h1))]
      unfold out4
      rw [acc4_step V c t h0]
      simp only [k4_pay1_eq, k4_pay2_eq, k4_pay3_eq]
      iintro ⟨⟨Hscr, Hrest, Hgen⟩, Howe, ⟨%da, Hsrc⟩, ⟨%db, Hatt⟩, ⟨%dc, Hnod⟩, ⟨%dd, Hout⟩⟩
      iapply (sound_kernel2_last c Set.univ (grid4.coords t) _ _ _ _ _ (iblk4 V c 0 t) (iblk4 V c 1 t) (iblk4 V c 2 t) _ _ (mt hc0.mp h0) (hc1.mpr h1))
      iframe Hsrc Hatt Hnod Hscr
      isplitl [Hout]; · iexists _; iexact Hout
      iintro ⟨Hsrc, Hatt, Hnod, Hout, Hscr⟩
      iframe
    · rw [Dat.leavesExact_idle (dat4 V c) 3 t (idleAt2_3 (grid4.coords t) (mt hc1.mp h1)) (Bool.eq_false_iff.mpr (mt (flush4_3 t).mp h1))]
      simp only [k4_pay1_eq, k4_pay2_eq, k4_pay3_eq]
      iintro ⟨⟨Hscr, Hrest, Hgen⟩, Howe, ⟨%da, Hsrc⟩, ⟨%db, Hatt⟩, ⟨%dc, Hnod⟩, Hout⟩
      iapply (sound_kernel2_middle c Set.univ (grid4.coords t) _ _ _ _ _ (iblk4 V c 0 t) (iblk4 V c 2 t) _ _ (mt hc0.mp h0) (mt hc1.mp h1))
      iframe Hsrc Hnod Hscr
      iintro ⟨Hsrc, Hnod, Hscr⟩
      iframe

theorem body_obligation4 (c : Dev nD) : BodyObligation (dat4 (F := F) V c) (defs₀ (F := F)) Variants.none () Set.univ := fun t => by
  rw [bigSep_W4, bigSep_W4]
  exact sound_body4 V c t

theorem Phi4_last (c : Dev nD) : (dat4 V c).Φ (Fin.last cfg4.N) ⊢ Pipeline.ΦA spec4 c :=
  PhiS4_any V c cfg4.N le_rfl

end

end Cert.Kernel.Hand
end
-- ==== Proof.B.Body5.lean ====
import proofs.«408094_j50861002719986_3_alg».proof.Proof.B.Dat5
import proofs.«408094_j50861002719986_3_alg».proof.Proof.B.Body3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k5_pay1_eq : k5_pay1 (F := F) = k3_pay1 := rfl

theorem k5_pay2_eq : k5_pay2 (F := F) = k3_pay2 := rfl

/-- Region 5 runs region 3's kernel function. -/
theorem cc5__scatter_kernel_eq : cc5__scatter_kernel (F := F) = cc3__scatter_kernel := rfl

theorem idleAt5_5 (t : Fin cfg5.N) (h : ¬cond3_1 (grid5.coords t)) : cfg5.idle 5 (grid5.coords t) = true := by
  show (!(k5_cond2 (grid5.coords t) == 1#1)) = true
  rw [Bool.not_eq_true', beq_eq_false_iff_ne]; exact h

theorem liveAt5_5 (t : Fin cfg5.N) (h : cond3_1 (grid5.coords t)) : cfg5.idle 5 (grid5.coords t) = false := by
  show (!(k5_cond2 (grid5.coords t) == 1#1)) = false
  rw [show k5_cond2 (grid5.coords t) = 1#1 from h]; rfl

theorem noFlush5_5 (t : Fin cfg5.N) (h : ¬cond3_1 (grid5.coords t)) : (cfg5.win 5).flush t = false :=
  Bool.eq_false_iff.mpr fun hf => h ((hcond3_1 t).mpr ((flush5_5 t).mp hf))

section
variable (V : (c : Dev nD) → (b : Ref sig .tc) → Buf (Elt F) ((c : Thread nD τ).loc b))

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

theorem Phi5_entry (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

/-- The two defining cases of `acc5` in one equation. -/
theorem acc5_eq (c : Dev nD) (t : Fin cfg5.N) (xs : Vec F S5000x192 .f32)
    (hxs : t.val ≠ 0 → xs = acc5 V c (t.val - 1) (Nat.lt_of_le_of_lt (Nat.sub_le _ _) t.isLt)) :
    k3_pay2 (grid5.coords t) (iblk5 V c 0 t) (if cond3_0 (grid5.coords t) then k3_pay1 (F := F) else xs) (iblk5 V c 1 t)
      = acc5 V c t.val t.isLt := by
  by_cases h : t.val % 625 = 0
  · rw [acc5_reset V c t h, if_pos ((hcond3_0 t).mpr h), k5_pay2_eq, k5_pay1_eq]
  · rw [acc5_step V c t h, if_neg (mt (hcond3_0 t).mp h), hxs fun hz => h (by rw [hz]), k5_pay2_eq]

/-- The output block's two cases in one entailment. -/
theorem leaves5_5 (c : Dev nD) (t : Fin cfg5.N) (d : Vec F S5000x64 .bf16) :
    owns (c : Thread nD τ) (st5_5 t) fullShare (if cond3_1 (grid5.coords t)
      then k3_pay3 (acc5 V c t.val t.isLt) (iblk5 V c 4 t) (iblk5 V c 2 t) (iblk5 V c 3 t) else (dat5 V c).before 5 t d)
      ⊢ (dat5 V c).leavesExact 5 t := by
  by_cases h : cond3_1 (grid5.coords t)
  · rw [if_pos h]; unfold Dat.leavesExact; rw [liveAt5_5 t h]; exact .rfl
  · rw [if_neg h, Dat.leavesExact_idle _ 5 t (idleAt5_5 t h) (noFlush5_5 t h)]; iintro H; iexists d; iexact H

theorem body_obligation5 (c : Dev nD) : BodyObligation (dat5 (F := F) V c) (defs₀ (F := F)) Variants.none () Set.univ := fun t => by
  rw [bigSep_W5, bigSep_W5]
  show iprop(PhiS5 V c t.val (Nat.le_of_lt t.isLt) ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d))
      ∗ (∃ d, owns (c : Thread nD τ) (st5_5 t) fullShare ((dat5 V c).before 5 t d)))
    ⊢ wp frame (wpE (defs₀ (F := F)) Variants.none c none) Set.univ (bodyAt5 t) fun _ =>
      iprop(PhiS5 V c (t.val + 1) t.isLt ∗ (dat5 V c).owesAt () t.castSucc
        ∗ owns (c : Thread nD τ) (st5_0 t) fullShare (iblk5 V c 0 t) ∗ owns (c : Thread nD τ) (st5_1 t) fullShare (iblk5 V c 1 t)
        ∗ owns (c : Thread nD τ) (st5_2 t) fullShare (iblk5 V c 2 t) ∗ owns (c : Thread nD τ) (st5_3 t) fullShare (iblk5 V c 3 t)
        ∗ owns (c : Thread nD τ) (st5_4 t) fullShare (iblk5 V c 4 t) ∗ (dat5 V c).leavesExact 5 t)
  simp only [before5_0, before5_1, before5_2, before5_3, before5_4]
  rw [PhiS5_succ]
  unfold bodyAt5; rw [cc5__scatter_kernel_eq]
  by_cases hz : t.val = 0
  case' pos => rw [PhiS5_zero V c _ _ hz, Phi5_entry]; iintro ⟨⟨⟨⟨%xs, Hs⟩, Hrest⟩, Hr⟩, H⟩
  case' neg => rw [PhiS5_pos V c _ _ hz]; iintro ⟨⟨Hs, Hrest, Hr⟩, H⟩
  all_goals
    icases H with ⟨Hown, ⟨%_, Ht⟩, ⟨%_, Hm⟩, ⟨%_, Hw⟩, ⟨%_, Hb⟩, ⟨%_, Hg⟩, ⟨%d, Ho⟩⟩
    iapply sound_kernel3 c Set.univ (grid5.coords t)
    iframe Ht Hm Hw Hb Hg Ho Hs
    iintro ⟨Ht, Hm, Hw, Hb, Hg, Ho, Hs⟩
    rw [acc5_eq V c t _ fun h => by first | exact absurd hz h | rfl]
    ihave Ho := (leaves5_5 V c t d) $$ Ho
    iframe

theorem Phi5_last (c : Dev nD) : (dat5 V c).Φ (Fin.last cfg5.N) ⊢ Pipeline.ΦA spec5 c := by
  have hl : (Fin.last cfg5.N).val ≠ 0 := by rw [Fin.val_last]; have : cfg5.N = 6250 := N_5; omega
  rw [show (dat5 V c).Φ (Fin.last cfg5.N) = PhiS5 V c (Fin.last cfg5.N).val (Nat.le_of_lt_succ (Fin.last cfg5.N).isLt) from rfl,
    PhiS5_pos V c _ _ hl, Phi5_entry]
  iintro ⟨Hs, Hrest, Hr⟩
  iframe Hrest Hr
  iexists _; iexact Hs

end

end Cert.Kernel.Hand
end
-- ==== Proof.B.Body6.lean ====
import proofs.«408094_j50861002719986_3_alg».proof.Proof.B.Dat6
import proofs.«408094_j50861002719986_3_alg».proof.Proof.B.Body2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- This region runs region 2's kernel function on region 2's payloads: the definitions have the same bodies.
theorem cc6_eq : cc6__gather_kernel (F := F) = cc2__gather_kernel := rfl
theorem k6_pay1_eq : k6_pay1 (F := F) = k2_pay1 := rfl
theorem k6_pay2_eq : k6_pay2 (F := F) = k2_pay2 := rfl
theorem k6_pay3_eq : k6_pay3 (F := F) = k2_pay3 := rfl

section
variable (V : (c : Dev nD) → (b : Ref sig .tc) → Buf (Elt F) ((c : Thread nD τ).loc b))

theorem before6 (c : Dev nD) (t : Fin cfg6.N) :
    (∀ d, (dat6 V c).before 0 t d = iblk6 V c 0 t) ∧ (∀ d, (dat6 V c).before 1 t d = iblk6 V c 1 t)
      ∧ ∀ d, (dat6 V c).before 2 t d = iblk6 V c 2 t := by
  refine ⟨?_, ?_, ?_⟩ <;> intro d <;>
  exact ((dat6 V c).before_in_eq_fetched _ rfl (fun _ => rfl) (fun _ _ _ => rfl)
    (fun t => by simp only [after6_0, after6_1, after6_2]; unfold Dat.blockOf iblk6; rw [A_eq6]; try rfl) t d).trans
    (by unfold Dat.fetched Dat.blockOf iblk6; rw [A_eq6]; try rfl)

abbrev ms6_0 (t : Fin cfg6.N) : Memref sig .tc .vmem S5000x1 .i32 := win6_0.stage (cfg6.slots t 0)
abbrev ms6_1 (t : Fin cfg6.N) : Memref sig .tc .vmem S5000x3 .f32 := win6_1.stage (cfg6.slots t 1)
abbrev ms6_2 (t : Fin cfg6.N) : Memref sig .tc .vmem S1000x64 .bf16 := win6_2.stage (cfg6.slots t 2)
abbrev ms6_3 (t : Fin cfg6.N) : Memref sig .tc .vmem S5000x192 .bf16 := win6_3.stage (cfg6.slots t 3)

theorem Phi6_enter (c : Dev nD) :
    (Pipeline.ΦA spec6 c : sProp 𝕄)
      = iprop((iprop((∃ d, owns (c : Thread nD τ) scM6 fullShare d))
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; try rfl

-- The invariant at any position gives the region's entry invariant: the scratch's contents are forgotten.
theorem PhiS6_any (c : Dev nD) (n : ℕ) (h : n ≤ cfg6.N) : PhiS6 V c n h ⊢ Pipeline.ΦA spec6 c := by
  cases n with
  | zero => exact .rfl
  | succ n =>
    rw [Phi6_enter, PhiS6_succ]
    iintro ⟨H, R, G⟩
    isplitl [H R]
    · isplitl [H]; · iexists _; iexact H
      iexact R
    iexact G

-- The body at any point: the position modulo 50 says which of the three cases the point is in.
theorem sound_body6 (c : Dev nD) (t : Fin cfg6.N) :
    iprop(PhiS6 V c t.val (Nat.le_of_lt t.isLt) ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))
      ∗ (∃ d, owns (c : Thread nD τ) (ms6_3 t) fullShare ((dat6 V c).before 3 t d)))
    ⊢ wp frame (wpE (defs₀ (F := F)) Variants.none c none) Set.univ (bodyAt6 t) (fun _ =>
      iprop(PhiS6 V c (t.val + 1) t.isLt ∗ (dat6 V c).owesAt () t.castSucc
        ∗ owns (c : Thread nD τ) (ms6_0 t) fullShare (iblk6 V c 0 t)
        ∗ owns (c : Thread nD τ) (ms6_1 t) fullShare (iblk6 V c 1 t)
        ∗ owns (c : Thread nD τ) (ms6_2 t) fullShare (iblk6 V c 2 t)
        ∗ (dat6 V c).leavesExact 3 t)) := by
  unfold bodyAt6
  rw [cc6_eq]
  simp only [(before6 V c t).1, (before6 V c t).2.1, (before6 V c t).2.2]
  rw [PhiS6_succ]
  have hc0 := hcond2_0 t
  have hc1 := hcond2_1 t
  by_cases h0 : t.val % 50 = 0
  · have h1 : ¬t.val % 50 = 49 := by omega
    rw [Dat.leavesExact_idle (dat6 V c) 3 t (idleAt2_3 (grid6.coords t) (mt hc1.mp h1)) (Bool.eq_false_iff.mpr (mt (flush6_3 t).mp h1)),
      acc6_reset V c t h0]
    simp only [k6_pay1_eq, k6_pay2_eq, k6_pay3_eq]
    iintro ⟨HP, Howe, ⟨%da, Hsrc⟩, ⟨%db, Hatt⟩, ⟨%dc, Hnod⟩, Hout⟩
    icases ((PhiS6_any V c _ _).trans (.of_eq (Phi6_enter c))) $$ HP with ⟨⟨Hscr, Hrest⟩, Hgen⟩
    iapply (sound_kernel2_first c Set.univ (grid6.coords t) _ _ _ _ _ (iblk6 V c 0 t) (iblk6 V c 2 t) _ (hc0.mpr h0) (mt hc1.mp h1))
    iframe Hsrc Hnod Hscr
    iintro ⟨Hsrc, Hnod, Hscr⟩
    iframe
  · have hz : t.val ≠ 0 := fun h => h0 (by rw [h])
    rw [acc6_step V c t h0, PhiS6_pos V c _ _ hz, PhiS6_succ]
    by_cases h1 : t.val % 50 = 49
    · rw [show (dat6 V c).leavesExact 3 t = owns (c : Thread nD τ) (ms6_3 t) fullShare (out6 V c t) from
        leavesExact_live _ 3 t (liveAt2_3 (grid6.coords t) (hc1.mpr h1))]
      unfold out6
      rw [acc6_step V c t h0]
      simp only [k6_pay1_eq, k6_pay2_eq, k6_pay3_eq]
      iintro ⟨⟨Hscr, Hrest, Hgen⟩, Howe, ⟨%da, Hsrc⟩, ⟨%db, Hatt⟩, ⟨%dc, Hnod⟩, ⟨%dd, Hout⟩⟩
      iapply (sound_kernel2_last c Set.univ (grid6.coords t) _ _ _ _ _ (iblk6 V c 0 t) (iblk6 V c 1 t) (iblk6 V c 2 t) _ _ (mt hc0.mp h0) (hc1.mpr h1))
      iframe Hsrc Hatt Hnod Hscr
      isplitl [Hout]; · iexists _; iexact Hout
      iintro ⟨Hsrc, Hatt, Hnod, Hout, Hscr⟩
      iframe
    · rw [Dat.leavesExact_idle (dat6 V c) 3 t (idleAt2_3 (grid6.coords t) (mt hc1.mp h1)) (Bool.eq_false_iff.mpr (mt (flush6_3 t).mp h1))]
      simp only [k6_pay1_eq, k6_pay2_eq, k6_pay3_eq]
      iintro ⟨⟨Hscr, Hrest, Hgen⟩, Howe, ⟨%da, Hsrc⟩, ⟨%db, Hatt⟩, ⟨%dc, Hnod⟩, Hout⟩
      iapply (sound_kernel2_middle c Set.univ (grid6.coords t) _ _ _ _ _ (iblk6 V c 0 t) (iblk6 V c 2 t) _ _ (mt hc0.mp h0) (mt hc1.mp h1))
      iframe Hsrc Hnod Hscr
      iintro ⟨Hsrc, Hnod, Hscr⟩
      iframe

theorem body_obligation6 (c : Dev nD) : BodyObligation (dat6 (F := F) V c) (defs₀ (F := F)) Variants.none () Set.univ := fun t => by
  rw [bigSep_W6, bigSep_W6]
  exact sound_body6 V c t

theorem Phi6_last (c : Dev nD) : (dat6 V c).Φ (Fin.last cfg6.N) ⊢ Pipeline.ΦA spec6 c :=
  PhiS6_any V c cfg6.N le_rfl

end

end Cert.Kernel.Hand
end
-- ==== Proof.B.Body7.lean ====
import proofs.«408094_j50861002719986_3_alg».proof.Proof.B.Dat7
import proofs.«408094_j50861002719986_3_alg».proof.Proof.B.Body3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k7_pay1_eq : k7_pay1 (F := F) = k3_pay1 := rfl

theorem k7_pay2_eq : k7_pay2 (F := F) = k3_pay2 := rfl

set_option maxHeartbeats 1000000 in
/-- The four cases of the two conditions in one statement, the values written as conditionals. -/
theorem sound_kernel7 (c : Dev nD) (E : Set ℕ) (i : grid7.Coords) {Mt : Memref sig .tc .vmem S1x1280 .i32} (hMt : Mt.IsWhole)
    {Mm : Memref sig .tc .vmem S1280x192 .bf16} (hMm : Mm.IsWhole) {Mw : Memref sig .tc .vmem S192x64 .bf16} (hMw : Mw.IsWhole)
    {Mb : Memref sig .tc .vmem S64 .f32} (hMb : Mb.IsWhole) {Mg : Memref sig .tc .vmem S5000x1 .f32} (hMg : Mg.IsWhole)
    {Mo : Memref sig .tc .vmem S5000x64 .f32} (hMo : Mo.IsWhole) {Ma : Memref sig .tc .vmem S5000x192 .f32} (hMa : Ma.IsWhole)
    (xt : Vec F S1x1280 .i32) (xm : Vec F S1280x192 .bf16) (xw : Vec F S192x64 .bf16) (xb : Vec F S64 .f32) (xg : Vec F S5000x1 .f32)
    (xo : Vec F S5000x64 .f32) (xs : Vec F S5000x192 .f32) (K : PUnit → sProp 𝕄) :
    iprop(owns (c : Thread nD τ) Mt fullShare xt ∗ owns (c : Thread nD τ) Mm fullShare xm ∗ owns (c : Thread nD τ) Mw fullShare xw
        ∗ owns (c : Thread nD τ) Mb fullShare xb ∗ owns (c : Thread nD τ) Mg fullShare xg ∗ owns (c : Thread nD τ) Mo fullShare xo
        ∗ owns (c : Thread nD τ) Ma fullShare xs
        ∗ (iprop(owns (c : Thread nD τ) Mt fullShare xt ∗ owns (c : Thread nD τ) Mm fullShare xm ∗ owns (c : Thread nD τ) Mw fullShare xw
            ∗ owns (c : Thread nD τ) Mb fullShare xb ∗ owns (c : Thread nD τ) Mg fullShare xg
            ∗ owns (c : Thread nD τ) Mo fullShare
                (if cond3_1 i then k7_pay3 (k3_pay2 i xt (if cond3_0 i then k3_pay1 (F := F) else xs) xm) xg xw xb else xo)
            ∗ owns (c : Thread nD τ) Ma fullShare (k3_pay2 i xt (if cond3_0 i then k3_pay1 (F := F) else xs) xm)) -∗ K ⟨⟩))
      ⊢ wp frame (wpE (defs₀ (F := F)) Variants.none c none) E (cc7__scatter_kernel i Mt hMt Mm hMm Mw hMw Mb hMb Mg hMg Mo hMo Ma hMa) K := by
  by_cases hc0 : cond3_0 i <;> by_cases hc1 : cond3_1 i
  all_goals
    first | rw [if_pos hc0] | rw [if_neg hc0]
    first | rw [if_pos hc1] | rw [if_neg hc1]
    simp only [cc7__scatter_kernel_eq_skeleton]; unfold cc7__scatter_kernel_skel owns
    iintro ⟨⟨%ft, %hft, Ht⟩, ⟨%fm, %hfm, Hm⟩, ⟨%fw, %hfw, Hw⟩, ⟨%fb, %hfb, Hb⟩, ⟨%fg, %hfg, Hg⟩, ⟨%fo, %hfo, Ho⟩, ⟨%fa, %hfa, Ha⟩, Hk⟩
    subst hft hfm hfw hfb hfg hfo hfa
    sl_exec (disch := first | exact hc0 | exact hc1)
    sl_step
    iapply Hk
    repeat' first | isplitl [Ht] | isplitl [Hm] | isplitl [Hw] | isplitl [Hb] | isplitl [Hg] | isplitl [Ho]
    all_goals
      iexists _; isplitr; swap; iassumption
      ipureintro
      first
      | rfl
      | sl_unfold_words
        refine (whole_stored _ _ zeros2 _ _ _).trans ?_
        simp only [View.readAt_eq_ld, View.ld_unit_zero (S := S1x1280) zeros2, View.ld_unit_zero (S := S1280x192) zeros2,
          View.ld_unit_zero (S := S192x64) zeros2, View.ld_unit_zero (S := S64) zeros1, View.ld_unit_zero (S := S5000x1) zeros2,
          View.ld_unit_zero (S := S5000x192) zeros2, readCov_cons_unit_zero (S := S5000x192) _ zeros2, k7_pay2_eq, k7_pay1_eq]

theorem idleAt7_5 (t : Fin cfg7.N) (h : ¬cond3_1 (grid7.coords t)) : cfg7.idle 5 (grid7.coords t) = true := by
  show (!(k7_cond2 (grid7.coords t) == 1#1)) = true
  rw [Bool.not_eq_true', beq_eq_false_iff_ne]; exact h

theorem liveAt7_5 (t : Fin cfg7.N) (h : cond3_1 (grid7.coords t)) : cfg7.idle 5 (grid7.coords t) = false := by
  show (!(k7_cond2 (grid7.coords t) == 1#1)) = false
  rw [show k7_cond2 (grid7.coords t) = 1#1 from h]; rfl

theorem noFlush7_5 (t : Fin cfg7.N) (h : ¬cond3_1 (grid7.coords t)) : (cfg7.win 5).flush t = false :=
  Bool.eq_false_iff.mpr fun hf => h ((hcond3_1 t).mpr ((flush7_5 t).mp hf))

section
variable (V : (c : Dev nD) → (b : Ref sig .tc) → Buf (Elt F) ((c : Thread nD τ).loc b))

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

theorem Phi7_entry (c : Dev nD) :
    (Pipeline.ΦA spec7 c : sProp 𝕄)
      = iprop(iprop(iprop(∃ d, owns (c : Thread nD τ) scM7 fullShare d)
          ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [scM7, owns_whole]; try rfl

/-- The two defining cases of `acc7` in one equation. -/
theorem acc7_eq (c : Dev nD) (t : Fin cfg7.N) (xs : Vec F S5000x192 .f32)
    (hxs : t.val ≠ 0 → xs = acc7 V c (t.val - 1) (Nat.lt_of_le_of_lt (Nat.sub_le _ _) t.isLt)) :
    k3_pay2 (grid7.coords t) (iblk7 V c 0 t) (if cond3_0 (grid7.coords t) then k3_pay1 (F := F) else xs) (iblk7 V c 1 t)
      = acc7 V c t.val t.isLt := by
  by_cases h : t.val % 625 = 0
  · rw [acc7_reset V c t h, if_pos ((hcond3_0 t).mpr h), k7_pay2_eq, k7_pay1_eq]
  · rw [acc7_step V c t h, if_neg (mt (hcond3_0 t).mp h), hxs fun hz => h (by rw [hz]), k7_pay2_eq]

/-- The output block's two cases in one entailment. -/
theorem leaves7_5 (c : Dev nD) (t : Fin cfg7.N) (d : Vec F S5000x64 .f32) :
    owns (c : Thread nD τ) (st7_5 t) fullShare (if cond3_1 (grid7.coords t)
      then k7_pay3 (acc7 V c t.val t.isLt) (iblk7 V c 4 t) (iblk7 V c 2 t) (iblk7 V c 3 t) else (dat7 V c).before 5 t d)
      ⊢ (dat7 V c).leavesExact 5 t := by
  by_cases h : cond3_1 (grid7.coords t)
  · rw [if_pos h]; unfold Dat.leavesExact; rw [liveAt7_5 t h]; exact .rfl
  · rw [if_neg h, Dat.leavesExact_idle _ 5 t (idleAt7_5 t h) (noFlush7_5 t h)]; iintro H; iexists d; iexact H

theorem body_obligation7 (c : Dev nD) : BodyObligation (dat7 (F := F) V c) (defs₀ (F := F)) Variants.none () Set.univ := fun t => by
  rw [bigSep_W7, bigSep_W7]
  show iprop(PhiS7 V c t.val (Nat.le_of_lt t.isLt) ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d)))
    ⊢ wp frame (wpE (defs₀ (F := F)) Variants.none c none) Set.univ (bodyAt7 t) fun _ =>
      iprop(PhiS7 V c (t.val + 1) t.isLt ∗ (dat7 V c).owesAt () t.castSucc
        ∗ owns (c : Thread nD τ) (st7_0 t) fullShare (iblk7 V c 0 t) ∗ owns (c : Thread nD τ) (st7_1 t) fullShare (iblk7 V c 1 t)
        ∗ owns (c : Thread nD τ) (st7_2 t) fullShare (iblk7 V c 2 t) ∗ owns (c : Thread nD τ) (st7_3 t) fullShare (iblk7 V c 3 t)
        ∗ owns (c : Thread nD τ) (st7_4 t) fullShare (iblk7 V c 4 t) ∗ (dat7 V c).leavesExact 5 t)
  simp only [before7_0, before7_1, before7_2, before7_3, before7_4]
  rw [PhiS7_succ]
  by_cases hz : t.val = 0
  case' pos => rw [PhiS7_zero V c _ _ hz, Phi7_entry]; iintro ⟨⟨⟨⟨%xs, Hs⟩, Hrest⟩, Hr⟩, H⟩
  case' neg => rw [PhiS7_pos V c _ _ hz]; iintro ⟨⟨Hs, Hrest, Hr⟩, H⟩
  all_goals
    icases H with ⟨Hown, ⟨%_, Ht⟩, ⟨%_, Hm⟩, ⟨%_, Hw⟩, ⟨%_, Hb⟩, ⟨%_, Hg⟩, ⟨%d, Ho⟩⟩
    iapply sound_kernel7 c Set.univ (grid7.coords t)
    iframe Ht Hm Hw Hb Hg Ho Hs
    iintro ⟨Ht, Hm, Hw, Hb, Hg, Ho, Hs⟩
    rw [acc7_eq V c t _ fun h => by first | exact absurd hz h | rfl]
    ihave Ho := (leaves7_5 V c t d) $$ Ho
    iframe

theorem Phi7_last (c : Dev nD) : (dat7 V c).Φ (Fin.last cfg7.N) ⊢ Pipeline.ΦA spec7 c := by
  have hl : (Fin.last cfg7.N).val ≠ 0 := by rw [Fin.val_last]; have : cfg7.N = 6250 := N_7; omega
  rw [show (dat7 V c).Φ (Fin.last cfg7.N) = PhiS7 V c (Fin.last cfg7.N).val (Nat.le_of_lt_succ (Fin.last cfg7.N).isLt) from rfl,
    PhiS7_pos V c _ _ hl, Phi7_entry]
  iintro ⟨Hs, Hrest, Hr⟩
  iframe Hrest Hr
  iexists _; iexact Hs

end

end Cert.Kernel.Hand
end
-- ==== Proof.B.Run.lean ====
import proofs.«408094_j50861002719986_3_alg».proof.Proof.B.RegOf
import proofs.«408094_j50861002719986_3_alg».proof.Proof.B.Body0
import proofs.«408094_j50861002719986_3_alg».proof.Proof.B.Body1
import proofs.«408094_j50861002719986_3_alg».proof.Proof.B.Body2
import proofs.«408094_j50861002719986_3_alg».proof.Proof.B.Body3
import proofs.«408094_j50861002719986_3_alg».proof.Proof.B.Body4
import proofs.«408094_j50861002719986_3_alg».proof.Proof.B.Body5
import proofs.«408094_j50861002719986_3_alg».proof.Proof.B.Body6
import proofs.«408094_j50861002719986_3_alg».proof.Proof.B.Body7
import proofs.«408094_j50861002719986_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev launchElt : UR sig nD τ := initOf (Pipeline.cells cfgs cellOf_inj) (Pipeline.launchToks cfgs cellOf_inj)

theorem launch_elt : (ownU launchElt : sProp 𝕄)
    ⊢ |={Set.univ}=> iprop(BI.own (emb₁ launchElt) ∗ bigSep Finset.univ fun _ : Dev nD => (iprop(emp) : sProp 𝕄)) := by
  iintro Hu; imodintro
  isplitl [Hu]
  · iapply (show (ownU launchElt : sProp 𝕄) ⊢ BI.own (emb₁ launchElt) from .rfl)
    iexact Hu
  iapply (show (BI.emp : sProp 𝕄) ⊢ bigSep Finset.univ (fun _ : Dev nD => (BI.emp : sProp 𝕄)) from by rw [BI.bigSep_emp_const])
  iempintro

theorem rest_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ∗ levAts (fun _ : GSem nD τ sig => (∅ : Finset Unit)) (fun _ _ => (0 : ℕ)))
      ⊢ (|={Set.univ}=> bigSep Finset.univ (fun c : Dev nD => Rr c) : sProp 𝕄) := by
  refine Pipeline.initEach (fun _ => ∅) (fun _ _ => 0) fun c => ?_
  iintro ⟨⟨-, HO, -, Hp, -⟩, -⟩
  imodintro
  isplitl [Hp]; · iexists _; iexact Hp
  iexists ∅; iexact HO

theorem rest_end (c : Dev nD) : (Rr c : sProp 𝕄) ⊢ iprop(∃ W, owes (c : Thread nD τ) (0 : CellTallies nD τ sig Unit) W) := by
  iintro ⟨-, HO⟩; iexact HO

def reg0 : Reg m 0 := regOf m 0 (U1 m) 1 launch0 (Phi0_last _) (body_obligation0 _)
def reg1 : Reg m 1 := regOf m 1 (U2 m) 3 launch1 (fun _ => .rfl) (body_obligation1 _)
def reg2 : Reg m 2 := regOf m 2 (U4 m) 3 launch2 (Phi2_last _) (body_obligation2 _)
def reg3 : Reg m 3 := regOf m 3 (U5 m) 5 launch3 (Phi3_last _) (body_obligation3 _)
def reg4 : Reg m 4 := regOf m 4 (U6 m) 3 launch4 (Phi4_last _) (body_obligation4 _)
def reg5 : Reg m 5 := regOf m 5 (U7 m) 5 launch5 (Phi5_last _) (body_obligation5 _)
def reg6 : Reg m 6 := regOf m 6 (U8 m) 3 launch6 (Phi6_last _) (body_obligation6 _)
def reg7 : Reg m 7 := regOf m 7 (U9 m) 5 launch7 (Phi7_last _) (body_obligation7 _)

theorem hpre0 (c : Dev nD) : iprop(StableHlo.held (c : Thread nD τ) (Pipeline.ucRefs τ sig) (Gen.V1 m c) ∗ Rr c) ⊢ (reg0 m).pre c := by
  rw [V1_eq]; exact .rfl
theorem hpost0 (c : Dev nD) : (reg0 m).post c ⊢ iprop(StableHlo.held (c : Thread nD τ) (Pipeline.ucRefs τ sig) (Gen.V2 m (outs m) c) ∗ Rr c) := by
  rw [V2_eq]; exact .rfl

theorem hpre1 (c : Dev nD) : iprop(StableHlo.held (c : Thread nD τ) (Pipeline.ucRefs τ sig) (Gen.V2 m (outs m) c) ∗ Rr c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ Rr c) := by
  rw [V3_eq]; exact .rfl

theorem hpre2 (c : Dev nD) : iprop(StableHlo.held (c : Thread nD τ) (Pipeline.ucRefs τ sig) (Gen.V4 m (outs m) c) ∗ Rr c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ Rr c) := by
  rw [V5_eq]; exact .rfl

theorem hpre3 (c : Dev nD) : iprop(StableHlo.held (c : Thread nD τ) (Pipeline.ucRefs τ sig) (Gen.V5 m (outs m) c) ∗ Rr c) ⊢ (reg3 m).pre c := by
  rw [V5_eq]; exact .rfl
theorem hpost3 (c : Dev nD) : (reg3 m).post c ⊢ iprop(StableHlo.held (c : Thread nD τ) (Pipeline.ucRefs τ sig) (Gen.V6 m (outs m) c) ∗ Rr c) := by
  rw [V6_eq]; exact .rfl

theorem hpre4 (c : Dev nD) : iprop(StableHlo.held (c : Thread nD τ) (Pipeline.ucRefs τ sig) (Gen.V6 m (outs m) c) ∗ Rr c) ⊢ (reg4 m).pre c := by
  rw [V6_eq]; exact .rfl
theorem hpost4 (c : Dev nD) : (reg4 m).post c ⊢ iprop(StableHlo.held (c : Thread nD τ) (Pipeline.ucRefs τ sig) (Gen.V7 m (outs m) c) ∗ Rr c) := by
  rw [V7_eq]; exact .rfl

theorem hpre5 (c : Dev nD) : iprop(StableHlo.held (c : Thread nD τ) (Pipeline.ucRefs τ sig) (Gen.V7 m (outs m) c) ∗ Rr c) ⊢ (reg5 m).pre c := by
  rw [V7_eq]; exact .rfl
theorem hpost5 (c : Dev nD) : (reg5 m).post c ⊢ iprop(StableHlo.held (c : Thread nD τ) (Pipeline.ucRefs τ sig) (Gen.V8 m (outs m) c) ∗ Rr c) := by
  rw [V8_eq]; exact .rfl

theorem hpre6 (c : Dev nD) : iprop(StableHlo.held (c : Thread nD τ) (Pipeline.ucRefs τ sig) (Gen.V8 m (outs m) c) ∗ Rr c) ⊢ (reg6 m).pre c := by
  rw [V8_eq]; exact .rfl
theorem hpost6 (c : Dev nD) : (reg6 m).post c ⊢ iprop(StableHlo.held (c : Thread nD τ) (Pipeline.ucRefs τ sig) (Gen.V9 m (outs m) c) ∗ Rr c) := by
  rw [V9_eq]; exact .rfl

theorem hpre7 (c : Dev nD) : iprop(StableHlo.held (c : Thread nD τ) (Pipeline.ucRefs τ sig) (Gen.V9 m (outs m) c) ∗ Rr c) ⊢ (reg7 m).pre c := by
  rw [V9_eq]; exact .rfl
theorem hpost7 (c : Dev nD) : (reg7 m).post c ⊢ iprop(StableHlo.held (c : Thread nD τ) (Pipeline.ucRefs τ sig) (Gen.V10 m (outs m) c) ∗ Rr c) := by
  rw [V10_eq]; exact .rfl

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m emb₁ () Variants.none (fun _ => ∅) (fun _ _ => 0) (fun _ _ => rfl) ρ (outs m) (pdats m) 0 (fun _ => iprop(emp))
    launchElt launch_elt (fun _ c => Rr c) (rest_launch ρ) rest_end
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)

end Cert.Kernel.Hand
end
-- ==== Proof.I.RegOf.lean ====
import proofs.«408094_j50861002719986_3_alg».proof.Proof.I.PDats

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (BodyObligation)

variable {F : FTy → Type} [FloatOps F]

local notation "𝕄" => MT nD τ sig Unit (Elt F) ℕ (UR sig nD τ) ℕ

variable (m : (ℓ : Loc nD τ sig) → Buf (Elt F) ℓ) (p : Fin 8)

-- The type of region `p`'s record as a segment of the run: no semaphore of its own, nothing owed.
abbrev Reg := Pipeline.RegionSeg (pcfgs (F := F)) adm (pdats m) () defs₀ Variants.none (fun _ => ∅) (fun _ _ => 0) p

variable (Uin : Dev nD → Valuation τ sig (Elt F)) (outw : Fin (cfgs p).W)

-- The exit valuation: the entry valuation with the output window's array at its final contents.
def Uout (c : Dev nD) : Valuation τ sig (Elt F) :=
  Function.update (Uin c) (Pipeline.arrRef (cfgs p).spec outw) ((pdats m p c).arrAt outw (cfgs p).N)

set_option backward.isDefEq.respectTransparency.types false in
-- One output window: the valuation changes at that window's array only (inputs keep their entry contents; the arrays are distinct).
def regOf (kit : Pipeline.LaunchFacts (nD := nD) (τ := τ) cfgs p)
    (hΦN : ∀ c, (pdats m p c).Φ (Fin.last (cfgs p).N) ⊢ Pipeline.ΦA (cfgs p).spec c)
    (hbody : ∀ c, BodyObligation (pdats m p c) (defs₀ (F := F)) Variants.none () Set.univ)
    (hin : ∀ w, w ≠ outw → ((cfgs p).win w).isOut = false := by decide)
    (hq : ∀ c w, (pdats m p c).q w = fullShare := by exact fun _ _ => rfl)
    (hA : ∀ c w, (pdats m p c).A w = rd Uin c (Pipeline.arrRef (cfgs p).spec w) := by exact fun _ _ => rfl)
    (howed : ∀ c t, (pdats m p c).owed t = 0 := by exact fun _ _ => rfl)
    (hrec : ∀ c, (pdats m p c).recorded 0 = Set.univ := by exact fun _ => rfl)
    (hΦ0 : ∀ c, (pdats m p c).Φ 0 = Pipeline.ΦA (cfgs p).spec c := by exact fun _ => rfl) :
    Reg m p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (Uin c) ∗ Rr c)
  post c := iprop(StableHlo.held (c : Thread nD τ) (Pipeline.ucRefs τ sig) (Uout m p Uin outw c) ∗ Rr c)
  X c := iprop(∃ r, prngReg c r)
  Y c := iprop(∃ r, prngReg c r)
  Z c := Pipeline.unscopedRest (Ix := Unit) (Name := ℕ) (U := UR sig nD τ) (Lvl := ℕ) (cfgs p).spec c (rd Uin c)
  hentry c := by
    rw [Pipeline.ownSems0_none]
    have hsplit := Pipeline.arrays_of_unscopedBufs (p := p) (pcfgs (F := F)) adm (pdats m) kit.win kit.arr_whole c
      ((pdats m p c).share_full (hq c)) (rd Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (hrec c ▸ trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (rd Uin c) (rd (Uout m p Uin outw) c) ((pdats m p c).arrAt · (cfgs p).N)
      (fun w => by
        by_cases hw : w = outw
        · subst hw; exact (Function.update_self (f := Uin c) ..).symm
        · refine ((pdats m p c).arrAt_in w (hin w hw) _).trans ((hA c w).trans ?_)
          exact (Function.update_of_ne (StableHlo.devRef_ne_of_ne fun e => hw (kit.win.arr_inj e)) ..).symm)
      (fun b hb => Function.update_of_ne (StableHlo.devRef_ne_of_ne fun e =>
        hb (Finset.mem_image.mpr ⟨outw, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.KernelIdeal.Hand
end
-- ==== Proof.I.Whole.lean ====
import Idealize.ShloMosaic.Lib.Pipeline.Value

namespace Cert.KernelIdeal.Hand

open Idealize.ShloMosaic

theorem zeros2 : (![0, 0] : Fin 2 → Nat) = fun _ => 0 := funext fun a => by fin_cases a <;> rfl

theorem zeros1 : (![0] : Fin 1 → Nat) = fun _ => 0 := funext fun a => by fin_cases a <;> rfl

-- A view whose last store covers it whole reads as that store's payload: every index lies in the first piece.
theorem whole_stored {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self .., View.mem_set_unit_zero h inb y⟩)).trans
    (View.canon_cons_unit_zero h inb w L)

end Cert.KernelIdeal.Hand
-- ==== Proof.I.Body0.lean ====
import proofs.«408094_j50861002719986_3_alg».proof.Proof.I.Dat0
import proofs.«408094_j50861002719986_3_alg».proof.Proof.I.Whole
import proofs.«408094_j50861002719986_3_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 625 = 0 :=
  (by decide +kernel : ∀ t : Fin grid0.N, cond0_0 (grid0.coords t) ↔ t.val % 625 = 0)

abbrev cond0_1 (i : grid0.Coords) : Prop := k0_cond2 i = 1#1
theorem hcond0_1 : ∀ t : Fin cfg0.N, cond0_1 (grid0.coords t) ↔ t.val % 625 = 624 :=
  (by decide +kernel : ∀ t : Fin grid0.N, cond0_1 (grid0.coords t) ↔ t.val % 625 = 624)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem liveAt0_1 : ∀ t : Fin cfg0.N, cond0_1 (grid0.coords t) → cfg0.idle 1 (grid0.coords t) = false := by decide +kernel
theorem noFlush0_1 (t : Fin cfg0.N) (h : ¬t.val % 625 = 624) : (cfg0.win 1).flush t = false := by
  cases hf : (cfg0.win 1).flush t with
  | false => rfl
  | true => exact absurd ((flush0_1 t).mp hf) h

abbrev ms0_0 (t : Fin cfg0.N) : Memref sig .tc .vmem S1x1280 .i32 := win0_0.stage (cfg0.slots t 0)
abbrev ms0_1 (t : Fin cfg0.N) : Memref sig .tc .vmem S5000x1 .f32 := win0_1.stage (cfg0.slots t 1)
private theorem k0_readAt_unit {S : Shape} {e : EltTy} (m : Memref sig .tc .vmem S e) (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread]; exact View.ld_unit_zero h inb X

private theorem k0_whole_owns (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) := by
  simp only [owns_whole]

set_option maxHeartbeats 1000000 in
theorem sound_kernel0_first (c : Dev nD) (i : grid0.Coords)
    (arg2 : Memref sig .tc .vmem S1x1280 .i32) (harg2 : arg2.IsWhole)
    (arg3 : Memref sig .tc .vmem S5000x1 .f32) (harg3 : arg3.IsWhole)
    (arg4 : Memref sig .tc .vmem S5000x1 .f32) (harg4 : arg4.IsWhole)
    (hca : cond0_0 i) (hcb : ¬cond0_1 i) (xi : Vec F S1x1280 .i32) (xo : Vec F S5000x1 .f32)
    (E : Set ℕ) (K : PUnit → sProp 𝕄) :
    iprop(owns (c : Thread nD τ) arg2 fullShare xi ∗ owns (c : Thread nD τ) arg3 fullShare xo
        ∗ (∃ d, owns (c : Thread nD τ) arg4 fullShare d)
        ∗ (iprop(owns (c : Thread nD τ) arg2 fullShare xi ∗ owns (c : Thread nD τ) arg3 fullShare xo
            ∗ owns (c : Thread nD τ) arg4 fullShare (k0_pay2 i xi (k0_pay1 (F := F)))) -∗ K ⟨⟩))
      ⊢ wp frame (wpE (defs₀ (F := F)) Variants.none c none) E (cc0__indegree_kernel i arg2 harg2 arg3 harg3 arg4 harg4) K := by
  simp only [cc0__indegree_kernel_eq_skeleton]; unfold cc0__indegree_kernel_skel
  unfold owns
  iintro ⟨⟨%fi, %hfi, HI⟩, ⟨%fo, %hfo, HO⟩, ⟨%ds, %fs, -, HS⟩, Hk⟩
  obtain rfl := harg2.eq_unread hfi
  sl_exec (disch := first | exact hca | exact hcb)
  sl_step
  iapply Hk
  isplitl [HI]
  · iexists _; isplitr; · ipureintro; exact harg2.read_unread _
    iexact HI
  isplitl [HO]
  · iexists _; isplitr; · ipureintro; exact hfo
    iexact HO
  iexists _; isplitr
  swap; · iexact HS
  ipureintro
  sl_unfold_run_names
  refine (whole_stored arg4.view _ zeros2 _ _ _).trans ?_
  exact congrArg₂ (k0_pay2 i) (k0_readAt_unit arg2 harg2 zeros2 _ xi) (View.readCov_unit_zero _ zeros2 _ _)

set_option maxHeartbeats 1000000 in
theorem sound_kernel0_middle (c : Dev nD) (i : grid0.Coords)
    (arg2 : Memref sig .tc .vmem S1x1280 .i32) (harg2 : arg2.IsWhole)
    (arg3 : Memref sig .tc .vmem S5000x1 .f32) (harg3 : arg3.IsWhole)
    (arg4 : Memref sig .tc .vmem S5000x1 .f32) (harg4 : arg4.IsWhole)
    (hca : ¬cond0_0 i) (hcb : ¬cond0_1 i) (xi : Vec F S1x1280 .i32) (xo : Vec F S5000x1 .f32) (xs : Vec F S5000x1 .f32)
    (E : Set ℕ) (K : PUnit → sProp 𝕄) :
    iprop(owns (c : Thread nD τ) arg2 fullShare xi ∗ owns (c : Thread nD τ) arg3 fullShare xo
        ∗ owns (c : Thread nD τ) arg4 fullShare xs
        ∗ (iprop(owns (c : Thread nD τ) arg2 fullShare xi ∗ owns (c : Thread nD τ) arg3 fullShare xo
            ∗ owns (c : Thread nD τ) arg4 fullShare (k0_pay2 i xi xs)) -∗ K ⟨⟩))
      ⊢ wp frame (wpE (defs₀ (F := F)) Variants.none c none) E (cc0__indegree_kernel i arg2 harg2 arg3 harg3 arg4 harg4) K := by
  simp only [cc0__indegree_kernel_eq_skeleton]; unfold cc0__indegree_kernel_skel
  unfold owns
  iintro ⟨⟨%fi, %hfi, HI⟩, ⟨%fo, %hfo, HO⟩, ⟨%fs, %hfs, HS⟩, Hk⟩
  obtain rfl := harg2.eq_unread hfi; obtain rfl := harg4.eq_unread hfs
  sl_exec (disch := first | exact hca | exact hcb)
  sl_step
  iapply Hk
  isplitl [HI]
  · iexists _; isplitr; · ipureintro; exact harg2.read_unread _
    iexact HI
  isplitl [HO]
  · iexists _; isplitr; · ipureintro; exact hfo
    iexact HO
  iexists _; isplitr
  swap; · iexact HS
  ipureintro
  refine (whole_stored arg4.view _ zeros2 _ _ _).trans ?_
  exact congrArg₂ (k0_pay2 i) (k0_readAt_unit arg2 harg2 zeros2 _ xi) (k0_readAt_unit arg4 harg4 zeros2 _ xs)

set_option maxHeartbeats 1000000 in
theorem sound_kernel0_last (c : Dev nD) (i : grid0.Coords)
    (arg2 : Memref sig .tc .vmem S1x1280 .i32) (harg2 : arg2.IsWhole)
    (arg3 : Memref sig .tc .vmem S5000x1 .f32) (harg3 : arg3.IsWhole)
    (arg4 : Memref sig .tc .vmem S5000x1 .f32) (harg4 : arg4.IsWhole)
    (hca : ¬cond0_0 i) (hcb : cond0_1 i) (xi : Vec F S1x1280 .i32) (xs : Vec F S5000x1 .f32)
    (E : Set ℕ) (K : PUnit → sProp 𝕄) :
    iprop(owns (c : Thread nD τ) arg2 fullShare xi ∗ (∃ d, owns (c : Thread nD τ) arg3 fullShare d)
        ∗ owns (c : Thread nD τ) arg4 fullShare xs
        ∗ (iprop(owns (c : Thread nD τ) arg2 fullShare xi ∗ owns (c : Thread nD τ) arg3 fullShare (k0_pay2 i xi xs)
            ∗ owns (c : Thread nD τ) arg4 fullShare (k0_pay2 i xi xs)) -∗ K ⟨⟩))
      ⊢ wp frame (wpE (defs₀ (F := F)) Variants.none c none) E (cc0__indegree_kernel i arg2 harg2 arg3 harg3 arg4 harg4) K := by
  simp only [cc0__indegree_kernel_eq_skeleton]; unfold cc0__indegree_kernel_skel
  unfold owns
  iintro ⟨⟨%fi, %hfi, HI⟩, ⟨%dO, %fo, -, HO⟩, ⟨%fs, %hfs, HS⟩, Hk⟩
  obtain rfl := harg2.eq_unread hfi; obtain rfl := harg4.eq_unread hfs
  sl_exec (disch := first | exact hca | exact hcb)
  sl_step
  iapply Hk
  isplitl [HI]
  · iexists _; isplitr; · ipureintro; exact harg2.read_unread _
    iexact HI
  isplitl [HO]
  · iexists _; isplitr
    swap; · iexact HO
    ipureintro
    sl_unfold_run_names
    refine (whole_stored arg3.view _ zeros2 _ _ _).trans ?_
    refine (View.readCov_unit_zero _ zeros2 _ _).trans ?_
    exact congrArg₂ (k0_pay2 i) (k0_readAt_unit arg2 harg2 zeros2 _ xi) (k0_readAt_unit arg4 harg4 zeros2 _ xs)
  iexists _; isplitr
  swap; · iexact HS
  ipureintro
  sl_unfold_run_names
  refine (whole_stored arg4.view _ zeros2 _ _ _).trans ?_
  exact congrArg₂ (k0_pay2 i) (k0_readAt_unit arg2 harg2 zeros2 _ xi) (k0_readAt_unit arg4 harg4 zeros2 _ xs)

section
variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

-- At any position the invariant gives the entry invariant back: the scratch column's contents are forgotten.
theorem PhiS0_any (c : Dev nD) (n : ℕ) (h : n ≤ cfg0.N) : PhiS0 V c n h ⊢ Pipeline.ΦA spec0 c := by
  cases n with
  | zero => exact .rfl
  | succ n =>
    rw [PhiS0_succ]; unfold Pipeline.ΦA; rw [scopedRest0_split, k0_whole_owns]
    iintro ⟨HS, HR, Hg⟩
    isplitl [HS HR]
    · isplitl [HS]; · iexists _; iexact HS
      iexact HR
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  have hN : t.val < 6250 := lt_of_lt_of_eq t.isLt (show cfg0.N = 6250 from N_0)
  by_cases hfst : t.val % 625 = 0
  · have hlst : ¬t.val % 625 = 624 := by omega
    rw [Dat.leavesExact_idle (dat0 V c) 1 t (idleAt0_1 t (fun h => hlst ((hcond0_1 t).mp h))) (noFlush0_1 t hlst)]
    rw [acc0_reset V c t hfst]
    rw [Phi0_castSucc V c t]
    refine (sep_mono (PhiS0_any V c _ _) .rfl).trans ?_
    unfold Pipeline.ΦA; rw [scopedRest0_split, k0_whole_owns]
    iintro ⟨⟨⟨HS, HR⟩, Hg⟩, Ho, ⟨%di, HI⟩, ⟨%dO, HO⟩⟩
    iapply (sound_kernel0_first c (grid0.coords t) _ _ _ _ _ _ ((hcond0_0 t).mpr hfst) (fun h => hlst ((hcond0_1 t).mp h)) (iblk0 V c 0 t) _ Set.univ _)
    iframe HI HO HS
    iintro ⟨HI, HO, HS⟩
    iframe HS HR Hg Ho HI
    iexists _; iexact HO
  · have hz : t.val ≠ 0 := fun h => hfst (by rw [h])
    rw [acc0_step V c t hfst]
    rw [Phi0_castSucc V c t, PhiS0_pos V c _ _ hz]
    by_cases hlst : t.val % 625 = 624
    · rw [show (dat0 V c).leavesExact 1 t = owns (c : Thread nD τ) (ms0_1 t) fullShare ((dat0 V c).after 1 t) from by
        unfold Dat.leavesExact; rw [liveAt0_1 t ((hcond0_1 t).mpr hlst)], after0_1]
      rw [acc0_step V c t hfst]
      iintro ⟨⟨HS, HR, Hg⟩, Ho, ⟨%di, HI⟩, ⟨%dO, HO⟩⟩
      iapply (sound_kernel0_last c (grid0.coords t) _ _ _ _ _ _ (fun h => hfst ((hcond0_0 t).mp h)) ((hcond0_1 t).mpr hlst) (iblk0 V c 0 t) _ Set.univ _)
      isplitl [HI]; · iexact HI
      isplitl [HO]; · iexists _; iexact HO
      isplitl [HS]; · iexact HS
      iintro ⟨HI, HO, HS⟩
      iframe HS HR Hg Ho HI
      iexact HO
    · rw [Dat.leavesExact_idle (dat0 V c) 1 t (idleAt0_1 t (fun h => hlst ((hcond0_1 t).mp h))) (noFlush0_1 t hlst)]
      iintro ⟨⟨HS, HR, Hg⟩, Ho, ⟨%di, HI⟩, ⟨%dO, HO⟩⟩
      iapply (sound_kernel0_middle c (grid0.coords t) _ _ _ _ _ _ (fun h => hfst ((hcond0_0 t).mp h)) (fun h => hlst ((hcond0_1 t).mp h)) (iblk0 V c 0 t) _ _ Set.univ _)
      iframe HI HO HS
      iintro ⟨HI, HO, HS⟩
      iframe HS HR Hg Ho HI
      iexists _; iexact HO

theorem body_obligation0 (c : Dev nD) : BodyObligation (dat0 (F := F) V c) (defs₀ (F := F)) Variants.none () Set.univ := fun t => by
  rw [bigSep_W0, bigSep_W0]
  exact sound_body0 V c t

theorem Phi0_last (c : Dev nD) : (dat0 V c).Φ (Fin.last cfg0.N) ⊢ Pipeline.ΦA spec0 c :=
  PhiS0_any V c (Fin.last cfg0.N).val (Nat.le_of_lt_succ (Fin.last cfg0.N).isLt)

end

end Cert.KernelIdeal.Hand
end
-- ==== Proof.I.Body1.lean ====
import proofs.«408094_j50861002719986_3_alg».proof.Proof.I.Dat1
import proofs.«408094_j50861002719986_3_alg».proof.Proof.I.Whole
import proofs.«408094_j50861002719986_3_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem before1 (c : Dev nD) (t : Fin cfg1.N) :
    (∀ d, (dat1 V c).before 0 t d = iblk1 V c 0 t) ∧ (∀ d, (dat1 V c).before 1 t d = iblk1 V c 1 t)
      ∧ ∀ d, (dat1 V c).before 2 t d = iblk1 V c 2 t := by
  refine ⟨?_, ?_, ?_⟩ <;> intro d <;>
  exact ((dat1 V c).before_in_eq_fetched _ rfl (fun _ => rfl) (fun _ _ _ => rfl)
    (fun t => by simp only [after1_0, after1_1, after1_2]; unfold Dat.blockOf iblk1; rw [A_eq1]; try rfl) t d).trans
    (by unfold Dat.fetched Dat.blockOf iblk1; rw [A_eq1]; try rfl)

abbrev r1_3 : Rect S5000x64 := Rect.unit (s := S5000x64) ![0, 0] S5000x64.size inb_S5000x64_S5000x64_0_0

theorem cover1_3 (p : Vec F S5000x64 .f32) (y : S5000x64.Idx) :
    ∃ pc ∈ ([⟨r1_3, p⟩] : List (View.Piece (Elt F) S5000x64 .f32)), y ∈ pc.1.set :=
  ⟨⟨r1_3, p⟩, List.mem_singleton_self _, View.mem_set_unit_zero (S := S5000x64) zeros2 inb_S5000x64_S5000x64_0_0 y⟩

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S128x64 .bf16) (harg2 : arg2.IsWhole)
    (arg3 : Memref sig .tc .vmem S64 .f32) (harg3 : arg3.IsWhole)
    (arg4 : Memref sig .tc .vmem S5000x64 .f32) (harg4 : arg4.IsWhole)
    (x0 : Vec F S5000x128 .f32) (x1 : Vec F S128x64 .bf16) (x2 : Vec F S64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__pre_linear_kernel i arg1 harg1 arg2 harg2 arg3 harg3 arg4 harg4) K := by
  simp only [cc1__pre_linear_kernel_eq_skeleton]; unfold cc1__pre_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.readAt_eq_ld, View.readAt_eq_ld, View.readAt_eq_ld, View.ld_unit_zero zeros2, View.ld_unit_zero zeros2, View.ld_unit_zero zeros1]
  refine (View.read_writes_eq_canon _ _ _ (cover1_3 _)).trans ?_
  exact View.canon_unit_zero (S := S5000x64) zeros2 inb_S5000x64_S5000x64_0_0 _

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [show (dat1 V c).Φ t.succ = (dat1 V c).Φ t.castSucc from rfl,
    show (dat1 V c).owesAt () t.succ = (dat1 V c).owesAt () t.castSucc from rfl,
    after1_0, after1_1, after1_2, after1_3]
  unfold out1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end

end Cert.KernelIdeal.Hand
end
-- ==== Proof.I.Body2.lean ====
import proofs.«408094_j50861002719986_3_alg».proof.Proof.I.Dat2
import proofs.«408094_j50861002719986_3_alg».proof.Proof.I.Whole
import proofs.«408094_j50861002719986_3_alg».proof.Proof.Gen.KernelIdeal.Points
import Idealize.ShloMosaic.Lib.Pipeline.Value
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

-- The two branch conditions depend on the position modulo 50 only.
theorem hcond2_0 : ∀ t : Fin grid2.N, cond2_0 (grid2.coords t) ↔ t.val % 50 = 0 := by decide +kernel
theorem hcond2_1 : ∀ t : Fin grid2.N, cond2_1 (grid2.coords t) ↔ t.val % 50 = 49 := by decide +kernel

theorem idleAt2_3 (i : grid2.Coords) (h : ¬cond2_1 i) : cfg2.idle 3 i = true := by
  show (!(k2_cond2 i == 1#1)) = true
  rw [beq_eq_false_iff_ne.mpr h]; rfl
theorem liveAt2_3 (i : grid2.Coords) (h : cond2_1 i) : cfg2.idle 3 i = false := by
  show (!(k2_cond2 i == 1#1)) = false
  rw [beq_iff_eq.mpr h]; rfl

-- A view loaded whole at its representative of X gives X.
theorem sound_kernel2_load {S : Shape} {e : EltTy} {off : Fin S.rank → ℕ} (hz : off = fun _ => 0)
    (inb : ∀ a, off a + S.size a ≤ S.size a) (v : View sig .tc .vmem S e) (X : S.Idx → Elt F e) :
    View.readAt (Elt F) v (Rect.unit off S.size inb).toLoadRect (v.rep X) = X :=
  (View.readAt_eq_ld _ _ _).trans ((congrArg (fun Y => View.ld Y (Rect.unit off S.size inb)) (View.read_rep v X)).trans
    (View.ld_unit_zero hz inb X))

section
variable (c : Dev nD) (E : Set ℕ) (i : grid2.Coords)
  {msrc : Memref sig .tc .vmem S5000x1 .i32} (hsrc : msrc.IsWhole)
  {matt : Memref sig .tc .vmem S5000x3 .f32} (hatt : matt.IsWhole)
  {mnod : Memref sig .tc .vmem S1000x64 .bf16} (hnod : mnod.IsWhole)
  {mout : Memref sig .tc .vmem S5000x192 .bf16} (hout : mout.IsWhole)
  {mscr : Memref sig .tc .vmem S5000x64 .f32} (hscr : mscr.IsWhole)
  (xsrc : Vec F S5000x1 .i32) (xatt : Vec F S5000x3 .f32) (xnod : Vec F S1000x64 .bf16) (xs : Vec F S5000x64 .f32)

-- At the first node block of an edge block the scratch, at anything, is cleared and then gains the selected rows.
theorem sound_kernel2_first (K : PUnit → sProp 𝕄) (hc0 : cond2_0 i) (hc1 : ¬cond2_1 i) :
    iprop(owns (c : Thread nD τ) msrc fullShare xsrc ∗ owns (c : Thread nD τ) mnod fullShare xnod
        ∗ (∃ d, owns (c : Thread nD τ) mscr fullShare d)
        ∗ (iprop(owns (c : Thread nD τ) msrc fullShare xsrc ∗ owns (c : Thread nD τ) mnod fullShare xnod
            ∗ owns (c : Thread nD τ) mscr fullShare (k2_pay2 i xsrc (k2_pay1 (F := F)) xnod)) -∗ K ⟨⟩))
      ⊢ wp frame (wpE (defs₀ (F := F)) Variants.none c none) E (cc2__gather_kernel i msrc hsrc matt hatt mnod hnod mout hout mscr hscr) K := by
  simp only [cc2__gather_kernel_eq_skeleton]; unfold cc2__gather_kernel_skel
  rw [owns_eq_rep (c : Thread nD τ) msrc, owns_eq_rep (c : Thread nD τ) mnod]
  unfold owns
  iintro ⟨Hsrc, Hnod, ⟨%ds, %fs, %hfs, Hscr⟩, Hk⟩
  sl_exec (disch := first | exact hc0 | exact hc1)
  sl_step
  iapply Hk
  iframe Hsrc Hnod
  iexists _; isplitr
  swap; · iexact Hscr
  ipureintro
  sl_unfold_run_names
  refine (whole_stored _ _ zeros2 _ _ _).trans ?_
  exact congr (congr (congrArg (k2_pay2 i) (sound_kernel2_load zeros2 _ _ xsrc))
      (View.readCov_unit_zero (S := S5000x64) _ zeros2 _ _))
    (sound_kernel2_load zeros2 _ _ xnod)

-- At a node block between, the scratch gains the selected rows.
theorem sound_kernel2_middle (K : PUnit → sProp 𝕄) (hc0 : ¬cond2_0 i) (hc1 : ¬cond2_1 i) :
    iprop(owns (c : Thread nD τ) msrc fullShare xsrc ∗ owns (c : Thread nD τ) mnod fullShare xnod
        ∗ owns (c : Thread nD τ) mscr fullShare xs
        ∗ (iprop(owns (c : Thread nD τ) msrc fullShare xsrc ∗ owns (c : Thread nD τ) mnod fullShare xnod
            ∗ owns (c : Thread nD τ) mscr fullShare (k2_pay2 i xsrc xs xnod)) -∗ K ⟨⟩))
      ⊢ wp frame (wpE (defs₀ (F := F)) Variants.none c none) E (cc2__gather_kernel i msrc hsrc matt hatt mnod hnod mout hout mscr hscr) K := by
  simp only [cc2__gather_kernel_eq_skeleton]; unfold cc2__gather_kernel_skel
  rw [owns_eq_rep (c : Thread nD τ) msrc, owns_eq_rep (c : Thread nD τ) mnod, owns_eq_rep (c : Thread nD τ) mscr _ xs]
  unfold owns
  iintro ⟨Hsrc, Hnod, Hscr, Hk⟩
  sl_exec (disch := first | exact hc0 | exact hc1)
  sl_step
  iapply Hk
  iframe Hsrc Hnod
  iexists _; isplitr
  swap; · iexact Hscr
  ipureintro
  sl_unfold_run_names
  refine (whole_stored _ _ zeros2 _ _ _).trans ?_
  exact congr (congr (congrArg (k2_pay2 i) (sound_kernel2_load zeros2 _ _ xsrc))
      (sound_kernel2_load zeros2 _ _ xs))
    (sound_kernel2_load zeros2 _ _ xnod)

-- At the last node block the scratch gains the selected rows and the output block is stored whole, at the scratch scaled by the attributes.
theorem sound_kernel2_last (K : PUnit → sProp 𝕄) (hc0 : ¬cond2_0 i) (hc1 : cond2_1 i) :
    iprop(owns (c : Thread nD τ) msrc fullShare xsrc ∗ owns (c : Thread nD τ) matt fullShare xatt ∗ owns (c : Thread nD τ) mnod fullShare xnod
        ∗ (∃ d, owns (c : Thread nD τ) mout fullShare d) ∗ owns (c : Thread nD τ) mscr fullShare xs
        ∗ (iprop(owns (c : Thread nD τ) msrc fullShare xsrc ∗ owns (c : Thread nD τ) matt fullShare xatt ∗ owns (c : Thread nD τ) mnod fullShare xnod
            ∗ owns (c : Thread nD τ) mout fullShare (k2_pay3 (k2_pay2 i xsrc xs xnod) xatt)
            ∗ owns (c : Thread nD τ) mscr fullShare (k2_pay2 i xsrc xs xnod)) -∗ K ⟨⟩))
      ⊢ wp frame (wpE (defs₀ (F := F)) Variants.none c none) E (cc2__gather_kernel i msrc hsrc matt hatt mnod hnod mout hout mscr hscr) K := by
  simp only [cc2__gather_kernel_eq_skeleton]; unfold cc2__gather_kernel_skel
  rw [owns_eq_rep (c : Thread nD τ) msrc, owns_eq_rep (c : Thread nD τ) matt, owns_eq_rep (c : Thread nD τ) mnod, owns_eq_rep (c : Thread nD τ) mscr _ xs]
  unfold owns
  iintro ⟨Hsrc, Hatt, Hnod, ⟨%dd, %fd, %hfd, Hout⟩, Hscr, Hk⟩
  sl_exec (disch := first | exact hc0 | exact hc1)
  sl_step
  have hacc := congr (congr (congrArg (k2_pay2 i) (sound_kernel2_load zeros2 inb_S5000x1_S5000x1_0_0 msrc.view xsrc))
      (sound_kernel2_load zeros2 inb_S5000x64_S5000x64_0_0 mscr.view xs))
    (sound_kernel2_load zeros2 inb_S1000x64_S1000x64_0_0 mnod.view xnod)
  iapply Hk
  iframe Hsrc Hatt Hnod
  isplitl [Hout]
  · iexists _; isplitr
    swap; · iexact Hout
    ipureintro
    sl_unfold_run_names
    refine (whole_stored _ _ zeros2 _ _ _).trans ?_
    exact congr (congrArg k2_pay3 ((View.readCov_unit_zero (S := S5000x64) _ zeros2 _ _).trans hacc))
      (sound_kernel2_load zeros2 _ _ xatt)
  iexists _; isplitr
  swap; · iexact Hscr
  ipureintro
  sl_unfold_run_names
  exact (whole_stored _ _ zeros2 _ _ _).trans hacc

end

-- The body's post for a window at a point where the window is not idle.
theorem leavesExact_live {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns (c : Thread nD τ) ((cfg.win w).stage (cfg.slots t w)) fullShare (dat.after w t) := by
  unfold Dat.leavesExact; rw [h]

section
variable (V : (c : Dev nD) → (b : Ref sig .tc) → Buf (Elt F) ((c : Thread nD τ).loc b))

theorem before2 (c : Dev nD) (t : Fin cfg2.N) :
    (∀ d, (dat2 V c).before 0 t d = iblk2 V c 0 t) ∧ (∀ d, (dat2 V c).before 1 t d = iblk2 V c 1 t)
      ∧ ∀ d, (dat2 V c).before 2 t d = iblk2 V c 2 t := by
  refine ⟨?_, ?_, ?_⟩ <;> intro d <;>
  exact ((dat2 V c).before_in_eq_fetched _ rfl (fun _ => rfl) (fun _ _ _ => rfl)
    (fun t => by simp only [after2_0, after2_1, after2_2]; unfold Dat.blockOf iblk2; rw [A_eq2]; try rfl) t d).trans
    (by unfold Dat.fetched Dat.blockOf iblk2; rw [A_eq2]; try rfl)

abbrev ms2_0 (t : Fin cfg2.N) : Memref sig .tc .vmem S5000x1 .i32 := win2_0.stage (cfg2.slots t 0)
abbrev ms2_1 (t : Fin cfg2.N) : Memref sig .tc .vmem S5000x3 .f32 := win2_1.stage (cfg2.slots t 1)
abbrev ms2_2 (t : Fin cfg2.N) : Memref sig .tc .vmem S1000x64 .bf16 := win2_2.stage (cfg2.slots t 2)
abbrev ms2_3 (t : Fin cfg2.N) : Memref sig .tc .vmem S5000x192 .bf16 := win2_3.stage (cfg2.slots t 3)

theorem Phi2_enter (c : Dev nD) :
    (Pipeline.ΦA spec2 c : sProp 𝕄)
      = iprop((iprop((∃ d, owns (c : Thread nD τ) scM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

-- The invariant at any position gives the region's entry invariant: the scratch's contents are forgotten.
theorem PhiS2_any (c : Dev nD) (n : ℕ) (h : n ≤ cfg2.N) : PhiS2 V c n h ⊢ Pipeline.ΦA spec2 c := by
  cases n with
  | zero => exact .rfl
  | succ n =>
    rw [Phi2_enter, PhiS2_succ]
    iintro ⟨H, R, G⟩
    isplitl [H R]
    · isplitl [H]; · iexists _; iexact H
      iexact R
    iexact G

-- The body at any point: the position modulo 50 says which of the three cases the point is in.
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop(PhiS2 V c (t.val + 1) t.isLt ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t)) := by
  unfold bodyAt2
  simp only [(before2 V c t).1, (before2 V c t).2.1, (before2 V c t).2.2]
  rw [PhiS2_succ]
  have hc0 := hcond2_0 t
  have hc1 := hcond2_1 t
  by_cases h0 : t.val % 50 = 0
  · have h1 : ¬t.val % 50 = 49 := by omega
    rw [Dat.leavesExact_idle (dat2 V c) 3 t (idleAt2_3 (grid2.coords t) (mt hc1.mp h1)) (Bool.eq_false_iff.mpr (mt (flush2_3 t).mp h1)),
      acc2_reset V c t h0]
    iintro ⟨HP, Howe, ⟨%da, Hsrc⟩, ⟨%db, Hatt⟩, ⟨%dc, Hnod⟩, Hout⟩
    icases ((PhiS2_any V c _ _).trans (.of_eq (Phi2_enter c))) $$ HP with ⟨⟨Hscr, Hrest⟩, Hgen⟩
    iapply (sound_kernel2_first c Set.univ (grid2.coords t) _ _ _ _ _ (iblk2 V c 0 t) (iblk2 V c 2 t) _ (hc0.mpr h0) (mt hc1.mp h1))
    iframe Hsrc Hnod Hscr
    iintro ⟨Hsrc, Hnod, Hscr⟩
    iframe
  · have hz : t.val ≠ 0 := fun h => h0 (by rw [h])
    rw [acc2_step V c t h0, PhiS2_pos V c _ _ hz, PhiS2_succ]
    by_cases h1 : t.val % 50 = 49
    · rw [show (dat2 V c).leavesExact 3 t = owns (c : Thread nD τ) (ms2_3 t) fullShare (out2 V c t) from
        leavesExact_live _ 3 t (liveAt2_3 (grid2.coords t) (hc1.mpr h1))]
      unfold out2
      rw [acc2_step V c t h0]
      iintro ⟨⟨Hscr, Hrest, Hgen⟩, Howe, ⟨%da, Hsrc⟩, ⟨%db, Hatt⟩, ⟨%dc, Hnod⟩, ⟨%dd, Hout⟩⟩
      iapply (sound_kernel2_last c Set.univ (grid2.coords t) _ _ _ _ _ (iblk2 V c 0 t) (iblk2 V c 1 t) (iblk2 V c 2 t) _ _ (mt hc0.mp h0) (hc1.mpr h1))
      iframe Hsrc Hatt Hnod Hscr
      isplitl [Hout]; · iexists _; iexact Hout
      iintro ⟨Hsrc, Hatt, Hnod, Hout, Hscr⟩
      iframe
    · rw [Dat.leavesExact_idle (dat2 V c) 3 t (idleAt2_3 (grid2.coords t) (mt hc1.mp h1)) (Bool.eq_false_iff.mpr (mt (flush2_3 t).mp h1))]
      iintro ⟨⟨Hscr, Hrest, Hgen⟩, Howe, ⟨%da, Hsrc⟩, ⟨%db, Hatt⟩, ⟨%dc, Hnod⟩, Hout⟩
      iapply (sound_kernel2_middle c Set.univ (grid2.coords t) _ _ _ _ _ (iblk2 V c 0 t) (iblk2 V c 2 t) _ _ (mt hc0.mp h0) (mt hc1.mp h1))
      iframe Hsrc Hnod Hscr
      iintro ⟨Hsrc, Hnod, Hscr⟩
      iframe

theorem body_obligation2 (c : Dev nD) : BodyObligation (dat2 (F := F) V c) (defs₀ (F := F)) Variants.none () Set.univ := fun t => by
  rw [bigSep_W2, bigSep_W2]
  exact sound_body2 V c t

theorem Phi2_last (c : Dev nD) : (dat2 V c).Φ (Fin.last cfg2.N) ⊢ Pipeline.ΦA spec2 c :=
  PhiS2_any V c cfg2.N le_rfl

end

end Cert.KernelIdeal.Hand
end
-- ==== Proof.I.Body3.lean ====
import proofs.«408094_j50861002719986_3_alg».proof.Proof.I.Dat3
import proofs.«408094_j50861002719986_3_alg».proof.Proof.Gen.KernelIdeal.Points
import proofs.«408094_j50861002719986_3_alg».proof.Proof.I.Whole
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

abbrev cond3_0 (i : grid3.Coords) : Prop :=
  (Scalar.cmpi .ne (Scalar.extui (Scalar.cmpi .eq (BitVec.ofNat 32 (i 1).val) 0#32)) 0#32) = 1#1

abbrev cond3_1 (i : grid3.Coords) : Prop := k3_cond2 i = 1#1

theorem hcond3_0 : ∀ t : Fin cfg3.N, cond3_0 (grid3.coords t) ↔ t.val % 625 = 0 :=
  (by decide +kernel : ∀ t : Fin grid3.N, cond3_0 (grid3.coords t) ↔ t.val % 625 = 0)

theorem hcond3_1 : ∀ t : Fin cfg3.N, cond3_1 (grid3.coords t) ↔ t.val % 625 = 624 :=
  (by decide +kernel : ∀ t : Fin grid3.N, cond3_1 (grid3.coords t) ↔ t.val % 625 = 624)

set_option maxHeartbeats 1000000 in
/-- The four cases of the two conditions in one statement, the values written as conditionals. -/
theorem sound_kernel3 (c : Dev nD) (E : Set ℕ) (i : grid3.Coords) {Mt : Memref sig .tc .vmem S1x1280 .i32} (hMt : Mt.IsWhole)
    {Mm : Memref sig .tc .vmem S1280x192 .bf16} (hMm : Mm.IsWhole) {Mw : Memref sig .tc .vmem S192x64 .bf16} (hMw : Mw.IsWhole)
    {Mb : Memref sig .tc .vmem S64 .f32} (hMb : Mb.IsWhole) {Mg : Memref sig .tc .vmem S5000x1 .f32} (hMg : Mg.IsWhole)
    {Mo : Memref sig .tc .vmem S5000x64 .bf16} (hMo : Mo.IsWhole) {Ma : Memref sig .tc .vmem S5000x192 .f32} (hMa : Ma.IsWhole)
    (xt : Vec F S1x1280 .i32) (xm : Vec F S1280x192 .bf16) (xw : Vec F S192x64 .bf16) (xb : Vec F S64 .f32) (xg : Vec F S5000x1 .f32)
    (xo : Vec F S5000x64 .bf16) (xs : Vec F S5000x192 .f32) (K : PUnit → sProp 𝕄) :
    iprop(owns (c : Thread nD τ) Mt fullShare xt ∗ owns (c : Thread nD τ) Mm fullShare xm ∗ owns (c : Thread nD τ) Mw fullShare xw
        ∗ owns (c : Thread nD τ) Mb fullShare xb ∗ owns (c : Thread nD τ) Mg fullShare xg ∗ owns (c : Thread nD τ) Mo fullShare xo
        ∗ owns (c : Thread nD τ) Ma fullShare xs
        ∗ (iprop(owns (c : Thread nD τ) Mt fullShare xt ∗ owns (c : Thread nD τ) Mm fullShare xm ∗ owns (c : Thread nD τ) Mw fullShare xw
            ∗ owns (c : Thread nD τ) Mb fullShare xb ∗ owns (c : Thread nD τ) Mg fullShare xg
            ∗ owns (c : Thread nD τ) Mo fullShare
                (if cond3_1 i then k3_pay3 (k3_pay2 i xt (if cond3_0 i then k3_pay1 (F := F) else xs) xm) xg xw xb else xo)
            ∗ owns (c : Thread nD τ) Ma fullShare (k3_pay2 i xt (if cond3_0 i then k3_pay1 (F := F) else xs) xm)) -∗ K ⟨⟩))
      ⊢ wp frame (wpE (defs₀ (F := F)) Variants.none c none) E (cc3__scatter_kernel i Mt hMt Mm hMm Mw hMw Mb hMb Mg hMg Mo hMo Ma hMa) K := by
  by_cases hc0 : cond3_0 i <;> by_cases hc1 : cond3_1 i
  all_goals
    first | rw [if_pos hc0] | rw [if_neg hc0]
    first | rw [if_pos hc1] | rw [if_neg hc1]
    simp only [cc3__scatter_kernel_eq_skeleton]; unfold cc3__scatter_kernel_skel owns
    iintro ⟨⟨%ft, %hft, Ht⟩, ⟨%fm, %hfm, Hm⟩, ⟨%fw, %hfw, Hw⟩, ⟨%fb, %hfb, Hb⟩, ⟨%fg, %hfg, Hg⟩, ⟨%fo, %hfo, Ho⟩, ⟨%fa, %hfa, Ha⟩, Hk⟩
    subst hft hfm hfw hfb hfg hfo hfa
    sl_exec (disch := first | exact hc0 | exact hc1)
    sl_step
    iapply Hk
    repeat' first | isplitl [Ht] | isplitl [Hm] | isplitl [Hw] | isplitl [Hb] | isplitl [Hg] | isplitl [Ho]
    all_goals
      iexists _; isplitr; swap; iassumption
      ipureintro
      first
      | rfl
      | sl_unfold_words
        refine (whole_stored _ _ zeros2 _ _ _).trans ?_
        simp only [View.readAt_eq_ld, View.ld_unit_zero (S := S1x1280) zeros2, View.ld_unit_zero (S := S1280x192) zeros2,
          View.ld_unit_zero (S := S192x64) zeros2, View.ld_unit_zero (S := S64) zeros1, View.ld_unit_zero (S := S5000x1) zeros2,
          View.ld_unit_zero (S := S5000x192) zeros2, readCov_cons_unit_zero (S := S5000x192) _ zeros2]

theorem idleAt3_5 (t : Fin cfg3.N) (h : ¬cond3_1 (grid3.coords t)) : cfg3.idle 5 (grid3.coords t) = true := by
  show (!(k3_cond2 (grid3.coords t) == 1#1)) = true
  rw [Bool.not_eq_true', beq_eq_false_iff_ne]; exact h

theorem liveAt3_5 (t : Fin cfg3.N) (h : cond3_1 (grid3.coords t)) : cfg3.idle 5 (grid3.coords t) = false := by
  show (!(k3_cond2 (grid3.coords t) == 1#1)) = false
  rw [show k3_cond2 (grid3.coords t) = 1#1 from h]; rfl

theorem noFlush3_5 (t : Fin cfg3.N) (h : ¬cond3_1 (grid3.coords t)) : (cfg3.win 5).flush t = false :=
  Bool.eq_false_iff.mpr fun hf => h ((hcond3_1 t).mpr ((flush3_5 t).mp hf))

section
variable (V : (c : Dev nD) → (b : Ref sig .tc) → Buf (Elt F) ((c : Thread nD τ).loc b))

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

theorem Phi3_entry (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

/-- The two defining cases of `acc3` in one equation. -/
theorem acc3_eq (c : Dev nD) (t : Fin cfg3.N) (xs : Vec F S5000x192 .f32)
    (hxs : t.val ≠ 0 → xs = acc3 V c (t.val - 1) (Nat.lt_of_le_of_lt (Nat.sub_le _ _) t.isLt)) :
    k3_pay2 (grid3.coords t) (iblk3 V c 0 t) (if cond3_0 (grid3.coords t) then k3_pay1 (F := F) else xs) (iblk3 V c 1 t)
      = acc3 V c t.val t.isLt := by
  by_cases h : t.val % 625 = 0
  · rw [acc3_reset V c t h, if_pos ((hcond3_0 t).mpr h)]
  · rw [acc3_step V c t h, if_neg (mt (hcond3_0 t).mp h), hxs fun hz => h (by rw [hz])]

/-- The output block's two cases in one entailment. -/
theorem leaves3_5 (c : Dev nD) (t : Fin cfg3.N) (d : Vec F S5000x64 .bf16) :
    owns (c : Thread nD τ) (st3_5 t) fullShare (if cond3_1 (grid3.coords t)
      then k3_pay3 (acc3 V c t.val t.isLt) (iblk3 V c 4 t) (iblk3 V c 2 t) (iblk3 V c 3 t) else (dat3 V c).before 5 t d)
      ⊢ (dat3 V c).leavesExact 5 t := by
  by_cases h : cond3_1 (grid3.coords t)
  · rw [if_pos h]; unfold Dat.leavesExact; rw [liveAt3_5 t h]; exact .rfl
  · rw [if_neg h, Dat.leavesExact_idle _ 5 t (idleAt3_5 t h) (noFlush3_5 t h)]; iintro H; iexists d; iexact H

theorem body_obligation3 (c : Dev nD) : BodyObligation (dat3 (F := F) V c) (defs₀ (F := F)) Variants.none () Set.univ := fun t => by
  rw [bigSep_W3, bigSep_W3]
  show iprop(PhiS3 V c t.val (Nat.le_of_lt t.isLt) ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) fun _ =>
      iprop(PhiS3 V c (t.val + 1) t.isLt ∗ (dat3 V c).owesAt () t.castSucc
        ∗ owns (c : Thread nD τ) (st3_0 t) fullShare (iblk3 V c 0 t) ∗ owns (c : Thread nD τ) (st3_1 t) fullShare (iblk3 V c 1 t)
        ∗ owns (c : Thread nD τ) (st3_2 t) fullShare (iblk3 V c 2 t) ∗ owns (c : Thread nD τ) (st3_3 t) fullShare (iblk3 V c 3 t)
        ∗ owns (c : Thread nD τ) (st3_4 t) fullShare (iblk3 V c 4 t) ∗ (dat3 V c).leavesExact 5 t)
  simp only [before3_0, before3_1, before3_2, before3_3, before3_4]
  rw [PhiS3_succ]
  by_cases hz : t.val = 0
  case' pos => rw [PhiS3_zero V c _ _ hz, Phi3_entry]; iintro ⟨⟨⟨⟨%xs, Hs⟩, Hrest⟩, Hr⟩, H⟩
  case' neg => rw [PhiS3_pos V c _ _ hz]; iintro ⟨⟨Hs, Hrest, Hr⟩, H⟩
  all_goals
    icases H with ⟨Hown, ⟨%_, Ht⟩, ⟨%_, Hm⟩, ⟨%_, Hw⟩, ⟨%_, Hb⟩, ⟨%_, Hg⟩, ⟨%d, Ho⟩⟩
    iapply sound_kernel3 c Set.univ (grid3.coords t)
    iframe Ht Hm Hw Hb Hg Ho Hs
    iintro ⟨Ht, Hm, Hw, Hb, Hg, Ho, Hs⟩
    rw [acc3_eq V c t _ fun h => by first | exact absurd hz h | rfl]
    ihave Ho := (leaves3_5 V c t d) $$ Ho
    iframe

theorem Phi3_last (c : Dev nD) : (dat3 V c).Φ (Fin.last cfg3.N) ⊢ Pipeline.ΦA spec3 c := by
  have hl : (Fin.last cfg3.N).val ≠ 0 := by rw [Fin.val_last]; have : cfg3.N = 6250 := N_3; omega
  rw [show (dat3 V c).Φ (Fin.last cfg3.N) = PhiS3 V c (Fin.last cfg3.N).val (Nat.le_of_lt_succ (Fin.last cfg3.N).isLt) from rfl,
    PhiS3_pos V c _ _ hl, Phi3_entry]
  iintro ⟨Hs, Hrest, Hr⟩
  iframe Hrest Hr
  iexists _; iexact Hs

end

end Cert.KernelIdeal.Hand
end
-- ==== Proof.I.Body4.lean ====
import proofs.«408094_j50861002719986_3_alg».proof.Proof.I.Dat4
import proofs.«408094_j50861002719986_3_alg».proof.Proof.I.Body2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- This region runs region 2's kernel function on region 2's payloads: the definitions have the same bodies.
theorem cc4_eq : cc4__gather_kernel (F := F) = cc2__gather_kernel := rfl
theorem k4_pay1_eq : k4_pay1 (F := F) = k2_pay1 := rfl
theorem k4_pay2_eq : k4_pay2 (F := F) = k2_pay2 := rfl
theorem k4_pay3_eq : k4_pay3 (F := F) = k2_pay3 := rfl

section
variable (V : (c : Dev nD) → (b : Ref sig .tc) → Buf (Elt F) ((c : Thread nD τ).loc b))

theorem before4 (c : Dev nD) (t : Fin cfg4.N) :
    (∀ d, (dat4 V c).before 0 t d = iblk4 V c 0 t) ∧ (∀ d, (dat4 V c).before 1 t d = iblk4 V c 1 t)
      ∧ ∀ d, (dat4 V c).before 2 t d = iblk4 V c 2 t := by
  refine ⟨?_, ?_, ?_⟩ <;> intro d <;>
  exact ((dat4 V c).before_in_eq_fetched _ rfl (fun _ => rfl) (fun _ _ _ => rfl)
    (fun t => by simp only [after4_0, after4_1, after4_2]; unfold Dat.blockOf iblk4; rw [A_eq4]; try rfl) t d).trans
    (by unfold Dat.fetched Dat.blockOf iblk4; rw [A_eq4]; try rfl)

abbrev ms4_0 (t : Fin cfg4.N) : Memref sig .tc .vmem S5000x1 .i32 := win4_0.stage (cfg4.slots t 0)
abbrev ms4_1 (t : Fin cfg4.N) : Memref sig .tc .vmem S5000x3 .f32 := win4_1.stage (cfg4.slots t 1)
abbrev ms4_2 (t : Fin cfg4.N) : Memref sig .tc .vmem S1000x64 .bf16 := win4_2.stage (cfg4.slots t 2)
abbrev ms4_3 (t : Fin cfg4.N) : Memref sig .tc .vmem S5000x192 .bf16 := win4_3.stage (cfg4.slots t 3)

theorem Phi4_enter (c : Dev nD) :
    (Pipeline.ΦA spec4 c : sProp 𝕄)
      = iprop((iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

-- The invariant at any position gives the region's entry invariant: the scratch's contents are forgotten.
theorem PhiS4_any (c : Dev nD) (n : ℕ) (h : n ≤ cfg4.N) : PhiS4 V c n h ⊢ Pipeline.ΦA spec4 c := by
  cases n with
  | zero => exact .rfl
  | succ n =>
    rw [Phi4_enter, PhiS4_succ]
    iintro ⟨H, R, G⟩
    isplitl [H R]
    · isplitl [H]; · iexists _; iexact H
      iexact R
    iexact G

-- The body at any point: the position modulo 50 says which of the three cases the point is in.
theorem sound_body4 (c : Dev nD) (t : Fin cfg4.N) :
    iprop(PhiS4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
    ⊢ wp frame (wpE (defs₀ (F := F)) Variants.none c none) Set.univ (bodyAt4 t) (fun _ =>
      iprop(PhiS4 V c (t.val + 1) t.isLt ∗ (dat4 V c).owesAt () t.castSucc
        ∗ owns (c : Thread nD τ) (ms4_0 t) fullShare (iblk4 V c 0 t)
        ∗ owns (c : Thread nD τ) (ms4_1 t) fullShare (iblk4 V c 1 t)
        ∗ owns (c : Thread nD τ) (ms4_2 t) fullShare (iblk4 V c 2 t)
        ∗ (dat4 V c).leavesExact 3 t)) := by
  unfold bodyAt4
  rw [cc4_eq]
  simp only [(before4 V c t).1, (before4 V c t).2.1, (before4 V c t).2.2]
  rw [PhiS4_succ]
  have hc0 := hcond2_0 t
  have hc1 := hcond2_1 t
  by_cases h0 : t.val % 50 = 0
  · have h1 : ¬t.val % 50 = 49 := by omega
    rw [Dat.leavesExact_idle (dat4 V c) 3 t (idleAt2_3 (grid4.coords t) (mt hc1.mp h1)) (Bool.eq_false_iff.mpr (mt (flush4_3 t).mp h1)),
      acc4_reset V c t h0]
    simp only [k4_pay1_eq, k4_pay2_eq, k4_pay3_eq]
    iintro ⟨HP, Howe, ⟨%da, Hsrc⟩, ⟨%db, Hatt⟩, ⟨%dc, Hnod⟩, Hout⟩
    icases ((PhiS4_any V c _ _).trans (.of_eq (Phi4_enter c))) $$ HP with ⟨⟨Hscr, Hrest⟩, Hgen⟩
    iapply (sound_kernel2_first c Set.univ (grid4.coords t) _ _ _ _ _ (iblk4 V c 0 t) (iblk4 V c 2 t) _ (hc0.mpr h0) (mt hc1.mp h1))
    iframe Hsrc Hnod Hscr
    iintro ⟨Hsrc, Hnod, Hscr⟩
    iframe
  · have hz : t.val ≠ 0 := fun h => h0 (by rw [h])
    rw [acc4_step V c t h0, PhiS4_pos V c _ _ hz, PhiS4_succ]
    by_cases h1 : t.val % 50 = 49
    · rw [show (dat4 V c).leavesExact 3 t = owns (c : Thread nD τ) (ms4_3 t) fullShare (out4 V c t) from
        leavesExact_live _ 3 t (liveAt2_3 (grid4.coords t) (hc1.mpr h1))]
      unfold out4
      rw [acc4_step V c t h0]
      simp only [k4_pay1_eq, k4_pay2_eq, k4_pay3_eq]
      iintro ⟨⟨Hscr, Hrest, Hgen⟩, Howe, ⟨%da, Hsrc⟩, ⟨%db, Hatt⟩, ⟨%dc, Hnod⟩, ⟨%dd, Hout⟩⟩
      iapply (sound_kernel2_last c Set.univ (grid4.coords t) _ _ _ _ _ (iblk4 V c 0 t) (iblk4 V c 1 t) (iblk4 V c 2 t) _ _ (mt hc0.mp h0) (hc1.mpr h1))
      iframe Hsrc Hatt Hnod Hscr
      isplitl [Hout]; · iexists _; iexact Hout
      iintro ⟨Hsrc, Hatt, Hnod, Hout, Hscr⟩
      iframe
    · rw [Dat.leavesExact_idle (dat4 V c) 3 t (idleAt2_3 (grid4.coords t) (mt hc1.mp h1)) (Bool.eq_false_iff.mpr (mt (flush4_3 t).mp h1))]
      simp only [k4_pay1_eq, k4_pay2_eq, k4_pay3_eq]
      iintro ⟨⟨Hscr, Hrest, Hgen⟩, Howe, ⟨%da, Hsrc⟩, ⟨%db, Hatt⟩, ⟨%dc, Hnod⟩, Hout⟩
      iapply (sound_kernel2_middle c Set.univ (grid4.coords t) _ _ _ _ _ (iblk4 V c 0 t) (iblk4 V c 2 t) _ _ (mt hc0.mp h0) (mt hc1.mp h1))
      iframe Hsrc Hnod Hscr
      iintro ⟨Hsrc, Hnod, Hscr⟩
      iframe

theorem body_obligation4 (c : Dev nD) : BodyObligation (dat4 (F := F) V c) (defs₀ (F := F)) Variants.none () Set.univ := fun t => by
  rw [bigSep_W4, bigSep_W4]
  exact sound_body4 V c t

theorem Phi4_last (c : Dev nD) : (dat4 V c).Φ (Fin.last cfg4.N) ⊢ Pipeline.ΦA spec4 c :=
  PhiS4_any V c cfg4.N le_rfl

end

end Cert.KernelIdeal.Hand
end
-- ==== Proof.I.Body5.lean ====
import proofs.«408094_j50861002719986_3_alg».proof.Proof.I.Dat5
import proofs.«408094_j50861002719986_3_alg».proof.Proof.I.Body3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k5_pay1_eq : k5_pay1 (F := F) = k3_pay1 := rfl

theorem k5_pay2_eq : k5_pay2 (F := F) = k3_pay2 := rfl

/-- Region 5 runs region 3's kernel function. -/
theorem cc5__scatter_kernel_eq : cc5__scatter_kernel (F := F) = cc3__scatter_kernel := rfl

theorem idleAt5_5 (t : Fin cfg5.N) (h : ¬cond3_1 (grid5.coords t)) : cfg5.idle 5 (grid5.coords t) = true := by
  show (!(k5_cond2 (grid5.coords t) == 1#1)) = true
  rw [Bool.not_eq_true', beq_eq_false_iff_ne]; exact h

theorem liveAt5_5 (t : Fin cfg5.N) (h : cond3_1 (grid5.coords t)) : cfg5.idle 5 (grid5.coords t) = false := by
  show (!(k5_cond2 (grid5.coords t) == 1#1)) = false
  rw [show k5_cond2 (grid5.coords t) = 1#1 from h]; rfl

theorem noFlush5_5 (t : Fin cfg5.N) (h : ¬cond3_1 (grid5.coords t)) : (cfg5.win 5).flush t = false :=
  Bool.eq_false_iff.mpr fun hf => h ((hcond3_1 t).mpr ((flush5_5 t).mp hf))

section
variable (V : (c : Dev nD) → (b : Ref sig .tc) → Buf (Elt F) ((c : Thread nD τ).loc b))

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d

theorem Phi5_entry (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

/-- The two defining cases of `acc5` in one equation. -/
theorem acc5_eq (c : Dev nD) (t : Fin cfg5.N) (xs : Vec F S5000x192 .f32)
    (hxs : t.val ≠ 0 → xs = acc5 V c (t.val - 1) (Nat.lt_of_le_of_lt (Nat.sub_le _ _) t.isLt)) :
    k3_pay2 (grid5.coords t) (iblk5 V c 0 t) (if cond3_0 (grid5.coords t) then k3_pay1 (F := F) else xs) (iblk5 V c 1 t)
      = acc5 V c t.val t.isLt := by
  by_cases h : t.val % 625 = 0
  · rw [acc5_reset V c t h, if_pos ((hcond3_0 t).mpr h), k5_pay2_eq, k5_pay1_eq]
  · rw [acc5_step V c t h, if_neg (mt (hcond3_0 t).mp h), hxs fun hz => h (by rw [hz]), k5_pay2_eq]

/-- The output block's two cases in one entailment. -/
theorem leaves5_5 (c : Dev nD) (t : Fin cfg5.N) (d : Vec F S5000x64 .bf16) :
    owns (c : Thread nD τ) (st5_5 t) fullShare (if cond3_1 (grid5.coords t)
      then k3_pay3 (acc5 V c t.val t.isLt) (iblk5 V c 4 t) (iblk5 V c 2 t) (iblk5 V c 3 t) else (dat5 V c).before 5 t d)
      ⊢ (dat5 V c).leavesExact 5 t := by
  by_cases h : cond3_1 (grid5.coords t)
  · rw [if_pos h]; unfold Dat.leavesExact; rw [liveAt5_5 t h]; exact .rfl
  · rw [if_neg h, Dat.leavesExact_idle _ 5 t (idleAt5_5 t h) (noFlush5_5 t h)]; iintro H; iexists d; iexact H

theorem body_obligation5 (c : Dev nD) : BodyObligation (dat5 (F := F) V c) (defs₀ (F := F)) Variants.none () Set.univ := fun t => by
  rw [bigSep_W5, bigSep_W5]
  show iprop(PhiS5 V c t.val (Nat.le_of_lt t.isLt) ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d))
      ∗ (∃ d, owns (c : Thread nD τ) (st5_5 t) fullShare ((dat5 V c).before 5 t d)))
    ⊢ wp frame (wpE (defs₀ (F := F)) Variants.none c none) Set.univ (bodyAt5 t) fun _ =>
      iprop(PhiS5 V c (t.val + 1) t.isLt ∗ (dat5 V c).owesAt () t.castSucc
        ∗ owns (c : Thread nD τ) (st5_0 t) fullShare (iblk5 V c 0 t) ∗ owns (c : Thread nD τ) (st5_1 t) fullShare (iblk5 V c 1 t)
        ∗ owns (c : Thread nD τ) (st5_2 t) fullShare (iblk5 V c 2 t) ∗ owns (c : Thread nD τ) (st5_3 t) fullShare (iblk5 V c 3 t)
        ∗ owns (c : Thread nD τ) (st5_4 t) fullShare (iblk5 V c 4 t) ∗ (dat5 V c).leavesExact 5 t)
  simp only [before5_0, before5_1, before5_2, before5_3, before5_4]
  rw [PhiS5_succ]
  unfold bodyAt5; rw [cc5__scatter_kernel_eq]
  by_cases hz : t.val = 0
  case' pos => rw [PhiS5_zero V c _ _ hz, Phi5_entry]; iintro ⟨⟨⟨⟨%xs, Hs⟩, Hrest⟩, Hr⟩, H⟩
  case' neg => rw [PhiS5_pos V c _ _ hz]; iintro ⟨⟨Hs, Hrest, Hr⟩, H⟩
  all_goals
    icases H with ⟨Hown, ⟨%_, Ht⟩, ⟨%_, Hm⟩, ⟨%_, Hw⟩, ⟨%_, Hb⟩, ⟨%_, Hg⟩, ⟨%d, Ho⟩⟩
    iapply sound_kernel3 c Set.univ (grid5.coords t)
    iframe Ht Hm Hw Hb Hg Ho Hs
    iintro ⟨Ht, Hm, Hw, Hb, Hg, Ho, Hs⟩
    rw [acc5_eq V c t _ fun h => by first | exact absurd hz h | rfl]
    ihave Ho := (leaves5_5 V c t d) $$ Ho
    iframe

theorem Phi5_last (c : Dev nD) : (dat5 V c).Φ (Fin.last cfg5.N) ⊢ Pipeline.ΦA spec5 c := by
  have hl : (Fin.last cfg5.N).val ≠ 0 := by rw [Fin.val_last]; have : cfg5.N = 6250 := N_5; omega
  rw [show (dat5 V c).Φ (Fin.last cfg5.N) = PhiS5 V c (Fin.last cfg5.N).val (Nat.le_of_lt_succ (Fin.last cfg5.N).isLt) from rfl,
    PhiS5_pos V c _ _ hl, Phi5_entry]
  iintro ⟨Hs, Hrest, Hr⟩
  iframe Hrest Hr
  iexists _; iexact Hs

end

end Cert.KernelIdeal.Hand
end
-- ==== Proof.I.Body6.lean ====
import proofs.«408094_j50861002719986_3_alg».proof.Proof.I.Dat6
import proofs.«408094_j50861002719986_3_alg».proof.Proof.I.Body2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

-- This region runs region 2's kernel function on region 2's payloads: the definitions have the same bodies.
theorem cc6_eq : cc6__gather_kernel (F := F) = cc2__gather_kernel := rfl
theorem k6_pay1_eq : k6_pay1 (F := F) = k2_pay1 := rfl
theorem k6_pay2_eq : k6_pay2 (F := F) = k2_pay2 := rfl
theorem k6_pay3_eq : k6_pay3 (F := F) = k2_pay3 := rfl

section
variable (V : (c : Dev nD) → (b : Ref sig .tc) → Buf (Elt F) ((c : Thread nD τ).loc b))

theorem before6 (c : Dev nD) (t : Fin cfg6.N) :
    (∀ d, (dat6 V c).before 0 t d = iblk6 V c 0 t) ∧ (∀ d, (dat6 V c).before 1 t d = iblk6 V c 1 t)
      ∧ ∀ d, (dat6 V c).before 2 t d = iblk6 V c 2 t := by
  refine ⟨?_, ?_, ?_⟩ <;> intro d <;>
  exact ((dat6 V c).before_in_eq_fetched _ rfl (fun _ => rfl) (fun _ _ _ => rfl)
    (fun t => by simp only [after6_0, after6_1, after6_2]; unfold Dat.blockOf iblk6; rw [A_eq6]; try rfl) t d).trans
    (by unfold Dat.fetched Dat.blockOf iblk6; rw [A_eq6]; try rfl)

abbrev ms6_0 (t : Fin cfg6.N) : Memref sig .tc .vmem S5000x1 .i32 := win6_0.stage (cfg6.slots t 0)
abbrev ms6_1 (t : Fin cfg6.N) : Memref sig .tc .vmem S5000x3 .f32 := win6_1.stage (cfg6.slots t 1)
abbrev ms6_2 (t : Fin cfg6.N) : Memref sig .tc .vmem S1000x64 .bf16 := win6_2.stage (cfg6.slots t 2)
abbrev ms6_3 (t : Fin cfg6.N) : Memref sig .tc .vmem S5000x192 .bf16 := win6_3.stage (cfg6.slots t 3)

theorem Phi6_enter (c : Dev nD) :
    (Pipeline.ΦA spec6 c : sProp 𝕄)
      = iprop((iprop((∃ d, owns (c : Thread nD τ) scM6 fullShare d))
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; try rfl

-- The invariant at any position gives the region's entry invariant: the scratch's contents are forgotten.
theorem PhiS6_any (c : Dev nD) (n : ℕ) (h : n ≤ cfg6.N) : PhiS6 V c n h ⊢ Pipeline.ΦA spec6 c := by
  cases n with
  | zero => exact .rfl
  | succ n =>
    rw [Phi6_enter, PhiS6_succ]
    iintro ⟨H, R, G⟩
    isplitl [H R]
    · isplitl [H]; · iexists _; iexact H
      iexact R
    iexact G

-- The body at any point: the position modulo 50 says which of the three cases the point is in.
theorem sound_body6 (c : Dev nD) (t : Fin cfg6.N) :
    iprop(PhiS6 V c t.val (Nat.le_of_lt t.isLt) ∗ (dat6 V c).owesAt () t.castSucc
      ∗ (∃ d, owns (c : Thread nD τ) (ms6_0 t) fullShare ((dat6 V c).before 0 t d))
      ∗ (∃ d, owns (c : Thread nD τ) (ms6_1 t) fullShare ((dat6 V c).before 1 t d))
      ∗ (∃ d, owns (c : Thread nD τ) (ms6_2 t) fullShare ((dat6 V c).before 2 t d))
      ∗ (∃ d, owns (c : Thread nD τ) (ms6_3 t) fullShare ((dat6 V c).before 3 t d)))
    ⊢ wp frame (wpE (defs₀ (F := F)) Variants.none c none) Set.univ (bodyAt6 t) (fun _ =>
      iprop(PhiS6 V c (t.val + 1) t.isLt ∗ (dat6 V c).owesAt () t.castSucc
        ∗ owns (c : Thread nD τ) (ms6_0 t) fullShare (iblk6 V c 0 t)
        ∗ owns (c : Thread nD τ) (ms6_1 t) fullShare (iblk6 V c 1 t)
        ∗ owns (c : Thread nD τ) (ms6_2 t) fullShare (iblk6 V c 2 t)
        ∗ (dat6 V c).leavesExact 3 t)) := by
  unfold bodyAt6
  rw [cc6_eq]
  simp only [(before6 V c t).1, (before6 V c t).2.1, (before6 V c t).2.2]
  rw [PhiS6_succ]
  have hc0 := hcond2_0 t
  have hc1 := hcond2_1 t
  by_cases h0 : t.val % 50 = 0
  · have h1 : ¬t.val % 50 = 49 := by omega
    rw [Dat.leavesExact_idle (dat6 V c) 3 t (idleAt2_3 (grid6.coords t) (mt hc1.mp h1)) (Bool.eq_false_iff.mpr (mt (flush6_3 t).mp h1)),
      acc6_reset V c t h0]
    simp only [k6_pay1_eq, k6_pay2_eq, k6_pay3_eq]
    iintro ⟨HP, Howe, ⟨%da, Hsrc⟩, ⟨%db, Hatt⟩, ⟨%dc, Hnod⟩, Hout⟩
    icases ((PhiS6_any V c _ _).trans (.of_eq (Phi6_enter c))) $$ HP with ⟨⟨Hscr, Hrest⟩, Hgen⟩
    iapply (sound_kernel2_first c Set.univ (grid6.coords t) _ _ _ _ _ (iblk6 V c 0 t) (iblk6 V c 2 t) _ (hc0.mpr h0) (mt hc1.mp h1))
    iframe Hsrc Hnod Hscr
    iintro ⟨Hsrc, Hnod, Hscr⟩
    iframe
  · have hz : t.val ≠ 0 := fun h => h0 (by rw [h])
    rw [acc6_step V c t h0, PhiS6_pos V c _ _ hz, PhiS6_succ]
    by_cases h1 : t.val % 50 = 49
    · rw [show (dat6 V c).leavesExact 3 t = owns (c : Thread nD τ) (ms6_3 t) fullShare (out6 V c t) from
        leavesExact_live _ 3 t (liveAt2_3 (grid6.coords t) (hc1.mpr h1))]
      unfold out6
      rw [acc6_step V c t h0]
      simp only [k6_pay1_eq, k6_pay2_eq, k6_pay3_eq]
      iintro ⟨⟨Hscr, Hrest, Hgen⟩, Howe, ⟨%da, Hsrc⟩, ⟨%db, Hatt⟩, ⟨%dc, Hnod⟩, ⟨%dd, Hout⟩⟩
      iapply (sound_kernel2_last c Set.univ (grid6.coords t) _ _ _ _ _ (iblk6 V c 0 t) (iblk6 V c 1 t) (iblk6 V c 2 t) _ _ (mt hc0.mp h0) (hc1.mpr h1))
      iframe Hsrc Hatt Hnod Hscr
      isplitl [Hout]; · iexists _; iexact Hout
      iintro ⟨Hsrc, Hatt, Hnod, Hout, Hscr⟩
      iframe
    · rw [Dat.leavesExact_idle (dat6 V c) 3 t (idleAt2_3 (grid6.coords t) (mt hc1.mp h1)) (Bool.eq_false_iff.mpr (mt (flush6_3 t).mp h1))]
      simp only [k6_pay1_eq, k6_pay2_eq, k6_pay3_eq]
      iintro ⟨⟨Hscr, Hrest, Hgen⟩, Howe, ⟨%da, Hsrc⟩, ⟨%db, Hatt⟩, ⟨%dc, Hnod⟩, Hout⟩
      iapply (sound_kernel2_middle c Set.univ (grid6.coords t) _ _ _ _ _ (iblk6 V c 0 t) (iblk6 V c 2 t) _ _ (mt hc0.mp h0) (mt hc1.mp h1))
      iframe Hsrc Hnod Hscr
      iintro ⟨Hsrc, Hnod, Hscr⟩
      iframe

theorem body_obligation6 (c : Dev nD) : BodyObligation (dat6 (F := F) V c) (defs₀ (F := F)) Variants.none () Set.univ := fun t => by
  rw [bigSep_W6, bigSep_W6]
  exact sound_body6 V c t

theorem Phi6_last (c : Dev nD) : (dat6 V c).Φ (Fin.last cfg6.N) ⊢ Pipeline.ΦA spec6 c :=
  PhiS6_any V c cfg6.N le_rfl

end

end Cert.KernelIdeal.Hand
end
-- ==== Proof.I.Body7.lean ====
import proofs.«408094_j50861002719986_3_alg».proof.Proof.I.Dat7
import proofs.«408094_j50861002719986_3_alg».proof.Proof.I.Body3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem k7_pay1_eq : k7_pay1 (F := F) = k3_pay1 := rfl

theorem k7_pay2_eq : k7_pay2 (F := F) = k3_pay2 := rfl

set_option maxHeartbeats 1000000 in
/-- The four cases of the two conditions in one statement, the values written as conditionals. -/
theorem sound_kernel7 (c : Dev nD) (E : Set ℕ) (i : grid7.Coords) {Mt : Memref sig .tc .vmem S1x1280 .i32} (hMt : Mt.IsWhole)
    {Mm : Memref sig .tc .vmem S1280x192 .bf16} (hMm : Mm.IsWhole) {Mw : Memref sig .tc .vmem S192x64 .bf16} (hMw : Mw.IsWhole)
    {Mb : Memref sig .tc .vmem S64 .f32} (hMb : Mb.IsWhole) {Mg : Memref sig .tc .vmem S5000x1 .f32} (hMg : Mg.IsWhole)
    {Mo : Memref sig .tc .vmem S5000x64 .f32} (hMo : Mo.IsWhole) {Ma : Memref sig .tc .vmem S5000x192 .f32} (hMa : Ma.IsWhole)
    (xt : Vec F S1x1280 .i32) (xm : Vec F S1280x192 .bf16) (xw : Vec F S192x64 .bf16) (xb : Vec F S64 .f32) (xg : Vec F S5000x1 .f32)
    (xo : Vec F S5000x64 .f32) (xs : Vec F S5000x192 .f32) (K : PUnit → sProp 𝕄) :
    iprop(owns (c : Thread nD τ) Mt fullShare xt ∗ owns (c : Thread nD τ) Mm fullShare xm ∗ owns (c : Thread nD τ) Mw fullShare xw
        ∗ owns (c : Thread nD τ) Mb fullShare xb ∗ owns (c : Thread nD τ) Mg fullShare xg ∗ owns (c : Thread nD τ) Mo fullShare xo
        ∗ owns (c : Thread nD τ) Ma fullShare xs
        ∗ (iprop(owns (c : Thread nD τ) Mt fullShare xt ∗ owns (c : Thread nD τ) Mm fullShare xm ∗ owns (c : Thread nD τ) Mw fullShare xw
            ∗ owns (c : Thread nD τ) Mb fullShare xb ∗ owns (c : Thread nD τ) Mg fullShare xg
            ∗ owns (c : Thread nD τ) Mo fullShare
                (if cond3_1 i then k7_pay3 (k3_pay2 i xt (if cond3_0 i then k3_pay1 (F := F) else xs) xm) xg xw xb else xo)
            ∗ owns (c : Thread nD τ) Ma fullShare (k3_pay2 i xt (if cond3_0 i then k3_pay1 (F := F) else xs) xm)) -∗ K ⟨⟩))
      ⊢ wp frame (wpE (defs₀ (F := F)) Variants.none c none) E (cc7__scatter_kernel i Mt hMt Mm hMm Mw hMw Mb hMb Mg hMg Mo hMo Ma hMa) K := by
  by_cases hc0 : cond3_0 i <;> by_cases hc1 : cond3_1 i
  all_goals
    first | rw [if_pos hc0] | rw [if_neg hc0]
    first | rw [if_pos hc1] | rw [if_neg hc1]
    simp only [cc7__scatter_kernel_eq_skeleton]; unfold cc7__scatter_kernel_skel owns
    iintro ⟨⟨%ft, %hft, Ht⟩, ⟨%fm, %hfm, Hm⟩, ⟨%fw, %hfw, Hw⟩, ⟨%fb, %hfb, Hb⟩, ⟨%fg, %hfg, Hg⟩, ⟨%fo, %hfo, Ho⟩, ⟨%fa, %hfa, Ha⟩, Hk⟩
    subst hft hfm hfw hfb hfg hfo hfa
    sl_exec (disch := first | exact hc0 | exact hc1)
    sl_step
    iapply Hk
    repeat' first | isplitl [Ht] | isplitl [Hm] | isplitl [Hw] | isplitl [Hb] | isplitl [Hg] | isplitl [Ho]
    all_goals
      iexists _; isplitr; swap; iassumption
      ipureintro
      first
      | rfl
      | sl_unfold_words
        refine (whole_stored _ _ zeros2 _ _ _).trans ?_
        simp only [View.readAt_eq_ld, View.ld_unit_zero (S := S1x1280) zeros2, View.ld_unit_zero (S := S1280x192) zeros2,
          View.ld_unit_zero (S := S192x64) zeros2, View.ld_unit_zero (S := S64) zeros1, View.ld_unit_zero (S := S5000x1) zeros2,
          View.ld_unit_zero (S := S5000x192) zeros2, readCov_cons_unit_zero (S := S5000x192) _ zeros2, k7_pay2_eq, k7_pay1_eq]

theorem idleAt7_5 (t : Fin cfg7.N) (h : ¬cond3_1 (grid7.coords t)) : cfg7.idle 5 (grid7.coords t) = true := by
  show (!(k7_cond2 (grid7.coords t) == 1#1)) = true
  rw [Bool.not_eq_true', beq_eq_false_iff_ne]; exact h

theorem liveAt7_5 (t : Fin cfg7.N) (h : cond3_1 (grid7.coords t)) : cfg7.idle 5 (grid7.coords t) = false := by
  show (!(k7_cond2 (grid7.coords t) == 1#1)) = false
  rw [show k7_cond2 (grid7.coords t) = 1#1 from h]; rfl

theorem noFlush7_5 (t : Fin cfg7.N) (h : ¬cond3_1 (grid7.coords t)) : (cfg7.win 5).flush t = false :=
  Bool.eq_false_iff.mpr fun hf => h ((hcond3_1 t).mpr ((flush7_5 t).mp hf))

section
variable (V : (c : Dev nD) → (b : Ref sig .tc) → Buf (Elt F) ((c : Thread nD τ).loc b))

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d
theorem before7_4 (c : Dev nD) (t : Fin cfg7.N) (d) : (dat7 V c).before 4 t d = iblk7 V c 4 t :=
  (dat7 V c).before_in_eq_fetched 4 rfl (fun _ => rfl) (fun _ _ _ => rfl) (fun _ => rfl) t d

theorem Phi7_entry (c : Dev nD) :
    (Pipeline.ΦA spec7 c : sProp 𝕄)
      = iprop(iprop(iprop(∃ d, owns (c : Thread nD τ) scM7 fullShare d)
          ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [scM7, owns_whole]; try rfl

/-- The two defining cases of `acc7` in one equation. -/
theorem acc7_eq (c : Dev nD) (t : Fin cfg7.N) (xs : Vec F S5000x192 .f32)
    (hxs : t.val ≠ 0 → xs = acc7 V c (t.val - 1) (Nat.lt_of_le_of_lt (Nat.sub_le _ _) t.isLt)) :
    k3_pay2 (grid7.coords t) (iblk7 V c 0 t) (if cond3_0 (grid7.coords t) then k3_pay1 (F := F) else xs) (iblk7 V c 1 t)
      = acc7 V c t.val t.isLt := by
  by_cases h : t.val % 625 = 0
  · rw [acc7_reset V c t h, if_pos ((hcond3_0 t).mpr h), k7_pay2_eq, k7_pay1_eq]
  · rw [acc7_step V c t h, if_neg (mt (hcond3_0 t).mp h), hxs fun hz => h (by rw [hz]), k7_pay2_eq]

/-- The output block's two cases in one entailment. -/
theorem leaves7_5 (c : Dev nD) (t : Fin cfg7.N) (d : Vec F S5000x64 .f32) :
    owns (c : Thread nD τ) (st7_5 t) fullShare (if cond3_1 (grid7.coords t)
      then k7_pay3 (acc7 V c t.val t.isLt) (iblk7 V c 4 t) (iblk7 V c 2 t) (iblk7 V c 3 t) else (dat7 V c).before 5 t d)
      ⊢ (dat7 V c).leavesExact 5 t := by
  by_cases h : cond3_1 (grid7.coords t)
  · rw [if_pos h]; unfold Dat.leavesExact; rw [liveAt7_5 t h]; exact .rfl
  · rw [if_neg h, Dat.leavesExact_idle _ 5 t (idleAt7_5 t h) (noFlush7_5 t h)]; iintro H; iexists d; iexact H

theorem body_obligation7 (c : Dev nD) : BodyObligation (dat7 (F := F) V c) (defs₀ (F := F)) Variants.none () Set.univ := fun t => by
  rw [bigSep_W7, bigSep_W7]
  show iprop(PhiS7 V c t.val (Nat.le_of_lt t.isLt) ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d)))
    ⊢ wp frame (wpE (defs₀ (F := F)) Variants.none c none) Set.univ (bodyAt7 t) fun _ =>
      iprop(PhiS7 V c (t.val + 1) t.isLt ∗ (dat7 V c).owesAt () t.castSucc
        ∗ owns (c : Thread nD τ) (st7_0 t) fullShare (iblk7 V c 0 t) ∗ owns (c : Thread nD τ) (st7_1 t) fullShare (iblk7 V c 1 t)
        ∗ owns (c : Thread nD τ) (st7_2 t) fullShare (iblk7 V c 2 t) ∗ owns (c : Thread nD τ) (st7_3 t) fullShare (iblk7 V c 3 t)
        ∗ owns (c : Thread nD τ) (st7_4 t) fullShare (iblk7 V c 4 t) ∗ (dat7 V c).leavesExact 5 t)
  simp only [before7_0, before7_1, before7_2, before7_3, before7_4]
  rw [PhiS7_succ]
  by_cases hz : t.val = 0
  case' pos => rw [PhiS7_zero V c _ _ hz, Phi7_entry]; iintro ⟨⟨⟨⟨%xs, Hs⟩, Hrest⟩, Hr⟩, H⟩
  case' neg => rw [PhiS7_pos V c _ _ hz]; iintro ⟨⟨Hs, Hrest, Hr⟩, H⟩
  all_goals
    icases H with ⟨Hown, ⟨%_, Ht⟩, ⟨%_, Hm⟩, ⟨%_, Hw⟩, ⟨%_, Hb⟩, ⟨%_, Hg⟩, ⟨%d, Ho⟩⟩
    iapply sound_kernel7 c Set.univ (grid7.coords t)
    iframe Ht Hm Hw Hb Hg Ho Hs
    iintro ⟨Ht, Hm, Hw, Hb, Hg, Ho, Hs⟩
    rw [acc7_eq V c t _ fun h => by first | exact absurd hz h | rfl]
    ihave Ho := (leaves7_5 V c t d) $$ Ho
    iframe

theorem Phi7_last (c : Dev nD) : (dat7 V c).Φ (Fin.last cfg7.N) ⊢ Pipeline.ΦA spec7 c := by
  have hl : (Fin.last cfg7.N).val ≠ 0 := by rw [Fin.val_last]; have : cfg7.N = 6250 := N_7; omega
  rw [show (dat7 V c).Φ (Fin.last cfg7.N) = PhiS7 V c (Fin.last cfg7.N).val (Nat.le_of_lt_succ (Fin.last cfg7.N).isLt) from rfl,
    PhiS7_pos V c _ _ hl, Phi7_entry]
  iintro ⟨Hs, Hrest, Hr⟩
  iframe Hrest Hr
  iexists _; iexact Hs

end

end Cert.KernelIdeal.Hand
end
-- ==== Proof.I.Run.lean ====
import proofs.«408094_j50861002719986_3_alg».proof.Proof.I.RegOf
import proofs.«408094_j50861002719986_3_alg».proof.Proof.I.Body0
import proofs.«408094_j50861002719986_3_alg».proof.Proof.I.Body1
import proofs.«408094_j50861002719986_3_alg».proof.Proof.I.Body2
import proofs.«408094_j50861002719986_3_alg».proof.Proof.I.Body3
import proofs.«408094_j50861002719986_3_alg».proof.Proof.I.Body4
import proofs.«408094_j50861002719986_3_alg».proof.Proof.I.Body5
import proofs.«408094_j50861002719986_3_alg».proof.Proof.I.Body6
import proofs.«408094_j50861002719986_3_alg».proof.Proof.I.Body7
import proofs.«408094_j50861002719986_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev launchElt : UR sig nD τ := initOf (Pipeline.cells cfgs cellOf_inj) (Pipeline.launchToks cfgs cellOf_inj)

theorem launch_elt : (ownU launchElt : sProp 𝕄)
    ⊢ |={Set.univ}=> iprop(BI.own (emb₁ launchElt) ∗ bigSep Finset.univ fun _ : Dev nD => (iprop(emp) : sProp 𝕄)) := by
  iintro Hu; imodintro
  isplitl [Hu]
  · iapply (show (ownU launchElt : sProp 𝕄) ⊢ BI.own (emb₁ launchElt) from .rfl)
    iexact Hu
  iapply (show (BI.emp : sProp 𝕄) ⊢ bigSep Finset.univ (fun _ : Dev nD => (BI.emp : sProp 𝕄)) from by rw [BI.bigSep_emp_const])
  iempintro

theorem rest_launch :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ∗ levAts (fun _ : GSem nD τ sig => (∅ : Finset Unit)) (fun _ _ => (0 : ℕ)))
      ⊢ (|={Set.univ}=> bigSep Finset.univ (fun c : Dev nD => Rr c) : sProp 𝕄) := by
  refine Pipeline.initEach (fun _ => ∅) (fun _ _ => 0) fun c => ?_
  iintro ⟨⟨-, HO, -, Hp, -⟩, -⟩
  imodintro
  isplitl [Hp]; · iexists _; iexact Hp
  iexists ∅; iexact HO

theorem rest_end (c : Dev nD) : (Rr c : sProp 𝕄) ⊢ iprop(∃ W, owes (c : Thread nD τ) (0 : CellTallies nD τ sig Unit) W) := by
  iintro ⟨-, HO⟩; iexact HO

def reg0 : Reg m 0 := regOf m 0 (U1 m) 1 launch0 (Phi0_last _) (body_obligation0 _)
def reg1 : Reg m 1 := regOf m 1 (U2 m) 3 launch1 (fun _ => .rfl) (body_obligation1 _)
def reg2 : Reg m 2 := regOf m 2 (U4 m) 3 launch2 (Phi2_last _) (body_obligation2 _)
def reg3 : Reg m 3 := regOf m 3 (U5 m) 5 launch3 (Phi3_last _) (body_obligation3 _)
def reg4 : Reg m 4 := regOf m 4 (U6 m) 3 launch4 (Phi4_last _) (body_obligation4 _)
def reg5 : Reg m 5 := regOf m 5 (U7 m) 5 launch5 (Phi5_last _) (body_obligation5 _)
def reg6 : Reg m 6 := regOf m 6 (U8 m) 3 launch6 (Phi6_last _) (body_obligation6 _)
def reg7 : Reg m 7 := regOf m 7 (U9 m) 5 launch7 (Phi7_last _) (body_obligation7 _)

theorem hpre0 (c : Dev nD) : iprop(StableHlo.held (c : Thread nD τ) (Pipeline.ucRefs τ sig) (Gen.V1 m c) ∗ Rr c) ⊢ (reg0 m).pre c := by
  rw [V1_eq]; exact .rfl
theorem hpost0 (c : Dev nD) : (reg0 m).post c ⊢ iprop(StableHlo.held (c : Thread nD τ) (Pipeline.ucRefs τ sig) (Gen.V2 m (outs m) c) ∗ Rr c) := by
  rw [V2_eq]; exact .rfl

theorem hpre1 (c : Dev nD) : iprop(StableHlo.held (c : Thread nD τ) (Pipeline.ucRefs τ sig) (Gen.V2 m (outs m) c) ∗ Rr c) ⊢ (reg1 m).pre c := by
  rw [V2_eq]; exact .rfl
theorem hpost1 (c : Dev nD) : (reg1 m).post c ⊢ iprop(StableHlo.held (c : Thread nD τ) (Pipeline.ucRefs τ sig) (Gen.V3 m (outs m) c) ∗ Rr c) := by
  rw [V3_eq]; exact .rfl

theorem hpre2 (c : Dev nD) : iprop(StableHlo.held (c : Thread nD τ) (Pipeline.ucRefs τ sig) (Gen.V4 m (outs m) c) ∗ Rr c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ Rr c) := by
  rw [V5_eq]; exact .rfl

theorem hpre3 (c : Dev nD) : iprop(StableHlo.held (c : Thread nD τ) (Pipeline.ucRefs τ sig) (Gen.V5 m (outs m) c) ∗ Rr c) ⊢ (reg3 m).pre c := by
  rw [V5_eq]; exact .rfl
theorem hpost3 (c : Dev nD) : (reg3 m).post c ⊢ iprop(StableHlo.held (c : Thread nD τ) (Pipeline.ucRefs τ sig) (Gen.V6 m (outs m) c) ∗ Rr c) := by
  rw [V6_eq]; exact .rfl

theorem hpre4 (c : Dev nD) : iprop(StableHlo.held (c : Thread nD τ) (Pipeline.ucRefs τ sig) (Gen.V6 m (outs m) c) ∗ Rr c) ⊢ (reg4 m).pre c := by
  rw [V6_eq]; exact .rfl
theorem hpost4 (c : Dev nD) : (reg4 m).post c ⊢ iprop(StableHlo.held (c : Thread nD τ) (Pipeline.ucRefs τ sig) (Gen.V7 m (outs m) c) ∗ Rr c) := by
  rw [V7_eq]; exact .rfl

theorem hpre5 (c : Dev nD) : iprop(StableHlo.held (c : Thread nD τ) (Pipeline.ucRefs τ sig) (Gen.V7 m (outs m) c) ∗ Rr c) ⊢ (reg5 m).pre c := by
  rw [V7_eq]; exact .rfl
theorem hpost5 (c : Dev nD) : (reg5 m).post c ⊢ iprop(StableHlo.held (c : Thread nD τ) (Pipeline.ucRefs τ sig) (Gen.V8 m (outs m) c) ∗ Rr c) := by
  rw [V8_eq]; exact .rfl

theorem hpre6 (c : Dev nD) : iprop(StableHlo.held (c : Thread nD τ) (Pipeline.ucRefs τ sig) (Gen.V8 m (outs m) c) ∗ Rr c) ⊢ (reg6 m).pre c := by
  rw [V8_eq]; exact .rfl
theorem hpost6 (c : Dev nD) : (reg6 m).post c ⊢ iprop(StableHlo.held (c : Thread nD τ) (Pipeline.ucRefs τ sig) (Gen.V9 m (outs m) c) ∗ Rr c) := by
  rw [V9_eq]; exact .rfl

theorem hpre7 (c : Dev nD) : iprop(StableHlo.held (c : Thread nD τ) (Pipeline.ucRefs τ sig) (Gen.V9 m (outs m) c) ∗ Rr c) ⊢ (reg7 m).pre c := by
  rw [V9_eq]; exact .rfl
theorem hpost7 (c : Dev nD) : (reg7 m).post c ⊢ iprop(StableHlo.held (c : Thread nD τ) (Pipeline.ucRefs τ sig) (Gen.V10 m (outs m) c) ∗ Rr c) := by
  rw [V10_eq]; exact .rfl

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m emb₁ () Variants.none (fun _ => ∅) (fun _ _ => 0) (fun _ _ => rfl) ρ (outs m) (pdats m) 0 (fun _ => iprop(emp))
    launchElt launch_elt (fun _ c => Rr c) (rest_launch ρ) rest_end
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)

end Cert.KernelIdeal.Hand
end
-- ==== Proof.I.RunV.lean ====
import proofs.«408094_j50861002719986_3_alg».proof.Proof.I.Run
import proofs.«408094_j50861002719986_3_alg».proof.Proof.I.RegionsV
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = U10 m c b) := by
  have h := Gen.run_cond m emb₁ () Variants.none (fun _ => ∅) (fun _ _ => 0) (fun _ _ => rfl) ρ (outs m) (pdats m) 0 (fun _ => iprop(emp))
    launchElt launch_elt (fun _ c => Rr c) (rest_launch ρ) rest_end
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
  simp only [V10_eq] at h
  exact h

end Cert.KernelIdeal.Hand
end
-- ==== Proof.V.HostReads.lean ====
import proofs.«408094_j50861002719986_3_alg».proof.Proof.I.PDats
import Idealize.ShloMosaic.Lib.ValueIdx
import Idealize.ShloMosaic.Lib.Pipeline.Value
import Idealize.ShloMosaic.Lib.StableHlo.Run

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

theorem U1_v2 (c : Dev nD) (e : Fin 800000) :
    (U1 m c main_v2 : S800000x1.Idx → BitVec 32) (ix2 e 0)
      = (m ((c.tc : Thread nD τ).loc main_arg1) : S2x800000.Idx → BitVec 32) (ix2 0 e) := by
  have h : (U1 m c main_v2 : S800000x1.Idx → BitVec 32)
      = shapeCast S800000x1 (shapeCast S800000 (extractStridedSlice S1x800000 ![0, 0] (m ((c.tc : Thread nD τ).loc main_arg1)) slices_S2x800000_S1x800000_0_0) shapeCasts_S1x800000_S800000) shapeCasts_S800000_S800000x1 := by
    show StableHlo.after hostOps0 (fun b => m (c, b)) (Proc.devRef .tc main_v2) = _
    after_results; rfl
  rw [h]
  refine (shapeCast_apply _ _ (ix2 e 0) (ix1 e) ?_).trans ?_
  · rw [Shape.rowMajor_val_one, Shape.rowMajor_val_two]; show e.val = e.val * 1 + 0; omega
  refine (shapeCast_apply _ _ (ix1 e) (ix2 0 e) ?_).trans ?_
  · rw [Shape.rowMajor_val_one, Shape.rowMajor_val_two]; show 0 * 800000 + e.val = e.val; omega
  exact extractStridedSlice_apply _ _ _ (ix2 0 e) (ix2 0 e) (fun a => by match a with | ⟨0, _⟩ => rfl | ⟨1, _⟩ => exact (Nat.zero_add _).symm)

theorem U1_v5 (c : Dev nD) (e : Fin 800000) :
    (U1 m c main_v5 : S1x800000.Idx → BitVec 32) (ix2 0 e)
      = (m ((c.tc : Thread nD τ).loc main_arg1) : S2x800000.Idx → BitVec 32) (ix2 1 e) := by
  have h : (U1 m c main_v5 : S1x800000.Idx → BitVec 32)
      = shapeCast S1x800000 (shapeCast S800000 (extractStridedSlice S1x800000 ![1, 0] (m ((c.tc : Thread nD τ).loc main_arg1)) slices_S2x800000_S1x800000_1_0) shapeCasts_S1x800000_S800000) shapeCasts_S800000_S1x800000 := by
    show StableHlo.after hostOps0 (fun b => m (c, b)) (Proc.devRef .tc main_v5) = _
    after_results; rfl
  rw [h]
  refine (shapeCast_apply _ _ (ix2 0 e) (ix1 e) ?_).trans ?_
  · rw [Shape.rowMajor_val_one, Shape.rowMajor_val_two]; show e.val = 0 * 800000 + e.val; omega
  refine (shapeCast_apply _ _ (ix1 e) (ix2 0 e) ?_).trans ?_
  · rw [Shape.rowMajor_val_one, Shape.rowMajor_val_two]; show 0 * 800000 + e.val = e.val; omega
  exact extractStridedSlice_apply _ _ _ (ix2 0 e) (ix2 1 e) (fun a => by match a with | ⟨0, _⟩ => rfl | ⟨1, _⟩ => exact (Nat.zero_add _).symm)

theorem U1_v6 (c : Dev nD) : (U1 m c main_v6 : S128x64.Idx → EReal) = m ((c.tc : Thread nD τ).loc main_arg3) := by
  show StableHlo.after hostOps0 (fun b => m (c, b)) (Proc.devRef .tc main_v6) = _
  after_results; rfl
theorem U1_v7 (c : Dev nD) : (U1 m c main_v7 : S192x64.Idx → EReal) = m ((c.tc : Thread nD τ).loc main_arg5) := by
  show StableHlo.after hostOps0 (fun b => m (c, b)) (Proc.devRef .tc main_v7) = _
  after_results; rfl
theorem U1_v8 (c : Dev nD) : (U1 m c main_v8 : S192x64.Idx → EReal) = m ((c.tc : Thread nD τ).loc main_arg7) := by
  show StableHlo.after hostOps0 (fun b => m (c, b)) (Proc.devRef .tc main_v8) = _
  after_results; rfl
theorem U1_v9 (c : Dev nD) : (U1 m c main_v9 : S192x64.Idx → EReal) = m ((c.tc : Thread nD τ).loc main_arg9) := by
  show StableHlo.after hostOps0 (fun b => m (c, b)) (Proc.devRef .tc main_v9) = _
  after_results; rfl

theorem U1_of (c : Dev nD) (r : Ref sig .tc) (h : r ∉ hostOps0_W) : U1 m c r = m ((c : Thread nD τ).loc r) :=
  V1_of m c r h

theorem U4_v12 (c : Dev nD) : (U4 m c main_v12 : S50000x64.Idx → EReal) = U3 m c main_v11 := by
  show StableHlo.after hostOps2 (U3 m c) (Proc.devRef .tc main_v12) = _
  after_results; rfl

theorem U2_of (c : Dev nD) (r : Ref sig .tc) (h : r ∉ ([main_v10] : List (Ref sig .tc))) : U2 m c r = U1 m c r := by
  rw [← V2_eq, ← V1_eq]; exact V2_of m (outs m) c r h
theorem U3_of (c : Dev nD) (r : Ref sig .tc) (h : r ∉ ([main_v11] : List (Ref sig .tc))) : U3 m c r = U2 m c r := by
  rw [← V3_eq, ← V2_eq]; exact V3_of m (outs m) c r h
theorem U4_of (c : Dev nD) (r : Ref sig .tc) (h : r ∉ hostOps2_W) : U4 m c r = U3 m c r := by
  rw [← V4_eq, ← V3_eq]; exact V4_of m (outs m) c r h
theorem U5_of (c : Dev nD) (r : Ref sig .tc) (h : r ∉ ([main_v13] : List (Ref sig .tc))) : U5 m c r = U4 m c r := by
  rw [← V5_eq, ← V4_eq]; exact V5_of m (outs m) c r h
theorem U6_of (c : Dev nD) (r : Ref sig .tc) (h : r ∉ ([main_v14] : List (Ref sig .tc))) : U6 m c r = U5 m c r := by
  rw [← V6_eq, ← V5_eq]; exact V6_of m (outs m) c r h
theorem U7_of (c : Dev nD) (r : Ref sig .tc) (h : r ∉ ([main_v15] : List (Ref sig .tc))) : U7 m c r = U6 m c r := by
  rw [← V7_eq, ← V6_eq]; exact V7_of m (outs m) c r h
theorem U8_of (c : Dev nD) (r : Ref sig .tc) (h : r ∉ ([main_v16] : List (Ref sig .tc))) : U8 m c r = U7 m c r := by
  rw [← V8_eq, ← V7_eq]; exact V8_of m (outs m) c r h
theorem U9_of (c : Dev nD) (r : Ref sig .tc) (h : r ∉ ([main_v17] : List (Ref sig .tc))) : U9 m c r = U8 m c r := by
  rw [← V9_eq, ← V8_eq]; exact V9_of m (outs m) c r h

theorem U2_v10 (c : Dev nD) : U2 m c main_v10 = o2 m c := by unfold U2; exact Function.update_self ..
theorem U3_v11 (c : Dev nD) : U3 m c main_v11 = o3 m c := by unfold U3; exact Function.update_self ..
theorem U5_v13 (c : Dev nD) : U5 m c main_v13 = o5 m c := by unfold U5; exact Function.update_self ..
theorem U6_v14 (c : Dev nD) : U6 m c main_v14 = o6 m c := by unfold U6; exact Function.update_self ..
theorem U7_v15 (c : Dev nD) : U7 m c main_v15 = o7 m c := by unfold U7; exact Function.update_self ..
theorem U8_v16 (c : Dev nD) : U8 m c main_v16 = o8 m c := by unfold U8; exact Function.update_self ..
theorem U9_v17 (c : Dev nD) : U9 m c main_v17 = o9 m c := by unfold U9; exact Function.update_self ..
theorem U10_v18 (c : Dev nD) : U10 m c main_v18 = o10 m c := by unfold U10; exact Function.update_self ..

end Cert.KernelIdeal.Val
end
-- ==== Proof.V.Through.lean ====
import proofs.«408094_j50861002719986_3_alg».proof.Proof.V.HostReads

noncomputable section

namespace Cert.KernelIdeal.Val

open Cert.KernelIdeal Cert.KernelIdeal.Gen Cert.KernelIdeal.Hand Cert.KernelIdeal.Val
open Idealize.ShloMosaic Idealize.ShloMosaic.TcCoe

variable (m : (ℓ : Loc nD τ sig) → Buf (Elt Ideal) ℓ)

-- An array that no item from the third on writes is, after each of them, what it was after the second;
theorem since2 (c : Dev nD) (r : Ref sig .tc)
    (h : r ∉ [main_v11, main_v12, main_v13, main_v14, main_v15, main_v16, main_v17]) :
    U3 m c r = U2 m c r ∧ U4 m c r = U2 m c r ∧ U5 m c r = U2 m c r ∧ U6 m c r = U2 m c r ∧ U7 m c r = U2 m c r
      ∧ U8 m c r = U2 m c r ∧ U9 m c r = U2 m c r := by
  have n : ∀ a ∈ [main_v11, main_v12, main_v13, main_v14, main_v15, main_v16, main_v17], r ∉ [a] :=
    fun a ha hm => h (List.mem_singleton.mp hm ▸ ha)
  have e3 := U3_of m c r (n _ (by decide))
  have e4 := (U4_of m c r (n _ (by decide))).trans e3
  have e5 := (U5_of m c r (n _ (by decide))).trans e4
  have e6 := (U6_of m c r (n _ (by decide))).trans e5
  have e7 := (U7_of m c r (n _ (by decide))).trans e6
  have e8 := (U8_of m c r (n _ (by decide))).trans e7
  exact ⟨e3, e4, e5, e6, e7, e8, (U9_of m c r (n _ (by decide))).trans e8⟩

-- and if the second does not write it either, what it was after the first stretch.
theorem since1 (c : Dev nD) (r : Ref sig .tc)
    (h : r ∉ [main_v10, main_v11, main_v12, main_v13, main_v14, main_v15, main_v16, main_v17]) :
    U2 m c r = U1 m c r ∧ U3 m c r = U1 m c r ∧ U4 m c r = U1 m c r ∧ U5 m c r = U1 m c r ∧ U6 m c r = U1 m c r
      ∧ U7 m c r = U1 m c r ∧ U8 m c r = U1 m c r ∧ U9 m c r = U1 m c r :=
  have e := U2_of m c r (mt List.mem_singleton.mp (List.ne_of_not_mem_cons h))
  have s := since2 m c r (List.not_mem_of_not_mem_cons h)
  ⟨e, s.1.trans e, s.2.1.trans e, s.2.2.1.trans e, s.2.2.2.1.trans e, s.2.2.2.2.1.trans e, s.2.2.2.2.2.1.trans e,
    s.2.2.2.2.2.2.trans e⟩

theorem U5_tgt (c : Dev nD) : U5 m c main_v5 = U1 m c main_v5 := (since1 m c main_v5 (by decide)).2.2.2.1
theorem U5_cnt (c : Dev nD) : U5 m c main_v10 = U2 m c main_v10 := (since2 m c main_v10 (by decide)).2.2.1
theorem U7_tgt (c : Dev nD) : U7 m c main_v5 = U1 m c main_v5 := (since1 m c main_v5 (by decide)).2.2.2.2.2.1
theorem U7_cnt (c : Dev nD) : U7 m c main_v10 = U2 m c main_v10 := (since2 m c main_v10 (by decide)).2.2.2.2.1
theorem U9_tgt (c : Dev nD) : U9 m c main_v5 = U1 m c main_v5 := (since1 m c main_v5 (by decide)).2.2.2.2.2.2.2
theorem U9_cnt (c : Dev nD) : U9 m c main_v10 = U2 m c main_v10 := (since2 m c main_v10 (by decide)).2.2.2.2.2.2
theorem U4_src (c : Dev nD) : U4 m c main_v2 = U1 m c main_v2 := (since1 m c main_v2 (by decide)).2.2.1
theorem U4_ea (c : Dev nD) : U4 m c main_arg2 = U1 m c main_arg2 := (since1 m c main_arg2 (by decide)).2.2.1
theorem U6_src (c : Dev nD) : U6 m c main_v2 = U1 m c main_v2 := (since1 m c main_v2 (by decide)).2.2.2.2.1
theorem U6_ea (c : Dev nD) : U6 m c main_arg2 = U1 m c main_arg2 := (since1 m c main_arg2 (by decide)).2.2.2.2.1
theorem U8_src (c : Dev nD) : U8 m c main_v2 = U1 m c main_v2 := (since1 m c main_v2 (by decide)).2.2.2.2.2.2.1
theorem U8_ea (c : Dev nD) : U8 m c main_arg2 = U1 m c main_arg2 := (since1 m c main_arg2 (by decide)).2.2.2.2.2.2.1
theorem U5_w (c : Dev nD) : U5 m c main_v7 = U1 m c main_v7 := (since1 m c main_v7 (by decide)).2.2.2.1
theorem U7_w (c : Dev nD) : U7 m c main_v8 = U1 m c main_v8 := (since1 m c main_v8 (by decide)).2.2.2.2.2.1
theorem U9_w (c : Dev nD) : U9 m c main_v9 = U1 m c main_v9 := (since1 m c main_v9 (by decide)).2.2.2.2.2.2.2
theorem U5_b (c : Dev nD) : U5 m c main_arg6 = U1 m c main_arg6 := (since1 m c main_arg6 (by decide)).2.2.2.1
theorem U7_b (c : Dev nD) : U7 m c main_arg8 = U1 m c main_arg8 := (since1 m c main_arg8 (by decide)).2.2.2.2.2.1
theorem U9_b (c : Dev nD) : U9 m c main_arg10 = U1 m c main_arg10 := (since1 m c main_arg10 (by decide)).2.2.2.2.2.2.2
theorem U2_x (c : Dev nD) : U2 m c main_arg0 = U1 m c main_arg0 := (since1 m c main_arg0 (by decide)).1
theorem U2_pw (c : Dev nD) : U2 m c main_v6 = U1 m c main_v6 := (since1 m c main_v6 (by decide)).1
theorem U2_pb (c : Dev nD) : U2 m c main_arg4 = U1 m c main_arg4 := (since1 m c main_arg4 (by decide)).1

end Cert.KernelIdeal.Val
end
-- ==== Proof.SumLemmas.lean ====
import Mathlib.Data.EReal.Basic
import Mathlib.Algebra.BigOperators.Fin
import Mathlib.Algebra.BigOperators.Group.Finset.Basic
import Mathlib.Logic.Equiv.Fin.Basic
import Idealize.ShloMosaic.PureOps.Ideal
import Idealize.ShloMosaic.Lib.ValueIdx

open scoped BigOperators

namespace Cert.Sums

theorem toInt_ofNat_small (n : Nat) (hn : n < 2147483648) :
    (BitVec.ofNat 32 n).toInt = (n : Int) := by
  rw [BitVec.toInt_eq_toNat_cond, BitVec.toNat_ofNat]
  have h1 : n % 2 ^ 32 = n := Nat.mod_eq_of_lt (by omega)
  rw [h1]
  split_ifs with h2
  · rfl
  · omega

theorem word_eq_ofNat_iff (w : BitVec 32) (n : Nat) (hn : n < 2147483648) :
    w = BitVec.ofNat 32 n ↔ w.toInt = (n : Int) := by
  constructor
  · rintro rfl
    exact toInt_ofNat_small n hn
  · intro h
    apply BitVec.eq_of_toInt_eq
    rw [h, toInt_ofNat_small n hn]

theorem ofNat_mul_add (b K r : Nat) (h : b * K + r < 4294967296) :
    BitVec.ofNat 32 b * BitVec.ofNat 32 K + BitVec.ofNat 32 r = BitVec.ofNat 32 (b * K + r) := by
  apply BitVec.eq_of_toNat_eq
  simp only [BitVec.toNat_add, BitVec.toNat_mul, BitVec.toNat_ofNat]
  simp [Nat.add_mod, Nat.mul_mod]

theorem one_hot_mul (p : Prop) [Decidable p] (x : EReal) :
    (if p then (1 : EReal) else 0) * x = if p then x else 0 := by
  split_ifs
  · exact one_mul x
  · exact zero_mul x

theorem sum_onehot_block (K base : Nat) (s : Int) (f : Fin K → EReal) :
    (∑ k : Fin K, (if s = ((base + k.val : Nat) : Int) then (1 : EReal) else 0) * f k)
      = if h : (base : Int) ≤ s ∧ s < ((base + K : Nat) : Int) then f ⟨(s - base).toNat, by omega⟩ else 0 := by
  split_ifs with h
  ·
    have hk : (s - base).toNat < K := by omega
    rw [Finset.sum_eq_single (⟨(s - base).toNat, hk⟩ : Fin K)]
    · rw [if_pos (by simp only []; omega), one_mul]
    · intro k _ hne
      rw [if_neg, zero_mul]
      intro hs
      apply hne
      apply Fin.ext
      simp only []
      omega
    · intro hnot
      exact absurd (Finset.mem_univ _) hnot
  ·
    apply Finset.sum_eq_zero
    intro k _
    rw [if_neg, zero_mul]
    intro hs
    apply h
    have := k.isLt
    omega

theorem blk_lt {B K b k : Nat} (hb : b < B) (hk : k < K) : b * K + k < B * K :=
  calc b * K + k < b * K + K := by omega
    _ = (b + 1) * K := (Nat.succ_mul b K).symm
    _ ≤ B * K := Nat.mul_le_mul_right K hb

theorem sum_blocks (B K : Nat) (g : Fin (B * K) → EReal) :
    (∑ e : Fin (B * K), g e) = ∑ b : Fin B, ∑ k : Fin K, g ⟨b.val * K + k.val, blk_lt b.isLt k.isLt⟩ := by
  rw [← Fintype.sum_prod_type']
  refine (Fintype.sum_equiv finProdFinEquiv _ _ ?_).symm
  rintro ⟨b, k⟩
  refine congrArg g (Fin.ext ?_)
  simp only [finProdFinEquiv_apply_val]
  rw [Nat.mul_comm, Nat.add_comm]

noncomputable def partialBlocks (B K : Nat) (g : Fin (B * K) → EReal) (n : Nat) : EReal :=
  ∑ b : Fin B, if b.val < n then ∑ k : Fin K, g ⟨b.val * K + k.val, blk_lt b.isLt k.isLt⟩ else 0

theorem partialBlocks_zero {B K : Nat} {g : Fin (B * K) → EReal} : partialBlocks B K g 0 = 0 := by
  unfold partialBlocks
  apply Finset.sum_eq_zero
  intro b _
  rw [if_neg (Nat.not_lt_zero _)]

theorem partialBlocks_succ {B K : Nat} {g : Fin (B * K) → EReal} (n : Nat) (hn : n < B) :
    partialBlocks B K g (n + 1)
      = partialBlocks B K g n + ∑ k : Fin K, g ⟨n * K + k.val, blk_lt hn k.isLt⟩ := by
  unfold partialBlocks

  have hsel : (∑ k : Fin K, g ⟨n * K + k.val, blk_lt hn k.isLt⟩)
      = ∑ b : Fin B, if b = (⟨n, hn⟩ : Fin B) then
          ∑ k : Fin K, g ⟨b.val * K + k.val, blk_lt b.isLt k.isLt⟩ else 0 := by
    rw [Finset.sum_ite_eq' Finset.univ (⟨n, hn⟩ : Fin B), if_pos (Finset.mem_univ _)]
  rw [hsel, ← Finset.sum_add_distrib]
  apply Finset.sum_congr rfl
  intro b _
  by_cases h1 : b.val < n
  · have h2 : b.val < n + 1 := by omega
    have h3 : b ≠ (⟨n, hn⟩ : Fin B) := by
      intro hb
      rw [hb] at h1
      exact absurd h1 (Nat.lt_irrefl n)
    rw [if_pos h1, if_pos h2, if_neg h3, add_zero]
  · by_cases h3 : b = (⟨n, hn⟩ : Fin B)
    · have h2 : b.val < n + 1 := by rw [h3]; exact Nat.lt_succ_self n
      rw [if_neg h1, if_pos h2, if_pos h3, zero_add]
    · have h2 : ¬ b.val < n + 1 := by
        intro h2
        apply h3
        apply Fin.ext
        simp only []
        omega
      rw [if_neg h1, if_neg h2, if_neg h3, add_zero]

theorem partialBlocks_all {B K : Nat} {g : Fin (B * K) → EReal} :
    partialBlocks B K g B = ∑ e : Fin (B * K), g e := by
  unfold partialBlocks
  rw [sum_blocks]
  apply Finset.sum_congr rfl
  intro b _
  rw [if_pos b.isLt]

noncomputable def selUpTo {N : Nat} (h : Fin N → EReal) (s : Int) (bound : Nat) : EReal :=
  if hs : 0 ≤ s ∧ s < (min bound N : Nat) then h ⟨s.toNat, by omega⟩ else 0

theorem selUpTo_zero {N : Nat} {h : Fin N → EReal} {s : Int} : selUpTo h s 0 = 0 := by
  unfold selUpTo
  rw [dif_neg]
  intro hs
  omega

theorem selUpTo_add {N : Nat} (m K : Nat) (hN : m + K ≤ N) (h : Fin N → EReal) (s : Int) :
    selUpTo h s m + (∑ k : Fin K, (if s = ((m + k.val : Nat) : Int) then (1 : EReal) else 0)
        * h ⟨m + k.val, by have := k.isLt; omega⟩)
      = selUpTo h s (m + K) := by
  rw [sum_onehot_block K m s (fun k => h ⟨m + k.val, by have := k.isLt; omega⟩)]
  unfold selUpTo
  by_cases h1 : 0 ≤ s ∧ s < ((min m N : Nat) : Int)
  · have h2 : ¬ ((m : Int) ≤ s ∧ s < ((m + K : Nat) : Int)) := by omega
    have h3 : 0 ≤ s ∧ s < ((min (m + K) N : Nat) : Int) := by omega
    rw [dif_pos h1, dif_neg h2, dif_pos h3, add_zero]
  · by_cases h2 : (m : Int) ≤ s ∧ s < ((m + K : Nat) : Int)
    · have h3 : 0 ≤ s ∧ s < ((min (m + K) N : Nat) : Int) := by omega
      rw [dif_neg h1, dif_pos h2, dif_pos h3, zero_add]
      refine congrArg h (Fin.ext ?_)
      simp only []
      omega
    · have h3 : ¬ (0 ≤ s ∧ s < ((min (m + K) N : Nat) : Int)) := by omega
      rw [dif_neg h1, dif_neg h2, dif_neg h3, add_zero]

theorem selUpTo_step {N : Nat} (K n : Nat) (hN : (n + 1) * K ≤ N) (h : Fin N → EReal) (s : Int) :
    selUpTo h s (n * K) + (∑ k : Fin K, (if s = ((n * K + k.val : Nat) : Int) then (1 : EReal) else 0)
        * h ⟨n * K + k.val, by have := k.isLt; nlinarith⟩)
      = selUpTo h s ((n + 1) * K) := by
  have hK : (n + 1) * K = n * K + K := Nat.succ_mul n K
  exact (selUpTo_add (n * K) K (hK ▸ hN) h s).trans (congrArg (selUpTo h s) hK.symm)

theorem selUpTo_all {N : Nat} (h : Fin N → EReal) (s : Int) (hs : 0 ≤ s ∧ s < N) :
    selUpTo h s N = h ⟨s.toNat, by omega⟩ := by
  unfold selUpTo
  rw [dif_pos]
  omega

end Cert.Sums
-- ==== Proof.V.Pay0.lean ====
import proofs.«408094_j50861002719986_3_alg».proof.Proof.I.Dat0
import proofs.«408094_j50861002719986_3_alg».proof.Proof.Spec
import proofs.«408094_j50861002719986_3_alg».proof.Proof.SumLemmas
import Idealize.ShloMosaic.Lib.ValueIdx
import Idealize.ShloMosaic.Lib.Pipeline.Value
import Idealize.ShloMosaic.PureOps.Ideal.Laws
import Idealize.ShloMosaic.Lib.IdealHost

noncomputable section

open Cert.KernelIdeal Cert.KernelIdeal.Gen Cert.KernelIdeal.Hand Cert.Spec Cert.Sums
open Idealize.ShloMosaic Idealize.ShloMosaic.ValueIdx
open scoped BigOperators

namespace Cert.KernelIdeal.Val.R0

theorem onehot_word (a b : BitVec 32) :
    (FloatOps.sitofp (F := Ideal) .f32 ((IntOp.cmpi .eq a b).setWidth 32) : EReal) = if a = b then 1 else 0 := by
  show (((((BitVec.ofBool (a == b)).setWidth 32).toInt : ℤ) : ℝ) : EReal) = _
  by_cases hab : a = b
  · rw [if_pos hab, beq_iff_eq.mpr hab, show ((BitVec.ofBool true).setWidth 32).toInt = 1 by decide]; simp
  · rw [if_neg hab, beq_eq_false_iff_ne.mpr hab, show ((BitVec.ofBool false).setWidth 32).toInt = 0 by decide]; simp

abbrev D := dot_S5000x1280_S1280x128_S5000x128_1_0_0_1_n_n

theorem nodeWord_apply (b : BitVec 32) (l : S5000x1280.Idx) (r : Fin 5000) (hrow : (l 0).val = r.val) :
    (broadcastTo S5000x1280 (addi (broadcast S5000x1 b) (iota .tc S5000x1 32 [0] iota_S5000x1_d0_w32))
      broadcasts_S5000x1_S5000x1280 : IVec S5000x1280 32) l = b + BitVec.ofNat 32 r.val := by
  refine (broadcastTo_apply _ _ l (ix2 r (0 : Fin 1) : S5000x1.Idx) ?_).trans ?_
  · intro a
    match a with
    | ⟨0, _⟩ => show r.val = if (5000 : ℕ) = 1 then 0 else (l 0).val
                rw [if_neg (by decide)]; exact hrow.symm
    | ⟨1, _⟩ => rfl
  · show IntOp.addi b (iota .tc S5000x1 32 [0] iota_S5000x1_d0_w32 (ix2 r (0 : Fin 1) : S5000x1.Idx)) = _
    rw [iota_single_apply]
    rfl

theorem tgtWord_apply (v7 : S1x1280.Idx → BitVec 32) (l : S5000x1280.Idx) (k : Fin 1280) (hcol : (l 1).val = k.val) :
    (broadcastTo S5000x1280 v7 broadcasts_S1x1280_S5000x1280 : IVec S5000x1280 32) l
      = v7 (ix2 (0 : Fin 1) k : S1x1280.Idx) := by
  refine broadcastTo_apply _ _ l (ix2 (0 : Fin 1) k : S1x1280.Idx) ?_
  intro a
  match a with
  | ⟨0, _⟩ => rfl
  | ⟨1, _⟩ => show k.val = if (1280 : ℕ) = 1 then 0 else (l 1).val
              rw [if_neg (by decide)]; exact hcol.symm

theorem pay1_apply (r : Fin 5000) :
    (k0_pay1 (F := Ideal) : S5000x1.Idx → EReal) (ix2 r (0 : Fin 1) : S5000x1.Idx) = 0 := by
  unfold k0_pay1
  simp only [shapeCast_self]
  show Ideal.ofBits .f32 0#32 = 0
  exact Ideal.ofBits_zero_f32

theorem pay2_apply (i : grid0.Coords) (v7 : Vec Ideal S1x1280 .i32) (v17 : Vec Ideal S5000x1 .f32) (r : Fin 5000) :
    (k0_pay2 (F := Ideal) i v7 v17 : S5000x1.Idx → EReal) (ix2 r (0 : Fin 1) : S5000x1.Idx)
      = (v17 (ix2 r (0 : Fin 1) : S5000x1.Idx) : EReal) + ∑ k : Fin 1280,
          if BitVec.ofNat 32 (i 0).val * 5000#32 + BitVec.ofNat 32 r.val
              = (v7 (ix2 (0 : Fin 1) k : S1x1280.Idx) : BitVec 32) then (1 : EReal) else 0 := by
  unfold k0_pay2
  simp only [shapeCast_self]
  refine (addf_apply _ _ _).trans ?_
  refine congrArg (fun z : EReal => (v17 (ix2 r (0 : Fin 1) : S5000x1.Idx) : EReal) + z) ?_
  refine (extractStridedSlice_apply ![0, 0] _ _ (ix2 r (0 : Fin 1) : S5000x1.Idx) (ix2 r (0 : Fin 128) : S5000x128.Idx) ?_).trans ?_
  · intro a
    match a with
    | ⟨0, _⟩ => show r.val = 0 + r.val; omega
    | ⟨1, _⟩ => rfl
  refine (Ideal.matmul_constant_zero_apply D none _ _ (ix2 r (0 : Fin 128) : S5000x128.Idx)).trans ?_
  refine (Equiv.sum_comp (contrEquiv1 D 1280 rfl rfl).symm _).symm.trans ?_
  refine Finset.sum_congr rfl fun k _ => ?_
  have hrow : ((D.lhsIdx (ix2 r (0 : Fin 128) : S5000x128.Idx) ((contrEquiv1 D 1280 rfl rfl).symm k)) 0).val = r.val := rfl
  have hcol : ((D.lhsIdx (ix2 r (0 : Fin 128) : S5000x128.Idx) ((contrEquiv1 D 1280 rfl rfl).symm k)) 1).val = k.val :=
    contrEquiv1_symm_val D 1280 rfl rfl k
  refine (congrArg₂ (fun x y : EReal => x * y) (onehot_word _ _) Ideal.ofBits_one_bf16).trans ?_
  refine (mul_one _).trans ?_
  have e1 := nodeWord_apply (Scalar.muli (BitVec.ofNat 32 (i 0).val) 5000#32) _ r hrow
  have e2 := tgtWord_apply v7 _ k hcol
  rw [e1, e2]
  rfl

end Cert.KernelIdeal.Val.R0
end
-- ==== Proof.V.Acc0.lean ====
import proofs.«408094_j50861002719986_3_alg».proof.Proof.V.Pay0
import Idealize.ShloMosaic.Lib.Decide

noncomputable section

open Cert.KernelIdeal Cert.KernelIdeal.Gen Cert.KernelIdeal.Hand Cert.Spec Cert.Sums
open Idealize.ShloMosaic Idealize.ShloMosaic.TcCoe Idealize.ShloMosaic.ValueIdx
open scoped BigOperators
open Idealize.ShloMosaic.Pipeline (Dat)

namespace Cert.KernelIdeal.Val.R0

section
variable (V : (c : Dev nD) → (b : Ref sig .tc) → Buf (Elt Ideal) ((c : Thread nD τ).loc b))

abbrev tgtW (c : Dev nD) : Fin 800000 → BitVec 32 :=
  fun e => (V c (Pipeline.arrRef spec0 0) : S1x800000.Idx → BitVec 32) (ix2 (0 : Fin 1) e : S1x800000.Idx)

theorem blkfacts0 : ∀ t : Fin cfg0.N, ((grid0.coords t) 0).val = t.val / 625
    ∧ win0_0.index t (0 : Fin 2) = 0 ∧ win0_0.index t (1 : Fin 2) = t.val % 625
    ∧ win0_1.index t (0 : Fin 2) = t.val / 625 ∧ win0_1.index t (1 : Fin 2) = 0 :=
  (by decide +kernel : ∀ t : Fin grid0.N, _)

theorem iblk0_apply (c : Dev nD) (t : Fin cfg0.N) (k : Fin 1280) (e : Fin 800000)
    (he : e.val = (t.val % 625) * 1280 + k.val) :
    (iblk0 (F := Ideal) V c 0 t : S1x1280.Idx → BitVec 32) (ix2 (0 : Fin 1) k : S1x1280.Idx) = tgtW V c e := by
  obtain ⟨-, eRow, eCol, -, -⟩ := blkfacts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 1 + 1 * 0 = 0; rw [eRow]
  | ⟨1, _⟩ => show win0_0.index t (1 : Fin 2) * 1280 + 1 * k.val = e.val; rw [eCol, he]; omega

theorem hit_eq (nb : ℕ) (hnb : nb < 10) (r : Fin 5000) (w : BitVec 32) (n : Fin 50000) (hn : n.val = nb * 5000 + r.val) :
    (if BitVec.ofNat 32 nb * 5000#32 + BitVec.ofNat 32 r.val = w then (1 : EReal) else 0)
      = if w.toInt = (n.val : Int) then 1 else 0 := by
  have h1 : BitVec.ofNat 32 nb * 5000#32 + BitVec.ofNat 32 r.val = BitVec.ofNat 32 n.val := by
    rw [hn]; exact ofNat_mul_add nb 5000 r.val (by have := r.isLt; omega)
  rw [h1]
  exact if_congr (eq_comm.trans (word_eq_ofNat_iff w n.val (by have := n.isLt; omega))) rfl rfl

theorem step_sum (c : Dev nD) (t : Fin cfg0.N) (r : Fin 5000) (n : Fin 50000) (hn : n.val = (t.val / 625) * 5000 + r.val)
    (eb : ℕ) (heb : t.val % 625 = eb) (hlt : eb < 625) :
    (∑ k : Fin 1280, if BitVec.ofNat 32 ((grid0.coords t) 0).val * 5000#32 + BitVec.ofNat 32 r.val
          = (iblk0 (F := Ideal) V c 0 t : S1x1280.Idx → BitVec 32) (ix2 (0 : Fin 1) k : S1x1280.Idx) then (1 : EReal) else 0)
      = ∑ k : Fin 1280, (fun e : Fin (625 * 1280) => if endsIn (tgtW V c) e n then (1 : EReal) else 0)
          ⟨eb * 1280 + k.val, blk_lt hlt k.isLt⟩ := by
  obtain ⟨ec, -, -, -, -⟩ := blkfacts0 t
  have ht := t.isLt
  have hN : cfg0.N = 6250 := N_0
  refine Finset.sum_congr rfl fun k _ => ?_
  have hk := k.isLt
  rw [ec, iblk0_apply V c t k ⟨eb * 1280 + k.val, by omega⟩ (by rw [heb])]
  exact hit_eq (t.val / 625) (by omega) r _ n hn

theorem acc0_at_reset (c : Dev nD) (t : Fin cfg0.N) (h : t.val % 625 = 0) (r : Fin 5000) (n : Fin 50000)
    (hn : n.val = (t.val / 625) * 5000 + r.val) :
    (acc0 (F := Ideal) V c t.val t.isLt : S5000x1.Idx → EReal) (ix2 r (0 : Fin 1) : S5000x1.Idx)
      = partialBlocks 625 1280 (fun e => if endsIn (tgtW V c) e n then (1 : EReal) else 0) (t.val % 625 + 1) := by
  refine (congrFun (acc0_reset (F := Ideal) V c t h) (ix2 r (0 : Fin 1) : S5000x1.Idx)).trans ?_
  refine (pay2_apply (grid0.coords t) (iblk0 (F := Ideal) V c 0 t) (k0_pay1 (F := Ideal)) r).trans ?_
  rw [pay1_apply r, zero_add, step_sum V c t r n hn 0 h (by decide), h,
    partialBlocks_succ 0 (by decide), partialBlocks_zero, zero_add]

theorem acc0_at_step (c : Dev nD) (t : Fin cfg0.N) (h : ¬t.val % 625 = 0) (r : Fin 5000) (n : Fin 50000)
    (hn : n.val = (t.val / 625) * 5000 + r.val)
    (hp : (acc0 (F := Ideal) V c (t.val - 1) (Nat.lt_of_le_of_lt (Nat.sub_le _ _) t.isLt) : S5000x1.Idx → EReal)
        (ix2 r (0 : Fin 1) : S5000x1.Idx)
      = partialBlocks 625 1280 (fun e => if endsIn (tgtW V c) e n then (1 : EReal) else 0) ((t.val - 1) % 625 + 1)) :
    (acc0 (F := Ideal) V c t.val t.isLt : S5000x1.Idx → EReal) (ix2 r (0 : Fin 1) : S5000x1.Idx)
      = partialBlocks 625 1280 (fun e => if endsIn (tgtW V c) e n then (1 : EReal) else 0) (t.val % 625 + 1) := by
  have hlt : t.val % 625 < 625 := Nat.mod_lt _ (by decide)
  refine (congrFun (acc0_step (F := Ideal) V c t h) (ix2 r (0 : Fin 1) : S5000x1.Idx)).trans ?_
  refine (pay2_apply (grid0.coords t) (iblk0 (F := Ideal) V c 0 t)
    (acc0 (F := Ideal) V c (t.val - 1) (Nat.lt_of_le_of_lt (Nat.sub_le _ _) t.isLt)) r).trans ?_
  rw [hp, step_sum V c t r n hn (t.val % 625) rfl hlt, partialBlocks_succ (t.val % 625) hlt]
  exact congrArg (fun x => partialBlocks 625 1280 (fun e => if endsIn (tgtW V c) e n then (1 : EReal) else 0) x + _)
    (by omega : (t.val - 1) % 625 + 1 = t.val % 625)

theorem acc0_inv (c : Dev nD) (m : ℕ) : ∀ (hm : m < cfg0.N) (r : Fin 5000) (n : Fin 50000),
    n.val = (m / 625) * 5000 + r.val →
    (acc0 (F := Ideal) V c m hm : S5000x1.Idx → EReal) (ix2 r (0 : Fin 1) : S5000x1.Idx)
      = partialBlocks 625 1280 (fun e => if endsIn (tgtW V c) e n then (1 : EReal) else 0) (m % 625 + 1) := by
  induction m using Nat.strong_induction_on with
  | _ m ih =>
    intro hm r n hn
    by_cases h : m % 625 = 0
    · exact acc0_at_reset V c ⟨m, hm⟩ h r n hn
    · exact acc0_at_step V c ⟨m, hm⟩ h r n hn (ih (m - 1) (by omega) _ r n (by omega))

theorem acc0_last (c : Dev nD) (t : Fin cfg0.N) (ht : t.val % 625 = 624) (r : Fin 5000) :
    acc0 (F := Ideal) V c t.val t.isLt (ix2 r 0)
      = indeg (tgtW V c) ⟨(t.val / 625) * 5000 + r.val, by have := t.isLt; have hN : cfg0.N = 6250 := N_0; omega⟩ := by
  refine (acc0_inv V c t.val t.isLt r
    ⟨(t.val / 625) * 5000 + r.val, by have := t.isLt; have hN : cfg0.N = 6250 := N_0; omega⟩ rfl).trans ?_
  refine (congrArg (partialBlocks 625 1280 _) (by omega : t.val % 625 + 1 = 625)).trans ?_
  unfold indeg
  exact partialBlocks_all

end
end Cert.KernelIdeal.Val.R0
end
-- ==== Proof.V.Val0.lean ====
import proofs.«408094_j50861002719986_3_alg».proof.Proof.V.Acc0
import proofs.«408094_j50861002719986_3_alg».proof.Proof.Gen.KernelIdeal.Points

noncomputable section

open Cert.KernelIdeal Cert.KernelIdeal.Gen Cert.KernelIdeal.Hand Cert.Spec Cert.Sums
open Idealize.ShloMosaic Idealize.ShloMosaic.TcCoe Idealize.ShloMosaic.ValueIdx
open scoped BigOperators
open Idealize.ShloMosaic.Pipeline (Dat)

namespace Cert.KernelIdeal.Val.R0

section
variable (V : (c : Dev nD) → (b : Ref sig .tc) → Buf (Elt Ideal) ((c : Thread nD τ).loc b))

abbrev degArr (c : Dev nD) : S50000x1.Idx → EReal := arr2 fun n (_ : Fin 1) => indeg (tgtW V c) n

theorem flushed0_eq (c : Dev nD) (t : Fin cfg0.N) (hf : (cfg0.win 1).flush t = true) :
    (dat0 (F := Ideal) V c).flushed 1 t = ((cfg0.win 1).blk t).view.read (Elt Ideal) (degArr V c) := by
  have h624 : t.val % 625 = 624 := (flush0_1 t).mp hf
  obtain ⟨-, -, -, eRow, eCol⟩ := blkfacts0 t
  show (cfg0.win 1).cut (grid0.coords t) ((dat0 (F := Ideal) V c).after 1 t) = _
  rw [after0_1]
  funext j
  obtain ⟨r, q, rfl⟩ : ∃ (r : Fin 5000) (q : Fin 1), j = (ix2 r q : S5000x1.Idx) := ⟨j 0, j 1, eq_ix2 j⟩
  obtain rfl : q = 0 := Subsingleton.elim q 0
  rw [View.read_apply]
  refine (acc0_last V c t h624 r).trans ?_
  refine Eq.trans ?_ (cast_eq _ _).symm
  show _ = indeg (tgtW V c) ((((cfg0.win 1).blk t).view.emb (ix2 r (0 : Fin 1) : S5000x1.Idx)) (0 : Fin 2))
  refine congrArg (indeg (tgtW V c)) (Fin.ext ?_)
  show t.val / 625 * 5000 + r.val = win0_1.index t (0 : Fin 2) * 5000 + 1 * r.val
  rw [eRow]; omega

theorem cover0 (i : S50000x1.Idx) :
    ∃ t : Fin cfg0.N, (cfg0.win 1).flush t = true ∧ i ∈ ((cfg0.win 1).blk t).view.set := by
  have hrowlt : (i 0).val < 50000 := (i 0).isLt
  have hcollt : (i 1).val < 1 := (i 1).isLt
  have hN : cfg0.N = 6250 := N_0
  obtain ⟨t, ht⟩ : ∃ t : Fin cfg0.N, t.val = (i 0).val / 5000 * 625 + 624 := ⟨⟨_, by omega⟩, rfl⟩
  obtain ⟨-, -, -, eRow, eCol⟩ := blkfacts0 t
  refine ⟨t, (flush0_1 t).mpr (by omega), ?_⟩
  show i ∈ ((View.whole (Pipeline.arrRef spec0 1)).slice (win0_1.rect t)).set
  rw [View.set_slice_whole, Rect.mem_set_unit]
  intro a
  match a with
  | ⟨0, _⟩ => show win0_1.index t (0 : Fin 2) * 5000 ≤ (i 0).val ∧ (i 0).val < win0_1.index t (0 : Fin 2) * 5000 + 5000
              rw [eRow]; omega
  | ⟨1, _⟩ => show win0_1.index t (1 : Fin 2) * 1 ≤ (i 1).val ∧ (i 1).val < win0_1.index t (1 : Fin 2) * 1 + 1
              rw [eCol]; omega

theorem final0 (c : Dev nD) :
    ((dat0 (F := Ideal) V c).arrAt 1 cfg0.N : S50000x1.Idx → EReal) = arr2 (fun n (_ : Fin 1) => indeg (tgtW V c) n) :=
  (dat0 (F := Ideal) V c).arrAt_eq_of_cover 1 (degArr V c) (flushed0_eq V c) cover0

end
end Cert.KernelIdeal.Val.R0
end
-- ==== Proof.V.Val1.lean ====
import proofs.«408094_j50861002719986_3_alg».proof.Proof.I.Dat1
import proofs.«408094_j50861002719986_3_alg».proof.Proof.Gen.KernelIdeal.Points
import proofs.«408094_j50861002719986_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Val.R1

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

local notation "dot1" => dot_S5000x128_S128x64_S5000x64_1_0_0_1_n_n

theorem pay_apply (x0 : Vec Ideal S5000x128 .f32) (x1 : Vec Ideal S128x64 .bf16) (x2 : Vec Ideal S64 .f32) (a : Fin 5000) (o : Fin 64) :
    (k1_pay1 x0 x1 x2 : S5000x64.Idx → EReal) (ix2 a o)
      = (∑ k : Fin 128, (x0 (ix2 a k) : EReal) * (x1 (ix2 k o) : EReal)) + (x2 (ix1 o) : EReal) := by
  unfold k1_pay1
  rw [addf_apply]
  congr 1
  · simp only [matmul]
    rw [Ideal.matmul_constant_zero_apply, ← Equiv.sum_comp (contrEquiv1 dot1 128 rfl rfl).symm]
    refine Finset.sum_congr rfl fun k _ => ?_
    have hk := contrEquiv1_symm_val dot1 128 rfl rfl k
    have el : (dot1).lhsIdx (ix2 a o) ((contrEquiv1 dot1 128 rfl rfl).symm k) = ix2 a k :=
      funext fun d => Fin.ext (by match d with | ⟨0, _⟩ => rfl | ⟨1, _⟩ => exact hk)
    have er : (dot1).rhsIdx (ix2 a o) ((contrEquiv1 dot1 128 rfl rfl).symm k) = ix2 k o :=
      funext fun d => Fin.ext (by match d with | ⟨0, _⟩ => exact hk | ⟨1, _⟩ => rfl)
    rw [el, er, truncf_apply, shapeCast_self]
  · refine (broadcastTo_apply _ broadcasts_S1x64_S5000x64 (ix2 a o) (ix2 (0 : Fin 1) o) (fun d => ?_)).trans ?_
    · match d with
      | ⟨0, _⟩ => show (0 : Nat) = if (1 : Nat) = 1 then 0 else _; rw [if_pos rfl]
      | ⟨1, _⟩ => show o.val = if (64 : Nat) = 1 then 0 else o.val; rw [if_neg (by decide)]
    · refine (shapeCast_addUnit_apply (n := 1) ![64] x2 shapeCasts_S64_S1x64 (ix2 (0 : Fin 1) o)).trans (congrArg x2 ?_)
      funext d
      match d with
      | ⟨0, _⟩ => rfl

section
variable (V : (c : Dev nD) → (b : Ref sig .tc) → Buf (Elt Ideal) ((c : Thread nD τ).loc b))

def xA (c : Dev nD) : Fin 50000 → Fin 128 → EReal :=
  fun n k => (V c (Pipeline.arrRef spec1 0) : S50000x128.Idx → EReal) (ix2 n k)

def pwA (c : Dev nD) : Fin 128 → Fin 64 → EReal :=
  fun k o => (V c (Pipeline.arrRef spec1 1) : S128x64.Idx → EReal) (ix2 k o)

def pbA (c : Dev nD) : Fin 64 → EReal :=
  fun o => (V c (Pipeline.arrRef spec1 2) : S64.Idx → EReal) (ix1 o)

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem iblk0_apply (c : Dev nD) (t : Fin cfg1.N) (a : Fin 5000) (k : Fin 128) (n : Fin 50000)
    (hn : n.val = t.val * 5000 + a.val) :
    (iblk1 V c 0 t : S5000x128.Idx → EReal) (ix2 a k) = xA V c n k := by
  obtain ⟨e0, e1, -⟩ := idx_facts t
  unfold iblk1 xA
  rw [View.read_apply]
  refine congrArg (V c (Pipeline.arrRef spec1 0) : S50000x128.Idx → EReal) ?_
  funext d
  apply Fin.ext
  match d with
  | ⟨0, _⟩ => show win1_0.index t (0 : Fin 2) * 5000 + 1 * a.val = n.val; rw [e0, hn]; omega
  | ⟨1, _⟩ => show win1_0.index t (1 : Fin 2) * 128 + 1 * k.val = k.val; rw [e1]; omega

theorem iblk1_apply (c : Dev nD) (t : Fin cfg1.N) (k : Fin 128) (o : Fin 64) :
    (iblk1 V c 1 t : S128x64.Idx → EReal) (ix2 k o) = pwA V c k o := by
  obtain ⟨-, -, e2, e3, -⟩ := idx_facts t
  unfold iblk1 pwA
  rw [View.read_apply]
  refine congrArg (V c (Pipeline.arrRef spec1 1) : S128x64.Idx → EReal) ?_
  funext d
  apply Fin.ext
  match d with
  | ⟨0, _⟩ => show win1_1.index t (0 : Fin 2) * 128 + 1 * k.val = k.val; rw [e2]; omega
  | ⟨1, _⟩ => show win1_1.index t (1 : Fin 2) * 64 + 1 * o.val = o.val; rw [e3]; omega

theorem iblk2_apply (c : Dev nD) (t : Fin cfg1.N) (o : Fin 64) :
    (iblk1 V c 2 t : S64.Idx → EReal) (ix1 o) = pbA V c o := by
  obtain ⟨-, -, -, -, e4, -⟩ := idx_facts t
  unfold iblk1 pbA
  rw [View.read_apply]
  refine congrArg (V c (Pipeline.arrRef spec1 2) : S64.Idx → EReal) ?_
  funext d
  apply Fin.ext
  match d with
  | ⟨0, _⟩ => show win1_2.index t (0 : Fin 1) * 64 + 1 * o.val = o.val; rw [e4]; omega

theorem flushed_eq (c : Dev nD) (t : Fin cfg1.N) :
    (dat1 (F := Ideal) V c).flushed 3 t
      = ((cfg1.win 3).blk t).view.read (Elt Ideal) (Cert.Spec.arr2 (Cert.Spec.lin (xA V c) (pwA V c) (pbA V c))) := by
  show (cfg1.win 3).cut (grid1.coords t) ((dat1 (F := Ideal) V c).after 3 t) = _
  rw [after1_3]
  unfold out1
  obtain ⟨-, -, -, -, -, e5, e6⟩ := idx_facts t
  funext j
  obtain ⟨a, o, rfl⟩ : ∃ (a : Fin 5000) (o : Fin 64), j = ix2 a o := ⟨j 0, j 1, eq_ix2 j⟩
  rw [View.read_apply]
  have ht : t.val < 10 := t.isLt
  have hrow : ((((cfg1.win 3).blk t).view.emb (ix2 a o) : S50000x64.Idx) 0).val = t.val * 5000 + a.val := by
    show win1_3.index t (0 : Fin 2) * 5000 + 1 * a.val = _; rw [e5]; omega
  have hcol : ((((cfg1.win 3).blk t).view.emb (ix2 a o) : S50000x64.Idx) 1) = o := by
    apply Fin.ext
    show win1_3.index t (1 : Fin 2) * 64 + 1 * o.val = _; rw [e6]; omega
  refine (pay_apply _ _ _ a o).trans ?_
  rw [Cert.Spec.arr2_apply]
  unfold Cert.Spec.lin
  rw [hcol, iblk2_apply]
  congr 1
  refine Finset.sum_congr rfl fun k _ => ?_
  rw [iblk0_apply V c t a k _ hrow, iblk1_apply]

theorem cover (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0).val < 50000 := (i 0).isLt
  have h1 : (i 1).val < 64 := (i 1).isLt
  have hlt : (i 0).val / 5000 < cfg1.N := by rw [show cfg1.N = 10 from N_1]; omega
  obtain ⟨-, -, -, -, -, e5, e6⟩ := idx_facts ⟨(i 0).val / 5000, hlt⟩
  refine ⟨⟨(i 0).val / 5000, hlt⟩, flush1_3 _, ?_⟩
  show i ∈ ((View.whole main_v11).slice (win1_3.rect ⟨(i 0).val / 5000, hlt⟩)).set
  rw [View.set_slice_whole, Rect.mem_set_unit]
  intro d
  match d with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    rw [e6]; omega

theorem final1 (c : Dev nD) :
    ((dat1 (F := Ideal) V c).arrAt 3 cfg1.N : S50000x64.Idx → EReal)
      = Cert.Spec.arr2 (Cert.Spec.lin (xA V c) (pwA V c) (pbA V c)) :=
  (dat1 (F := Ideal) V c).arrAt_eq_of_cover 3 _ (fun t _ => flushed_eq V c t) (cover c)

end

end Cert.KernelIdeal.Val.R1
end
-- ==== Proof.V.Pay2.lean ====
import proofs.«408094_j50861002719986_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val.Gather

open Cert.KernelIdeal Cert.KernelIdeal.Gen
open Idealize.ShloMosaic Idealize.ShloMosaic.ValueIdx

-- Two words compared, the bit widened and converted: one where they agree, else zero.
theorem onehot_apply {s : Shape} (a b : IVec s 32) (h : 1 < 32) (i : s.Idx) :
    (sitofp .f32 (extui 32 (cmpi .eq a b) h) : FVec Ideal s .f32) i = if a i = b i then (1 : EReal) else 0 := by
  show (((((BitVec.ofBool (a i == b i)).setWidth 32).toInt : ℤ) : ℝ) : EReal) = _
  by_cases hab : a i = b i
  · rw [if_pos hab, beq_iff_eq.mpr hab, show ((BitVec.ofBool true).setWidth 32).toInt = 1 by decide]; simp
  · rw [if_neg hab, beq_eq_false_iff_ne.mpr hab, show ((BitVec.ofBool false).setWidth 32).toInt = 0 by decide]; simp

-- The product into a zero accumulator at row r, column o: the sum over the 1000 inner positions.
theorem prod_apply (x : FVec Ideal S5000x1000 .bf16) (y : FVec Ideal S1000x64 .bf16) (r : Fin 5000) (o : Fin 64) :
    (matmul dot_S5000x1000_S1000x64_S5000x64_1_0_0_1_n_n none x y (constant (F := Ideal) S5000x64 .f32 0x00000000#32) : FVec Ideal S5000x64 .f32) (ix2 r o)
      = ∑ k : Fin 1000, x (ix2 r k) * y (ix2 k o) := by
  simp only [matmul]
  rw [Ideal.matmul_constant_zero_apply, ← Equiv.sum_comp (contrEquiv1 dot_S5000x1000_S1000x64_S5000x64_1_0_0_1_n_n 1000 rfl rfl).symm]
  refine Finset.sum_congr rfl fun k _ => ?_
  have hk := contrEquiv1_symm_val dot_S5000x1000_S1000x64_S5000x64_1_0_0_1_n_n 1000 rfl rfl k
  congr 2 <;> funext a <;> apply Fin.ext <;> match a with
    | ⟨0, _⟩ => first | rfl | exact hk
    | ⟨1, _⟩ => first | rfl | exact hk

-- Row r, position k of the selector: one where the row's word is the block's base plus k.
theorem sel_apply (w : IVec S5000x1 32) (base : BitVec 32) (hbw : S5000x1.Broadcasts S5000x1000)
    (hbn : S1x1000.Broadcasts S5000x1000) (hi : S1x1000.Iotas .tc 32 [1]) (hlt : 1 < 32)
    (hbits : FTy.bits .bf16 < FTy.bits .f32) (r : Fin 5000) (k : Fin 1000) :
    (truncf .bf16 (sitofp .f32 (extui 32 (cmpi .eq (broadcastTo S5000x1000 w hbw)
        (broadcastTo S5000x1000 (addi (broadcast S1x1000 base) (iota .tc S1x1000 32 [1] hi)) hbn)) hlt)) hbits
          : FVec Ideal S5000x1000 .bf16) (ix2 r k)
      = if w (ix2 r (0 : Fin 1)) = base + BitVec.ofNat 32 k.val then (1 : EReal) else 0 := by
  refine (onehot_apply _ _ hlt (ix2 r k)).trans ?_
  rw [broadcastTo_apply w hbw (ix2 r k) (ix2 r (0 : Fin 1)) (fun a => by match a with | ⟨0, _⟩ => rfl | ⟨1, _⟩ => rfl),
    broadcastTo_1b_ab_apply _ hbn r k]
  show (if _ = base + iota .tc S1x1000 32 [1] hi (ix2 (0 : Fin 1) k) then _ else _) = _
  rw [iota_single_apply]

-- The reset payload is zero everywhere.
theorem payReset_apply (j : S5000x64.Idx) : k2_pay1 (F := Ideal) j = 0 := by
  unfold k2_pay1
  exact (congrFun (shapeCast_self _ _) j).trans Ideal.ofBits_zero_f32

-- One point's step at row r, column o: the accumulator plus the rows of the node block that the row's source word selects.
theorem payStep_apply (i : grid2.Coords) (w : Vec Ideal S5000x1 .i32) (a : Vec Ideal S5000x64 .f32)
    (h : Vec Ideal S1000x64 .bf16) (r : Fin 5000) (o : Fin 64) :
    k2_pay2 i w a h (ix2 r o) = a (ix2 r o) + ∑ k : Fin 1000,
      (if w (ix2 r (0 : Fin 1)) = BitVec.ofNat 32 (i 1).val * 1000#32 + BitVec.ofNat 32 k.val then (1 : EReal) else 0)
        * h (ix2 k o) := by
  unfold k2_pay2
  refine (congrFun (shapeCast_self _ _) (ix2 r o)).trans ?_
  refine congrArg (fun z => a (ix2 r o) + z) ((prod_apply _ _ r o).trans (Finset.sum_congr rfl fun k _ => ?_))
  refine congrArg₂ (fun x y : EReal => x * y) ?_ (congrFun (shapeCast_self h _) (ix2 k o))
  refine (sel_apply _ _ _ _ _ _ _ r k).trans ?_
  rw [shapeCast_self]
  rfl

-- The accumulator scaled by attribute c at row r, column o.
theorem scaled_apply (acc : FVec Ideal S5000x64 .f32) (ea : FVec Ideal S5000x3 .f32) (c : Fin 3)
    (hs : S5000x3.Slices ![0, c.val] S5000x1) (hb : S5000x1.Broadcasts S5000x64) (r : Fin 5000) (o : Fin 64) :
    mulf acc (broadcastTo S5000x64 (extractStridedSlice S5000x1 ![0, c.val] ea hs) hb) (ix2 r o) = acc (ix2 r o) * ea (ix2 r c) := by
  refine congrArg (fun z => acc (ix2 r o) * z) ?_
  refine (broadcastTo_apply _ hb (ix2 r o) (ix2 r (0 : Fin 1)) (fun a => by
    match a with
    | ⟨0, _⟩ => rfl
    | ⟨1, _⟩ => rfl)).trans ?_
  exact slice2_axis1_apply c.val ea hs r (0 : Fin 1) c (Nat.add_zero _).symm

-- Column 64 c + o of the output payload is column o of the accumulator times attribute c.
theorem payOut_apply (acc : Vec Ideal S5000x64 .f32) (ea : Vec Ideal S5000x3 .f32) (r : Fin 5000) (c : Fin 3) (o : Fin 64)
    (j : Fin 192) (hj : j.val = 64 * c.val + o.val) : k2_pay3 acc ea (ix2 r j) = acc (ix2 r o) * ea (ix2 r c) := by
  unfold k2_pay3
  refine (truncf_apply (ψ := .bf16) _ bitsLt_bf16_f32 (ix2 r j)).trans ?_
  have hi : ∀ b : Fin S5000x64.rank, b.cast (rfl : S5000x64.rank = S5000x192.rank) ≠ (1 : Fin S5000x192.rank) →
      ((ix2 r o : S5000x64.Idx) b).val = ((ix2 r j : S5000x192.Idx) (b.cast rfl)).val := fun b => by
    match b with
    | ⟨0, _⟩ => exact fun _ => rfl
    | ⟨1, _⟩ => exact fun hne => absurd (Fin.ext rfl) hne
  match c, hj with
  | ⟨0, _⟩, hj =>
    exact (concatenate_apply_piece (1 : Fin S5000x192.rank) _ _ (ix2 r j) 0 (by show (0 : ℕ) < 3; decide) S5000x64 _ rfl rfl
      0 rfl (ix2 r o) hi (by show 0 + o.val = j.val; change j.val = 64 * 0 + o.val at hj; omega)).trans (scaled_apply acc ea 0 _ _ r o)
  | ⟨1, _⟩, hj =>
    exact (concatenate_apply_piece (1 : Fin S5000x192.rank) _ _ (ix2 r j) 1 (by show (1 : ℕ) < 3; decide) S5000x64 _ rfl rfl
      64 rfl (ix2 r o) hi (by show 64 + o.val = j.val; change j.val = 64 * 1 + o.val at hj; omega)).trans (scaled_apply acc ea 1 _ _ r o)
  | ⟨2, _⟩, hj =>
    exact (concatenate_apply_piece (1 : Fin S5000x192.rank) _ _ (ix2 r j) 2 (by show (2 : ℕ) < 3; decide) S5000x64 _ rfl rfl
      128 rfl (ix2 r o) hi (by show 128 + o.val = j.val; change j.val = 64 * 2 + o.val at hj; omega)).trans (scaled_apply acc ea 2 _ _ r o)

end Cert.KernelIdeal.Val.Gather
end
-- ==== Proof.V.Acc2Idx.lean ====
import proofs.«408094_j50861002719986_3_alg».proof.Proof.Gen.KernelIdeal.Launch
import Idealize.ShloMosaic.Lib.Pipeline.Value

noncomputable section

namespace Cert.KernelIdeal.Val.Gather

open Cert.KernelIdeal Cert.KernelIdeal.Gen
open Idealize.ShloMosaic Idealize.ShloMosaic.TcCoe

-- The grid is 160 edge blocks by 50 node blocks, the node block running fastest.
theorem coord (t : Fin grid2.N) : ((grid2.coords t) 0).val = t.val / 50 ∧ ((grid2.coords t) 1).val = t.val % 50 := by
  have := t.isLt; have := N_2
  constructor
  · show t.val / 50 % 160 = _; omega
  · show t.val / 1 % 50 = _; omega

-- The index maps of the edge blocks and of the output block give t / 50,
theorem idx_edge (t : Fin grid2.N) : cc2_transform_0 (grid2.coords t) = ![t.val / 50, 0] := by
  have := t.isLt; have := N_2
  show ![(BitVec.ofNat 32 ((grid2.coords t) 0).val).toNat, (0#32).toNat] = _
  rw [(coord t).1, BitVec.toNat_ofNat, Nat.mod_eq_of_lt (by omega)]; rfl

-- and that of the node block gives t % 50.
theorem idx_node (t : Fin grid2.N) : cc2_transform_2 (grid2.coords t) = ![t.val % 50, 0] := by
  show ![(BitVec.ofNat 32 ((grid2.coords t) 1).val).toNat, (0#32).toNat] = _
  rw [(coord t).2, BitVec.toNat_ofNat, Nat.mod_eq_of_lt (by omega)]; rfl

theorem edge_lt (t : Fin grid2.N) (r : Fin 5000) : (t.val / 50) * 5000 + r.val < 800000 := by
  have := t.isLt; have := N_2; omega

theorem node_lt (t : Fin grid2.N) (k : Fin 1000) : (t.val % 50) * 1000 + k.val < 50000 := by
  have := k.isLt; omega

-- Where an element of a window's block sits in the array, given the block's index.
theorem emb_val {G : Pipeline.Grid} (w : Pipeline.Window sig G) (t : Fin G.N) (I : Fin w.shape.rank → ℕ)
    (hI : w.index t = I) (y : (w.xblock (G.coords t)).Idx) (a : Fin w.shape.rank) :
    ((w.rect t).emb y a).val = I a * w.size a + (y a).val := hI ▸ w.rect_emb_val t y a

end Cert.KernelIdeal.Val.Gather
end
-- ==== Proof.V.Acc2.lean ====
import proofs.«408094_j50861002719986_3_alg».proof.Proof.Spec
import proofs.«408094_j50861002719986_3_alg».proof.Proof.SumLemmas
import proofs.«408094_j50861002719986_3_alg».proof.Proof.V.Pay2
import proofs.«408094_j50861002719986_3_alg».proof.Proof.V.Acc2Idx

noncomputable section

open scoped BigOperators

namespace Cert.KernelIdeal.Val.Gather

open Cert.KernelIdeal Cert.KernelIdeal.Gen Cert.Spec Cert.Sums
open Idealize.ShloMosaic Idealize.ShloMosaic.TcCoe Idealize.ShloMosaic.ValueIdx

-- An entry of a rank-two array is named by its two coordinates.
theorem at_ix2 {α : Type} {n0 n1 : ℕ} (A : (⟨2, ![n0, n1]⟩ : Shape).Idx → α) (z : (⟨2, ![n0, n1]⟩ : Shape).Idx)
    (p : Fin n0) (q : Fin n1) (h0 : (z 0).val = p.val) (h1 : (z 1).val = q.val) : A z = A (ix2 p q) :=
  congrArg A ((eq_ix2 z).trans (congrArg₂ ix2 (Fin.ext h0) (Fin.ext h1)))

section
variable (A0 : S800000x1.Idx → BitVec 32) (A1 : S800000x3.Idx → EReal) (A2 : S50000x64.Idx → EReal)

abbrev srcOf : Fin 800000 → BitVec 32 := fun e => A0 (ix2 e (0 : Fin 1))
abbrev eaOf : Fin 800000 → Fin 3 → EReal := fun e k => A1 (ix2 e k)
abbrev featOf : Fin 50000 → Fin 64 → EReal := fun n o => A2 (ix2 n o)

variable {e0 : Fin grid2.N → S5000x1.Idx → S800000x1.Idx} {e1 : Fin grid2.N → S5000x3.Idx → S800000x3.Idx}
  {e2 : Fin grid2.N → S1000x64.Idx → S50000x64.Idx}
  (he0 : ∀ t y a, (e0 t y a).val = ![t.val / 50, 0] a * ![5000, 1] a + (y a).val)
  (he1 : ∀ t y a, (e1 t y a).val = ![t.val / 50, 0] a * ![5000, 3] a + (y a).val)
  (he2 : ∀ t y a, (e2 t y a).val = ![t.val % 50, 0] a * ![1000, 64] a + (y a).val)
  {acc : (n : ℕ) → n < grid2.N → Vec Ideal S5000x64 .f32}
  (hr : ∀ t : Fin grid2.N, t.val % 50 = 0 → acc t.val t.isLt
    = k2_pay2 (F := Ideal) (grid2.coords t) (fun y => A0 (e0 t y)) (k2_pay1 (F := Ideal)) (fun y => A2 (e2 t y)))
  (hs : ∀ t : Fin grid2.N, ¬t.val % 50 = 0 → acc t.val t.isLt = k2_pay2 (F := Ideal) (grid2.coords t) (fun y => A0 (e0 t y))
    (acc (t.val - 1) (Nat.lt_of_le_of_lt (Nat.sub_le _ _) t.isLt)) (fun y => A2 (e2 t y)))

-- The running selection of row r of edge block n / 50, column o, over the nodes below a bound.
abbrev selAt (n : ℕ) (hn : n < grid2.N) (r : Fin 5000) (o : Fin 64) (bound : ℕ) : EReal :=
  selUpTo (fun m : Fin 50000 => featOf A2 m o) (srcOf A0 ⟨(n / 50) * 5000 + r.val, edge_lt ⟨n, hn⟩ r⟩).toInt bound

include he0 he2 in
-- One point's step adds the rows of its node block that the source word selects: the selection advances a block.
theorem step_apply (t : Fin grid2.N) (x : Vec Ideal S5000x64 .f32) (r : Fin 5000) (o : Fin 64)
    (hx : x (ix2 r o) = selAt A0 A2 t.val t.isLt r o ((t.val % 50) * 1000)) :
    k2_pay2 (F := Ideal) (grid2.coords t) (fun y => A0 (e0 t y)) x (fun y => A2 (e2 t y)) (ix2 r o)
      = selAt A0 A2 t.val t.isLt r o ((t.val % 50 + 1) * 1000) := by
  refine (payStep_apply (grid2.coords t) _ x _ r o).trans ?_
  refine Eq.trans ?_ (selUpTo_step 1000 (t.val % 50) (by omega) (fun m : Fin 50000 => featOf A2 m o) _)
  refine congrArg₂ (fun u v : EReal => u + v) hx (Finset.sum_congr rfl fun k _ =>
    congrArg₂ (fun u v : EReal => u * v) (if_congr ?_ rfl rfl)
      (at_ix2 A2 _ ⟨(t.val % 50) * 1000 + k.val, node_lt t k⟩ o (he2 t _ 0) ((he2 t _ 1).trans (Nat.zero_add _))))
  have hk := k.isLt
  rw [at_ix2 A0 _ ⟨(t.val / 50) * 5000 + r.val, edge_lt t r⟩ 0 (he0 t _ 0) (he0 t _ 1), (coord t).2,
    ofNat_mul_add (t.val % 50) 1000 k.val (by omega)]
  exact word_eq_ofNat_iff _ _ (by omega)

include he0 he2 hr hs in
-- After point n, row r of the accumulator is the feature row its source word names if that row is in a block read so far, else zero.
theorem acc_inv (n : ℕ) : ∀ (hn : n < grid2.N) (r : Fin 5000) (o : Fin 64),
    acc n hn (ix2 r o) = selAt A0 A2 n hn r o ((n % 50 + 1) * 1000) := by
  have reset : ∀ (t : Fin grid2.N), t.val % 50 = 0 → ∀ r o,
      acc t.val t.isLt (ix2 r o) = selAt A0 A2 t.val t.isLt r o ((t.val % 50 + 1) * 1000) := fun t h0 r o =>
    (congrFun (hr t h0) (ix2 r o)).trans (step_apply A0 A2 he0 he2 t _ r o
      ((payReset_apply _).trans (by rw [h0, Nat.zero_mul]; exact selUpTo_zero.symm)))
  induction n with
  | zero => exact fun hn r o => reset ⟨0, hn⟩ rfl r o
  | succ n ih =>
    intro hn r o
    by_cases h0 : (n + 1) % 50 = 0
    · exact reset ⟨n + 1, hn⟩ h0 r o
    · refine (congrFun (hs ⟨n + 1, hn⟩ h0) (ix2 r o)).trans (step_apply A0 A2 he0 he2 ⟨n + 1, hn⟩ _ r o ?_)
      refine (ih (Nat.lt_of_succ_lt hn) r o).trans ?_
      have e : (⟨n / 50 * 5000 + r.val, edge_lt ⟨n, Nat.lt_of_succ_lt hn⟩ r⟩ : Fin 800000)
          = ⟨(n + 1) / 50 * 5000 + r.val, edge_lt ⟨n + 1, hn⟩ r⟩ :=
        Fin.ext (by show n / 50 * 5000 + r.val = (n + 1) / 50 * 5000 + r.val; omega)
      show selUpTo _ (srcOf A0 _).toInt _ = selUpTo _ (srcOf A0 _).toInt _
      rw [e, show (n % 50 + 1) * 1000 = (n + 1) % 50 * 1000 by omega]

variable (hsrc : ∀ e : Fin 800000, 0 ≤ (srcOf A0 e).toInt ∧ (srcOf A0 e).toInt < 50000)

include he0 he2 hr hs hsrc in
-- At the last node block of an edge block, row r of the accumulator is the feature row its source word names.
theorem acc_last (t : Fin grid2.N) (ht : t.val % 50 = 49) (r : Fin 5000) (o : Fin 64) :
    acc t.val t.isLt (ix2 r o) = featOf A2 (rowOf (srcOf A0 ⟨(t.val / 50) * 5000 + r.val, edge_lt t r⟩)) o := by
  refine (acc_inv A0 A2 he0 he2 hr hs t.val t.isLt r o).trans ?_
  have h := hsrc ⟨(t.val / 50) * 5000 + r.val, edge_lt t r⟩
  show selUpTo _ _ ((t.val % 50 + 1) * 1000) = _
  rw [show (t.val % 50 + 1) * 1000 = 50000 by omega]
  refine (selUpTo_all (fun m : Fin 50000 => featOf A2 m o) _ ⟨h.1, by have := h.2; omega⟩).trans ?_
  refine congrArg (fun m : Fin 50000 => featOf A2 m o) (Fin.ext ?_)
  show (srcOf A0 ⟨(t.val / 50) * 5000 + r.val, edge_lt t r⟩).toInt.toNat
    = min (srcOf A0 ⟨(t.val / 50) * 5000 + r.val, edge_lt t r⟩).toInt.toNat 49999
  omega

include he0 he1 he2 hr hs hsrc in
-- At the last node block of an edge block the output block is that edge block's part of the array of messages.
theorem out_eq (t : Fin grid2.N) (ht : t.val % 50 = 49) (y : S5000x192.Idx) (z : S800000x192.Idx)
    (hz : ∀ a, (z a).val = ![t.val / 50, 0] a * ![5000, 192] a + (y a).val) :
    k2_pay3 (acc t.val t.isLt) (fun y => A1 (e1 t y)) y = arr2 (msg (featOf A2) (srcOf A0) (eaOf A1)) z := by
  have hj : (y 1).val < 192 := (y 1).isLt
  rw [eq_ix2 y, arr2_apply]
  refine (payOut_apply (acc t.val t.isLt) _ (y 0) ⟨(y 1).val / 64, by omega⟩ ⟨(y 1).val % 64, Nat.mod_lt _ (by decide)⟩ (y 1)
    (by show (y 1).val = 64 * ((y 1).val / 64) + (y 1).val % 64; omega)).trans ?_
  refine (congrArg₂ (fun u v : EReal => u * v)
    (acc_last A0 A2 he0 he2 hr hs hsrc t ht (y 0) _)
    (at_ix2 A1 _ ⟨(t.val / 50) * 5000 + (y 0).val, edge_lt t (y 0)⟩ _ (he1 t _ 0)
      ((he1 t _ 1).trans (Nat.zero_add _)))).trans ?_
  exact congrArg₂ (msg (featOf A2) (srcOf A0) (eaOf A1)) (Fin.ext (hz 0).symm) (Fin.ext ((hz 1).trans (Nat.zero_add _)).symm)

end
-- Every entry of the array of messages is in the block of the point that ends its edge block.
theorem cover (i : S800000x192.Idx) : ∃ t : Fin grid2.N, t.val % 50 = 49 ∧ ∀ I : Fin 2 → ℕ, I = ![t.val / 50, 0] →
    ∀ a, I a * ![5000, 192] a ≤ (i a).val ∧ (i a).val < I a * ![5000, 192] a + ![5000, 192] a := by
  have h0 : (i 0).val < 800000 := (i 0).isLt
  have h1 : (i 1).val < 192 := (i 1).isLt
  refine ⟨⟨((i 0).val / 5000) * 50 + 49, by rw [N_2]; omega⟩, by show (((i 0).val / 5000) * 50 + 49) % 50 = 49; omega, fun I hI a => ?_⟩
  subst hI
  match a with
  | ⟨0, _⟩ =>
    show (((i 0).val / 5000) * 50 + 49) / 50 * 5000 ≤ (i 0).val ∧ (i 0).val < (((i 0).val / 5000) * 50 + 49) / 50 * 5000 + 5000
    omega
  | ⟨1, _⟩ => show 0 * 192 ≤ (i 1).val ∧ (i 1).val < 0 * 192 + 192; omega

end Cert.KernelIdeal.Val.Gather
end
-- ==== Proof.V.Val2.lean ====
import proofs.«408094_j50861002719986_3_alg».proof.Proof.I.Dat2
import proofs.«408094_j50861002719986_3_alg».proof.Proof.Gen.KernelIdeal.Points
import proofs.«408094_j50861002719986_3_alg».proof.Proof.V.Acc2

noncomputable section

namespace Cert.KernelIdeal.Val.R2

open Cert.KernelIdeal Cert.KernelIdeal.Gen Cert.KernelIdeal.Hand Cert.Spec
open Idealize.ShloMosaic Idealize.ShloMosaic.TcCoe Idealize.ShloMosaic.ValueIdx

section
variable (V : (c : Dev nD) → (b : Ref sig .tc) → Buf (Elt Ideal) ((c : Thread nD τ).loc b))

abbrev srcW (c : Dev nD) : Fin 800000 → BitVec 32 := fun e =>
  (V c (Pipeline.arrRef spec2 0) : S800000x1.Idx → BitVec 32) (ix2 e (0 : Fin 1))
abbrev eaA (c : Dev nD) : Fin 800000 → Fin 3 → EReal := fun e k =>
  (V c (Pipeline.arrRef spec2 1) : S800000x3.Idx → EReal) (ix2 e k)
abbrev hA (c : Dev nD) : Fin 50000 → Fin 64 → EReal := fun n o =>
  (V c (Pipeline.arrRef spec2 2) : S50000x64.Idx → EReal) (ix2 n o)

-- The region leaves the array of the edges' messages.
theorem final2 (c : Dev nD) (hsrc : ∀ e : Fin 800000, 0 ≤ (srcW V c e).toInt ∧ (srcW V c e).toInt < 50000) :
    ((dat2 (F := Ideal) V c).arrAt 3 cfg2.N : S800000x192.Idx → EReal) = arr2 (msg (hA V c) (srcW V c) (eaA V c)) :=
  (dat2 (F := Ideal) V c).arrAt_eq_of_cover 3 (arr2 (msg (hA V c) (srcW V c) (eaA V c)))
    (fun t hf => funext fun y => Gather.out_eq
      (V c (Pipeline.arrRef spec2 0)) (V c (Pipeline.arrRef spec2 1)) (V c (Pipeline.arrRef spec2 2))
      (fun t => Gather.emb_val win2_0 t _ (Gather.idx_edge t)) (fun t => Gather.emb_val win2_1 t _ (Gather.idx_edge t))
      (fun t => Gather.emb_val win2_2 t _ (Gather.idx_node t)) (acc2_reset V c) (acc2_step V c) hsrc
      t ((flush2_3 t).mp hf) y _ (Gather.emb_val win2_3 t _ (Gather.idx_edge t) y))
    (fun i => by
      obtain ⟨t, ht, hm⟩ := Gather.cover i
      refine ⟨t, (flush2_3 t).mpr ht, ?_⟩
      show i ∈ ((View.whole (Pipeline.arrRef spec2 3)).slice (win2_3.rect t)).set
      rw [View.set_slice_whole, Rect.mem_set_unit]
      exact hm _ (Gather.idx_edge t))

end

end Cert.KernelIdeal.Val.R2
end
-- ==== Proof.V.Scatter.lean ====
import proofs.«408094_j50861002719986_3_alg».proof.Proof.Gen.KernelIdeal.Skeleton
import proofs.«408094_j50861002719986_3_alg».proof.Proof.Spec
import proofs.«408094_j50861002719986_3_alg».proof.Proof.SumLemmas
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws
import Idealize.ShloMosaic.PureOps.IdealRules

noncomputable section

open scoped BigOperators

namespace Cert.KernelIdeal.Val.Scatter

open Cert.KernelIdeal Cert.KernelIdeal.Gen Cert.Spec Cert.Sums
open Idealize.ShloMosaic Idealize.ShloMosaic.ValueIdx

section
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem ix2_of_val {n0 n1 : ℕ} (i : (⟨2, ![n0, n1]⟩ : Shape).Idx) (a : Fin n0) (b : Fin n1) (h0 : (i 0).val = a.val)
    (h1 : (i 1).val = b.val) : i = ix2 a b :=
  funext fun ax => Fin.ext (by
    match ax with
    | ⟨0, _⟩ => exact h0
    | ⟨1, _⟩ => exact h1)

end

theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans
    (Finset.sum_congr rfl fun k _ => congrArg src (funext fun ax => Fin.ext ?_))
  match ax with
  | ⟨0, _⟩ => rfl
  | ⟨1, _⟩ => rfl

-- Nothing is rounded over the extended reals, so the library's plain-product lemma applies.
theorem matmul_plain {m k n : ℕ} {φ₁ φ₂ : FTy} (d : DotDims ⟨2, ![m, k]⟩ ⟨2, ![k, n]⟩ ⟨2, ![m, n]⟩) (hd : d = .plain m k n)
    (x : FVec Ideal ⟨2, ![m, k]⟩ φ₁) (y : FVec Ideal ⟨2, ![k, n]⟩ φ₂) (a : Fin m) (b : Fin n) :
    matmul d none x y (constant (F := Ideal) ⟨2, ![m, n]⟩ .f32 0x00000000#32) (ix2 a b) = ∑ c : Fin k, x (ix2 a c) * y (ix2 c b) := by
  subst hd
  exact (Ideal.matmul_constant_zero_apply _ none x y _).trans
    ((Ideal.dotGeneral_apply _ none _ x y _).symm.trans (StackMember.dotGeneral_plain_apply none x y a b))

theorem onehot_word (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · simp [h]
  · simp [h, beq_eq_false_iff_ne.mpr h]

theorem pay_step (i : grid3.Coords) (x7 : Vec Ideal S1x1280 .i32) (x15 : Vec Ideal S5000x192 .f32)
    (x16 : Vec Ideal S1280x192 .bf16) (r : Fin 5000) (j : Fin 192) :
    k3_pay2 (F := Ideal) i x7 x15 x16 (ix2 r j)
      = x15 (ix2 r j) + ∑ k : Fin 1280,
          (if BitVec.ofNat 32 (i 0).val * 5000#32 + BitVec.ofNat 32 r.val = x7 (ix2 (0 : Fin 1) k) then (1 : EReal) else 0)
            * x16 (ix2 k j) := by
  unfold k3_pay2
  refine (congrFun (shapeCast_self _ shapeCasts_S5000x192_S5000x192) (ix2 r j)).trans ?_
  refine congrArg (x15 (ix2 r j) + ·) ((matmul_plain _ rfl _ _ r j).trans (Finset.sum_congr rfl fun k _ => ?_))
  refine congrArg₂ (· * ·) ((onehot_word _ _).trans (if_congr (Eq.congr ?_ ?_) rfl rfl))
    (congrFun (shapeCast_self x16 shapeCasts_S1280x192_S1280x192) (ix2 k j))
  · exact (broadcastTo_a1_ab_apply _ broadcasts_S5000x1_S5000x1280 r k).trans
      (congrArg (_ + ·) (iota_single_apply .tc S5000x1 32 0 iota_S5000x1_d0_w32 (ix2 r (0 : Fin 1))))
  · exact (broadcastTo_1b_ab_apply _ broadcasts_S1x1280_S5000x1280 r k).trans
      (congrFun (shapeCast_self x7 shapeCasts_S1x1280_S1x1280) _)

theorem pay_reset (r : Fin 5000) (j : Fin 192) : k3_pay1 (F := Ideal) (ix2 r j) = 0 := by
  unfold k3_pay1
  exact (congrFun (shapeCast_self _ shapeCasts_S5000x192_S5000x192) (ix2 r j)).trans Ideal.ofBits_zero_f32

-- The part both output forms share: regions 3 and 5 rectify it, region 7 normalises it row by row.
def aff (x : FVec Ideal S5000x192 .f32) (cnt : FVec Ideal S5000x1 .f32) (w : FVec Ideal S192x64 .bf16) (b : FVec Ideal S64 .f32) :
    FVec Ideal S5000x64 .f32 :=
  addf
    (matmul dot_S5000x192_S192x64_S5000x64_1_0_0_1_n_n none
      (truncf .bf16 (divf x (broadcastTo S5000x192 (maximumf (shapeCast S5000x1 cnt shapeCasts_S5000x1_S5000x1 : FVec Ideal S5000x1 .f32)
        (broadcast S5000x1 (Scalar.ofBits (F := Ideal) .f32 0x3F800000#32))) broadcasts_S5000x1_S5000x192)) bitsLt_bf16_f32)
      (shapeCast S192x64 w shapeCasts_S192x64_S192x64 : FVec Ideal S192x64 .bf16) (constant (F := Ideal) S5000x64 .f32 0x00000000#32))
    (broadcastTo S5000x64 (shapeCast S1x64 b shapeCasts_S64_S1x64 : FVec Ideal S1x64 .f32) broadcasts_S1x64_S5000x64)

def yrow (x : FVec Ideal S5000x192 .f32) (cnt : FVec Ideal S5000x1 .f32) (w : FVec Ideal S192x64 .bf16) (b : FVec Ideal S64 .f32)
    (r : Fin 5000) (o : Fin 64) : EReal :=
  (∑ k : Fin 192, Ideal.div (x (ix2 r k)) (max (cnt (ix2 r (0 : Fin 1))) 1) * w (ix2 k o)) + b (ix1 o)

theorem aff_apply (x : FVec Ideal S5000x192 .f32) (cnt : FVec Ideal S5000x1 .f32) (w : FVec Ideal S192x64 .bf16) (b : FVec Ideal S64 .f32)
    (r : Fin 5000) (o : Fin 64) : aff x cnt w b (ix2 r o) = yrow x cnt w b r o := by
  refine congrArg₂ (· + ·) ((matmul_plain _ rfl _ _ r o).trans (Finset.sum_congr rfl fun k _ => ?_))
    ((broadcastTo_1b_ab_apply _ _ r o).trans (shapeCast_a_1a_apply b _ (0 : Fin 1) o))
  refine congrArg₂ (fun d y => Ideal.div (x (ix2 r k)) d * y) ((broadcastTo_a1_ab_apply _ _ r k).trans ?_)
    (congrFun (shapeCast_self w _) (ix2 k o))
  exact congrArg₂ max (congrFun (shapeCast_self cnt _) (ix2 r (0 : Fin 1))) (IdealRules.sign_bit.ideal_onePat .f32)

theorem pay_out (x : FVec Ideal S5000x192 .f32) (cnt : FVec Ideal S5000x1 .f32) (w : FVec Ideal S192x64 .bf16) (b : FVec Ideal S64 .f32)
    (r : Fin 5000) (o : Fin 64) : k3_pay3 (F := Ideal) x cnt w b (ix2 r o) = max (yrow x cnt w b r o) 0 :=
  congrArg₂ max (aff_apply x cnt w b r o) Ideal.ofBits_zero_f32

theorem pay_out7 (x : FVec Ideal S5000x192 .f32) (cnt : FVec Ideal S5000x1 .f32) (w : FVec Ideal S192x64 .bf16) (b : FVec Ideal S64 .f32)
    (r : Fin 5000) (o : Fin 64) :
    k7_pay3 (F := Ideal) x cnt w b (ix2 r o)
      = Ideal.div (yrow x cnt w b r o)
          (max (Ideal.sqrt (∑ k : Fin 64, yrow x cnt w b r k * yrow x cnt w b r k)) (Ideal.ofBits .f32 0x2B8CBCCC#32)) := by
  refine congrArg₂ Ideal.div (aff_apply x cnt w b r o) ((broadcastTo_a1_ab_apply _ _ r o).trans (congrArg₂ max ?_ rfl))
  refine congrArg Ideal.sqrt ((shapeCast_a_a1_apply _ _ r (0 : Fin 1)).trans ((laneSum_apply _ _ _ _ r).trans ?_))
  exact Finset.sum_congr rfl fun k _ => congrArg₂ (· * ·) (aff_apply x cnt w b r k) (aff_apply x cnt w b r k)

theorem node_eq_iff (b : ℕ) (hb : b < 10) (r : Fin 5000) (w : BitVec 32) :
    BitVec.ofNat 32 b * 5000#32 + BitVec.ofNat 32 r.val = w ↔ w.toInt = ((b * 5000 + r.val : ℕ) : Int) := by
  have hr := r.isLt
  rw [show BitVec.ofNat 32 b * 5000#32 + BitVec.ofNat 32 r.val = BitVec.ofNat 32 (b * 5000 + r.val) from
    ofNat_mul_add b 5000 r.val (by omega), eq_comm]
  exact word_eq_ofNat_iff w _ (by omega)

theorem coords3 : ∀ t : Fin grid3.N, ((grid3.coords t) 0).val = t.val / 625 := by decide +kernel

-- For the tiling of the output array: every row lies in the block of the last point of its node block.
theorem cover_blocks (idx : Fin grid3.N → Fin 2 → ℕ) (hidx : ∀ t, idx t 0 = t.val / 625 ∧ idx t 1 = 0) (i : S50000x64.Idx) :
    ∃ t : Fin grid3.N, t.val % 625 = 624 ∧ ∀ a : Fin 2, idx t a * S5000x64.size a ≤ (i a).val
      ∧ (i a).val < idx t a * S5000x64.size a + S5000x64.size a := by
  have h0 : (i 0).val < 50000 := (i 0).isLt
  have h1 : (i 1).val < 64 := (i 1).isLt
  have hlt : (i 0).val / 5000 * 625 + 624 < grid3.N := by rw [show grid3.N = 6250 by decide]; omega
  obtain ⟨e0, e1⟩ := hidx ⟨(i 0).val / 5000 * 625 + 624, hlt⟩
  refine ⟨⟨(i 0).val / 5000 * 625 + 624, hlt⟩, by show ((i 0).val / 5000 * 625 + 624) % 625 = 624; omega, fun a => ?_⟩
  match a with
  | ⟨0, _⟩ =>
    show idx _ 0 * 5000 ≤ (i 0).val ∧ (i 0).val < idx _ 0 * 5000 + 5000
    rw [e0]
    show ((i 0).val / 5000 * 625 + 624) / 625 * 5000 ≤ (i 0).val ∧ (i 0).val < ((i 0).val / 5000 * 625 + 624) / 625 * 5000 + 5000
    omega
  | ⟨1, _⟩ =>
    show idx _ 1 * 64 ≤ (i 1).val ∧ (i 1).val < idx _ 1 * 64 + 64
    rw [e1]
    omega

section
variable (tgt : Fin 800000 → BitVec 32) (msg : Fin 800000 → Fin 192 → EReal) (wA : Fin 192 → Fin 64 → EReal)
  (bA : Fin 64 → EReal) (cntA : Fin 50000 → EReal)
  (ib0 : Fin grid3.N → Vec Ideal S1x1280 .i32) (ib1 : Fin grid3.N → Vec Ideal S1280x192 .bf16)
  (ib2 : Fin grid3.N → Vec Ideal S192x64 .bf16) (ib3 : Fin grid3.N → Vec Ideal S64 .f32) (ib4 : Fin grid3.N → Vec Ideal S5000x1 .f32)
  (acc : (n : ℕ) → n < grid3.N → Vec Ideal S5000x192 .f32)
  (h0 : ∀ (t : Fin grid3.N) (k : Fin 1280) (e : Fin 800000), e.val = t.val % 625 * 1280 + k.val → ib0 t (ix2 (0 : Fin 1) k) = tgt e)
  (h1 : ∀ (t : Fin grid3.N) (k : Fin 1280) (j : Fin 192) (e : Fin 800000), e.val = t.val % 625 * 1280 + k.val →
    ib1 t (ix2 k j) = msg e j)
  (h2 : ∀ (t : Fin grid3.N) (k : Fin 192) (o : Fin 64), ib2 t (ix2 k o) = wA k o)
  (h3 : ∀ (t : Fin grid3.N) (o : Fin 64), ib3 t (ix1 o) = bA o)
  (h4 : ∀ (t : Fin grid3.N) (r : Fin 5000) (n : Fin 50000), n.val = t.val / 625 * 5000 + r.val → ib4 t (ix2 r (0 : Fin 1)) = cntA n)
  (hreset : ∀ t : Fin grid3.N, t.val % 625 = 0 → acc t.val t.isLt = k3_pay2 (grid3.coords t) (ib0 t) (k3_pay1 (F := Ideal)) (ib1 t))
  (hstep : ∀ t : Fin grid3.N, ¬t.val % 625 = 0 → acc t.val t.isLt
    = k3_pay2 (grid3.coords t) (ib0 t) (acc (t.val - 1) (Nat.lt_of_le_of_lt (Nat.sub_le _ _) t.isLt)) (ib1 t))

abbrev edgeTerm (node : Fin 50000) (j : Fin 192) : Fin (625 * 1280) → EReal :=
  fun e => if endsIn tgt e node then msg e j else 0

include h0 h1 in
theorem acc_block (t : Fin grid3.N) (x15 : Vec Ideal S5000x192 .f32) (r : Fin 5000) (j : Fin 192) (node : Fin 50000)
    (hnode : node.val = t.val / 625 * 5000 + r.val)
    (hx : x15 (ix2 r j) = partialBlocks 625 1280 (edgeTerm tgt msg node j) (t.val % 625)) :
    k3_pay2 (F := Ideal) (grid3.coords t) (ib0 t) x15 (ib1 t) (ix2 r j)
      = partialBlocks 625 1280 (edgeTerm tgt msg node j) (t.val % 625 + 1) := by
  have ht := t.isLt
  have hN : grid3.N = 6250 := by decide
  have hlt : t.val % 625 < 625 := Nat.mod_lt _ (by decide)
  rw [partialBlocks_succ _ hlt, ← hx]
  refine (pay_step _ _ x15 _ r j).trans (congrArg (x15 (ix2 r j) + ·) (Finset.sum_congr rfl fun k _ => ?_))
  rw [h0 t k ⟨t.val % 625 * 1280 + k.val, blk_lt hlt k.isLt⟩ rfl, h1 t k j ⟨t.val % 625 * 1280 + k.val, blk_lt hlt k.isLt⟩ rfl,
    one_hot_mul, coords3 t]
  refine if_congr ((node_eq_iff (t.val / 625) (by omega) r _).trans ?_) rfl rfl
  show _ ↔ (tgt ⟨t.val % 625 * 1280 + k.val, blk_lt hlt k.isLt⟩).toInt = (node.val : Int)
  rw [hnode]

include h0 h1 hreset hstep in
-- By induction on the point: a reset starts a node block's sum, a step adds the next edge block.
theorem acc_inv (r : Fin 5000) (j : Fin 192) (node : Fin 50000) : ∀ (n : ℕ) (hn : n < grid3.N), node.val = n / 625 * 5000 + r.val →
    acc n hn (ix2 r j) = partialBlocks 625 1280 (edgeTerm tgt msg node j) (n % 625 + 1) := by
  intro n
  induction n using Nat.strong_induction_on with
  | _ n ih =>
    intro hn hnode
    by_cases h : n % 625 = 0
    · exact (congrFun (hreset ⟨n, hn⟩ h) _).trans (acc_block tgt msg ib0 ib1 h0 h1 ⟨n, hn⟩ _ r j node hnode
        ((pay_reset r j).trans ((congrArg (partialBlocks 625 1280 _) h).trans partialBlocks_zero).symm))
    · exact (congrFun (hstep ⟨n, hn⟩ h) _).trans (acc_block tgt msg ib0 ib1 h0 h1 ⟨n, hn⟩ _ r j node hnode
        ((ih (n - 1) (by omega) _ (by omega)).trans (congrArg (partialBlocks 625 1280 _) (by show (n - 1) % 625 + 1 = n % 625; omega))))

include h0 h1 h2 h3 h4 hreset hstep in
theorem yrow_last (t : Fin grid3.N) (ht : t.val % 625 = 624) (r : Fin 5000) (node : Fin 50000)
    (hnode : node.val = t.val / 625 * 5000 + r.val) :
    yrow (acc t.val t.isLt) (ib4 t) (ib2 t) (ib3 t) r = lin (agg msg tgt cntA) wA bA node := by
  funext o
  unfold yrow lin agg
  refine congrArg₂ (· + ·) (Finset.sum_congr rfl fun k _ => ?_) (h3 t o)
  rw [h2 t k o, h4 t r node hnode, acc_inv tgt msg ib0 ib1 acc h0 h1 hreset hstep r k node t.val t.isLt hnode, ht]
  exact congrArg (fun s => Ideal.div s _ * _) partialBlocks_all

end

end Cert.KernelIdeal.Val.Scatter
end
-- ==== Proof.V.Val3.lean ====
import proofs.«408094_j50861002719986_3_alg».proof.Proof.I.Dat3
import proofs.«408094_j50861002719986_3_alg».proof.Proof.Gen.KernelIdeal.Points
import proofs.«408094_j50861002719986_3_alg».proof.Proof.V.Scatter

noncomputable section

namespace Cert.KernelIdeal.Val.R3

open Cert.KernelIdeal Cert.KernelIdeal.Gen Cert.KernelIdeal.Hand Cert.KernelIdeal.Val.Scatter Cert.Spec
open Idealize.ShloMosaic Idealize.ShloMosaic.TcCoe Idealize.ShloMosaic.ValueIdx

section
variable (V : (c : Dev nD) → (b : Ref sig .tc) → Buf (Elt Ideal) ((c : Thread nD τ).loc b))

abbrev tgtW (c : Dev nD) : Fin 800000 → BitVec 32 :=
  fun e => (V c (Pipeline.arrRef spec3 0) : S1x800000.Idx → BitVec 32) (ix2 (0 : Fin 1) e)

abbrev msgA (c : Dev nD) : Fin 800000 → Fin 192 → EReal :=
  fun e j => (V c (Pipeline.arrRef spec3 1) : S800000x192.Idx → EReal) (ix2 e j)

abbrev wA (c : Dev nD) : Fin 192 → Fin 64 → EReal :=
  fun k o => (V c (Pipeline.arrRef spec3 2) : S192x64.Idx → EReal) (ix2 k o)

abbrev bA (c : Dev nD) : Fin 64 → EReal :=
  fun o => (V c (Pipeline.arrRef spec3 3) : S64.Idx → EReal) (ix1 o)

abbrev cntA (c : Dev nD) : Fin 50000 → EReal :=
  fun n => (V c (Pipeline.arrRef spec3 4) : S50000x1.Idx → EReal) (ix2 n (0 : Fin 1))

theorem blkfacts : ∀ t : Fin cfg3.N, win3_0.index t (0 : Fin 2) = 0 ∧ win3_0.index t (1 : Fin 2) = t.val % 625
    ∧ win3_1.index t (0 : Fin 2) = t.val % 625 ∧ win3_1.index t (1 : Fin 2) = 0
    ∧ win3_2.index t (0 : Fin 2) = 0 ∧ win3_2.index t (1 : Fin 2) = 0 ∧ win3_3.index t (0 : Fin 1) = 0
    ∧ win3_4.index t (0 : Fin 2) = t.val / 625 ∧ win3_4.index t (1 : Fin 2) = 0
    ∧ win3_5.index t (0 : Fin 2) = t.val / 625 ∧ win3_5.index t (1 : Fin 2) = 0 :=
  (by decide +kernel : ∀ t : Fin grid3.N, _)

-- Each node block's last point stores that block's rows of the layer's output; the ten blocks tile the array.
theorem final3 (c : Dev nD) :
    ((dat3 (F := Ideal) V c).arrAt 5 cfg3.N : S50000x64.Idx → EReal)
      = arr2 (relu (lin (agg (msgA V c) (tgtW V c) (cntA V c)) (wA V c) (bA V c))) := by
  refine (dat3 (F := Ideal) V c).arrAt_eq_of_cover 5 _ (fun t hf => ?_) fun i => ?_
  · have hb := blkfacts t
    have ht6 : t.val < 6250 := lt_of_lt_of_eq t.isLt N_3
    show (cfg3.win 5).cut (grid3.coords t) ((dat3 V c).after 5 t) = _
    rw [after3_5]
    funext y
    obtain ⟨r, o, rfl⟩ : ∃ (r : Fin 5000) (o : Fin 64), y = ix2 r o := ⟨y 0, y 1, eq_ix2 (n0 := 5000) (n1 := 64) y⟩
    have hlt : t.val / 625 * 5000 + r.val < 50000 := by have := r.isLt; omega
    rw [View.read_apply, ix2_of_val (((cfg3.win 5).blk t).view.emb (ix2 r o)) ⟨_, hlt⟩ o
      (by show win3_5.index t 0 * 5000 + 1 * r.val = t.val / 625 * 5000 + r.val; omega)
      (by show win3_5.index t 1 * 64 + 1 * o.val = o.val; omega)]
    refine (pay_out (acc3 V c t.val t.isLt) (iblk3 V c 4 t) (iblk3 V c 2 t) (iblk3 V c 3 t) r o).trans ?_
    rw [yrow_last (tgtW V c) (msgA V c) (wA V c) (bA V c) (cntA V c) (iblk3 V c 0) (iblk3 V c 1) (iblk3 V c 2) (iblk3 V c 3)
      (iblk3 V c 4) (acc3 V c) (fun t k e he => ?_) (fun t k j e he => ?_) (fun t k o => ?_) (fun t o => ?_)
      (fun t r n hn => ?_) (acc3_reset V c) (acc3_step V c) t ((flush3_5 t).mp hf) r ⟨_, hlt⟩ rfl]
    · rfl
    all_goals have hb := blkfacts t
    · exact congrArg (V c (Pipeline.arrRef spec3 0) : S1x800000.Idx → BitVec 32) (ix2_of_val _ _ _
        (by show win3_0.index t 0 * 1 + 1 * 0 = 0; omega) (by show win3_0.index t 1 * 1280 + 1 * k.val = e.val; omega))
    · exact congrArg (V c (Pipeline.arrRef spec3 1) : S800000x192.Idx → EReal) (ix2_of_val _ _ _
        (by show win3_1.index t 0 * 1280 + 1 * k.val = e.val; omega) (by show win3_1.index t 1 * 192 + 1 * j.val = j.val; omega))
    · exact congrArg (V c (Pipeline.arrRef spec3 2) : S192x64.Idx → EReal) (ix2_of_val _ _ _
        (by show win3_2.index t 0 * 192 + 1 * k.val = k.val; omega) (by show win3_2.index t 1 * 64 + 1 * o.val = o.val; omega))
    · refine congrArg (V c (Pipeline.arrRef spec3 3) : S64.Idx → EReal) (funext fun a => Fin.ext ?_)
      match a with
      | ⟨0, _⟩ => show win3_3.index t 0 * 64 + 1 * o.val = o.val; omega
    · exact congrArg (V c (Pipeline.arrRef spec3 4) : S50000x1.Idx → EReal) (ix2_of_val _ _ _
        (by show win3_4.index t 0 * 5000 + 1 * r.val = n.val; omega) (by show win3_4.index t 1 * 1 + 1 * 0 = 0; omega))
  · obtain ⟨t, ht, hi⟩ := cover_blocks win3_5.index (fun t => (blkfacts t).2.2.2.2.2.2.2.2.2) i
    refine ⟨t, (flush3_5 t).mpr ht, ?_⟩
    show i ∈ ((View.whole (Pipeline.arrRef spec3 5)).slice (win3_5.rect t)).set
    rw [View.set_slice_whole, Rect.mem_set_unit]
    exact hi

end

end Cert.KernelIdeal.Val.R3
end
-- ==== Proof.V.Val4.lean ====
import proofs.«408094_j50861002719986_3_alg».proof.Proof.I.Dat4
import proofs.«408094_j50861002719986_3_alg».proof.Proof.Gen.KernelIdeal.Points
import proofs.«408094_j50861002719986_3_alg».proof.Proof.V.Acc2

noncomputable section

namespace Cert.KernelIdeal.Val.R4

open Cert.KernelIdeal Cert.KernelIdeal.Gen Cert.KernelIdeal.Hand Cert.Spec
open Idealize.ShloMosaic Idealize.ShloMosaic.TcCoe Idealize.ShloMosaic.ValueIdx

section
variable (V : (c : Dev nD) → (b : Ref sig .tc) → Buf (Elt Ideal) ((c : Thread nD τ).loc b))

abbrev srcW (c : Dev nD) : Fin 800000 → BitVec 32 := fun e =>
  (V c (Pipeline.arrRef spec4 0) : S800000x1.Idx → BitVec 32) (ix2 e (0 : Fin 1))
abbrev eaA (c : Dev nD) : Fin 800000 → Fin 3 → EReal := fun e k =>
  (V c (Pipeline.arrRef spec4 1) : S800000x3.Idx → EReal) (ix2 e k)
abbrev hA (c : Dev nD) : Fin 50000 → Fin 64 → EReal := fun n o =>
  (V c (Pipeline.arrRef spec4 2) : S50000x64.Idx → EReal) (ix2 n o)

-- The region leaves the array of the edges' messages.
theorem final4 (c : Dev nD) (hsrc : ∀ e : Fin 800000, 0 ≤ (srcW V c e).toInt ∧ (srcW V c e).toInt < 50000) :
    ((dat4 (F := Ideal) V c).arrAt 3 cfg4.N : S800000x192.Idx → EReal) = arr2 (msg (hA V c) (srcW V c) (eaA V c)) :=
  (dat4 (F := Ideal) V c).arrAt_eq_of_cover 3 (arr2 (msg (hA V c) (srcW V c) (eaA V c)))
    (fun t hf => funext fun y => Gather.out_eq
      (V c (Pipeline.arrRef spec4 0)) (V c (Pipeline.arrRef spec4 1)) (V c (Pipeline.arrRef spec4 2))
      (fun t => Gather.emb_val win4_0 t _ (Gather.idx_edge t)) (fun t => Gather.emb_val win4_1 t _ (Gather.idx_edge t))
      (fun t => Gather.emb_val win4_2 t _ (Gather.idx_node t)) (acc4_reset V c) (acc4_step V c) hsrc
      t ((flush4_3 t).mp hf) y _ (Gather.emb_val win4_3 t _ (Gather.idx_edge t) y))
    (fun i => by
      obtain ⟨t, ht, hm⟩ := Gather.cover i
      refine ⟨t, (flush4_3 t).mpr ht, ?_⟩
      show i ∈ ((View.whole (Pipeline.arrRef spec4 3)).slice (win4_3.rect t)).set
      rw [View.set_slice_whole, Rect.mem_set_unit]
      exact hm _ (Gather.idx_edge t))

end

end Cert.KernelIdeal.Val.R4
end
-- ==== Proof.V.Val5.lean ====
import proofs.«408094_j50861002719986_3_alg».proof.Proof.I.Dat5
import proofs.«408094_j50861002719986_3_alg».proof.Proof.Gen.KernelIdeal.Points
import proofs.«408094_j50861002719986_3_alg».proof.Proof.V.Scatter

noncomputable section

namespace Cert.KernelIdeal.Val.R5

open Cert.KernelIdeal Cert.KernelIdeal.Gen Cert.KernelIdeal.Hand Cert.KernelIdeal.Val.Scatter Cert.Spec
open Idealize.ShloMosaic Idealize.ShloMosaic.TcCoe Idealize.ShloMosaic.ValueIdx

section
variable (V : (c : Dev nD) → (b : Ref sig .tc) → Buf (Elt Ideal) ((c : Thread nD τ).loc b))

abbrev tgtW (c : Dev nD) : Fin 800000 → BitVec 32 :=
  fun e => (V c (Pipeline.arrRef spec5 0) : S1x800000.Idx → BitVec 32) (ix2 (0 : Fin 1) e)

abbrev msgA (c : Dev nD) : Fin 800000 → Fin 192 → EReal :=
  fun e j => (V c (Pipeline.arrRef spec5 1) : S800000x192.Idx → EReal) (ix2 e j)

abbrev wA (c : Dev nD) : Fin 192 → Fin 64 → EReal :=
  fun k o => (V c (Pipeline.arrRef spec5 2) : S192x64.Idx → EReal) (ix2 k o)

abbrev bA (c : Dev nD) : Fin 64 → EReal :=
  fun o => (V c (Pipeline.arrRef spec5 3) : S64.Idx → EReal) (ix1 o)

abbrev cntA (c : Dev nD) : Fin 50000 → EReal :=
  fun n => (V c (Pipeline.arrRef spec5 4) : S50000x1.Idx → EReal) (ix2 n (0 : Fin 1))

theorem blkfacts : ∀ t : Fin cfg5.N, win5_0.index t (0 : Fin 2) = 0 ∧ win5_0.index t (1 : Fin 2) = t.val % 625
    ∧ win5_1.index t (0 : Fin 2) = t.val % 625 ∧ win5_1.index t (1 : Fin 2) = 0
    ∧ win5_2.index t (0 : Fin 2) = 0 ∧ win5_2.index t (1 : Fin 2) = 0 ∧ win5_3.index t (0 : Fin 1) = 0
    ∧ win5_4.index t (0 : Fin 2) = t.val / 625 ∧ win5_4.index t (1 : Fin 2) = 0
    ∧ win5_5.index t (0 : Fin 2) = t.val / 625 ∧ win5_5.index t (1 : Fin 2) = 0 :=
  (by decide +kernel : ∀ t : Fin grid5.N, _)

-- Each node block's last point stores that block's rows of the layer's output; the ten blocks tile the array.
theorem final5 (c : Dev nD) :
    ((dat5 (F := Ideal) V c).arrAt 5 cfg5.N : S50000x64.Idx → EReal)
      = arr2 (relu (lin (agg (msgA V c) (tgtW V c) (cntA V c)) (wA V c) (bA V c))) := by
  refine (dat5 (F := Ideal) V c).arrAt_eq_of_cover 5 _ (fun t hf => ?_) fun i => ?_
  · have hb := blkfacts t
    have ht6 : t.val < 6250 := lt_of_lt_of_eq t.isLt N_5
    show (cfg5.win 5).cut (grid5.coords t) ((dat5 V c).after 5 t) = _
    rw [after5_5]
    funext y
    obtain ⟨r, o, rfl⟩ : ∃ (r : Fin 5000) (o : Fin 64), y = ix2 r o := ⟨y 0, y 1, eq_ix2 (n0 := 5000) (n1 := 64) y⟩
    have hlt : t.val / 625 * 5000 + r.val < 50000 := by have := r.isLt; omega
    rw [View.read_apply, ix2_of_val (((cfg5.win 5).blk t).view.emb (ix2 r o)) ⟨_, hlt⟩ o
      (by show win5_5.index t 0 * 5000 + 1 * r.val = t.val / 625 * 5000 + r.val; omega)
      (by show win5_5.index t 1 * 64 + 1 * o.val = o.val; omega)]
    refine (pay_out (acc5 V c t.val t.isLt) (iblk5 V c 4 t) (iblk5 V c 2 t) (iblk5 V c 3 t) r o).trans ?_
    rw [yrow_last (tgtW V c) (msgA V c) (wA V c) (bA V c) (cntA V c) (iblk5 V c 0) (iblk5 V c 1) (iblk5 V c 2) (iblk5 V c 3)
      (iblk5 V c 4) (acc5 V c) (fun t k e he => ?_) (fun t k j e he => ?_) (fun t k o => ?_) (fun t o => ?_)
      (fun t r n hn => ?_) (acc5_reset V c) (acc5_step V c) t ((flush5_5 t).mp hf) r ⟨_, hlt⟩ rfl]
    · rfl
    all_goals have hb := blkfacts t
    · exact congrArg (V c (Pipeline.arrRef spec5 0) : S1x800000.Idx → BitVec 32) (ix2_of_val _ _ _
        (by show win5_0.index t 0 * 1 + 1 * 0 = 0; omega) (by show win5_0.index t 1 * 1280 + 1 * k.val = e.val; omega))
    · exact congrArg (V c (Pipeline.arrRef spec5 1) : S800000x192.Idx → EReal) (ix2_of_val _ _ _
        (by show win5_1.index t 0 * 1280 + 1 * k.val = e.val; omega) (by show win5_1.index t 1 * 192 + 1 * j.val = j.val; omega))
    · exact congrArg (V c (Pipeline.arrRef spec5 2) : S192x64.Idx → EReal) (ix2_of_val _ _ _
        (by show win5_2.index t 0 * 192 + 1 * k.val = k.val; omega) (by show win5_2.index t 1 * 64 + 1 * o.val = o.val; omega))
    · refine congrArg (V c (Pipeline.arrRef spec5 3) : S64.Idx → EReal) (funext fun a => Fin.ext ?_)
      match a with
      | ⟨0, _⟩ => show win5_3.index t 0 * 64 + 1 * o.val = o.val; omega
    · exact congrArg (V c (Pipeline.arrRef spec5 4) : S50000x1.Idx → EReal) (ix2_of_val _ _ _
        (by show win5_4.index t 0 * 5000 + 1 * r.val = n.val; omega) (by show win5_4.index t 1 * 1 + 1 * 0 = 0; omega))
  · obtain ⟨t, ht, hi⟩ := cover_blocks win5_5.index (fun t => (blkfacts t).2.2.2.2.2.2.2.2.2) i
    refine ⟨t, (flush5_5 t).mpr ht, ?_⟩
    show i ∈ ((View.whole (Pipeline.arrRef spec5 5)).slice (win5_5.rect t)).set
    rw [View.set_slice_whole, Rect.mem_set_unit]
    exact hi

end

end Cert.KernelIdeal.Val.R5
end
-- ==== Proof.V.Val6.lean ====
import proofs.«408094_j50861002719986_3_alg».proof.Proof.I.Dat6
import proofs.«408094_j50861002719986_3_alg».proof.Proof.Gen.KernelIdeal.Points
import proofs.«408094_j50861002719986_3_alg».proof.Proof.V.Acc2

noncomputable section

namespace Cert.KernelIdeal.Val.R6

open Cert.KernelIdeal Cert.KernelIdeal.Gen Cert.KernelIdeal.Hand Cert.Spec
open Idealize.ShloMosaic Idealize.ShloMosaic.TcCoe Idealize.ShloMosaic.ValueIdx

section
variable (V : (c : Dev nD) → (b : Ref sig .tc) → Buf (Elt Ideal) ((c : Thread nD τ).loc b))

abbrev srcW (c : Dev nD) : Fin 800000 → BitVec 32 := fun e =>
  (V c (Pipeline.arrRef spec6 0) : S800000x1.Idx → BitVec 32) (ix2 e (0 : Fin 1))
abbrev eaA (c : Dev nD) : Fin 800000 → Fin 3 → EReal := fun e k =>
  (V c (Pipeline.arrRef spec6 1) : S800000x3.Idx → EReal) (ix2 e k)
abbrev hA (c : Dev nD) : Fin 50000 → Fin 64 → EReal := fun n o =>
  (V c (Pipeline.arrRef spec6 2) : S50000x64.Idx → EReal) (ix2 n o)

-- The region leaves the array of the edges' messages.
theorem final6 (c : Dev nD) (hsrc : ∀ e : Fin 800000, 0 ≤ (srcW V c e).toInt ∧ (srcW V c e).toInt < 50000) :
    ((dat6 (F := Ideal) V c).arrAt 3 cfg6.N : S800000x192.Idx → EReal) = arr2 (msg (hA V c) (srcW V c) (eaA V c)) :=
  (dat6 (F := Ideal) V c).arrAt_eq_of_cover 3 (arr2 (msg (hA V c) (srcW V c) (eaA V c)))
    (fun t hf => funext fun y => Gather.out_eq
      (V c (Pipeline.arrRef spec6 0)) (V c (Pipeline.arrRef spec6 1)) (V c (Pipeline.arrRef spec6 2))
      (fun t => Gather.emb_val win6_0 t _ (Gather.idx_edge t)) (fun t => Gather.emb_val win6_1 t _ (Gather.idx_edge t))
      (fun t => Gather.emb_val win6_2 t _ (Gather.idx_node t)) (acc6_reset V c) (acc6_step V c) hsrc
      t ((flush6_3 t).mp hf) y _ (Gather.emb_val win6_3 t _ (Gather.idx_edge t) y))
    (fun i => by
      obtain ⟨t, ht, hm⟩ := Gather.cover i
      refine ⟨t, (flush6_3 t).mpr ht, ?_⟩
      show i ∈ ((View.whole (Pipeline.arrRef spec6 3)).slice (win6_3.rect t)).set
      rw [View.set_slice_whole, Rect.mem_set_unit]
      exact hm _ (Gather.idx_edge t))

end

end Cert.KernelIdeal.Val.R6
end
-- ==== Proof.V.Val7.lean ====
import proofs.«408094_j50861002719986_3_alg».proof.Proof.I.Dat7
import proofs.«408094_j50861002719986_3_alg».proof.Proof.Gen.KernelIdeal.Points
import proofs.«408094_j50861002719986_3_alg».proof.Proof.V.Scatter

noncomputable section

namespace Cert.KernelIdeal.Val.R7

open Cert.KernelIdeal Cert.KernelIdeal.Gen Cert.KernelIdeal.Hand Cert.KernelIdeal.Val.Scatter Cert.Spec
open Idealize.ShloMosaic Idealize.ShloMosaic.TcCoe Idealize.ShloMosaic.ValueIdx

section
variable (V : (c : Dev nD) → (b : Ref sig .tc) → Buf (Elt Ideal) ((c : Thread nD τ).loc b))

abbrev tgtW (c : Dev nD) : Fin 800000 → BitVec 32 :=
  fun e => (V c (Pipeline.arrRef spec7 0) : S1x800000.Idx → BitVec 32) (ix2 (0 : Fin 1) e)

abbrev msgA (c : Dev nD) : Fin 800000 → Fin 192 → EReal :=
  fun e j => (V c (Pipeline.arrRef spec7 1) : S800000x192.Idx → EReal) (ix2 e j)

abbrev wA (c : Dev nD) : Fin 192 → Fin 64 → EReal :=
  fun k o => (V c (Pipeline.arrRef spec7 2) : S192x64.Idx → EReal) (ix2 k o)

abbrev bA (c : Dev nD) : Fin 64 → EReal :=
  fun o => (V c (Pipeline.arrRef spec7 3) : S64.Idx → EReal) (ix1 o)

abbrev cntA (c : Dev nD) : Fin 50000 → EReal :=
  fun n => (V c (Pipeline.arrRef spec7 4) : S50000x1.Idx → EReal) (ix2 n (0 : Fin 1))

theorem blkfacts : ∀ t : Fin cfg7.N, win7_0.index t (0 : Fin 2) = 0 ∧ win7_0.index t (1 : Fin 2) = t.val % 625
    ∧ win7_1.index t (0 : Fin 2) = t.val % 625 ∧ win7_1.index t (1 : Fin 2) = 0
    ∧ win7_2.index t (0 : Fin 2) = 0 ∧ win7_2.index t (1 : Fin 2) = 0 ∧ win7_3.index t (0 : Fin 1) = 0
    ∧ win7_4.index t (0 : Fin 2) = t.val / 625 ∧ win7_4.index t (1 : Fin 2) = 0
    ∧ win7_5.index t (0 : Fin 2) = t.val / 625 ∧ win7_5.index t (1 : Fin 2) = 0 :=
  (by decide +kernel : ∀ t : Fin grid7.N, _)

-- Each node block's last point stores that block's rows of the layer's output; the ten blocks tile the array.
theorem final7 (c : Dev nD) :
    ((dat7 (F := Ideal) V c).arrAt 5 cfg7.N : S50000x64.Idx → EReal)
      = arr2 (normalize (Ideal.ofBits .f32 0x2B8CBCCC#32) (lin (agg (msgA V c) (tgtW V c) (cntA V c)) (wA V c) (bA V c))) := by
  refine (dat7 (F := Ideal) V c).arrAt_eq_of_cover 5 _ (fun t hf => ?_) fun i => ?_
  · have hb := blkfacts t
    have ht6 : t.val < 6250 := lt_of_lt_of_eq t.isLt N_7
    show (cfg7.win 5).cut (grid7.coords t) ((dat7 V c).after 5 t) = _
    rw [after7_5]
    funext y
    obtain ⟨r, o, rfl⟩ : ∃ (r : Fin 5000) (o : Fin 64), y = ix2 r o := ⟨y 0, y 1, eq_ix2 (n0 := 5000) (n1 := 64) y⟩
    have hlt : t.val / 625 * 5000 + r.val < 50000 := by have := r.isLt; omega
    rw [View.read_apply, ix2_of_val (((cfg7.win 5).blk t).view.emb (ix2 r o)) ⟨_, hlt⟩ o
      (by show win7_5.index t 0 * 5000 + 1 * r.val = t.val / 625 * 5000 + r.val; omega)
      (by show win7_5.index t 1 * 64 + 1 * o.val = o.val; omega)]
    refine (pay_out7 (acc7 V c t.val t.isLt) (iblk7 V c 4 t) (iblk7 V c 2 t) (iblk7 V c 3 t) r o).trans ?_
    rw [yrow_last (tgtW V c) (msgA V c) (wA V c) (bA V c) (cntA V c) (iblk7 V c 0) (iblk7 V c 1) (iblk7 V c 2) (iblk7 V c 3)
      (iblk7 V c 4) (acc7 V c) (fun t k e he => ?_) (fun t k j e he => ?_) (fun t k o => ?_) (fun t o => ?_)
      (fun t r n hn => ?_) (acc7_reset V c) (acc7_step V c) t ((flush7_5 t).mp hf) r ⟨_, hlt⟩ rfl]
    · rfl
    all_goals have hb := blkfacts t
    · exact congrArg (V c (Pipeline.arrRef spec7 0) : S1x800000.Idx → BitVec 32) (ix2_of_val _ _ _
        (by show win7_0.index t 0 * 1 + 1 * 0 = 0; omega) (by show win7_0.index t 1 * 1280 + 1 * k.val = e.val; omega))
    · exact congrArg (V c (Pipeline.arrRef spec7 1) : S800000x192.Idx → EReal) (ix2_of_val _ _ _
        (by show win7_1.index t 0 * 1280 + 1 * k.val = e.val; omega) (by show win7_1.index t 1 * 192 + 1 * j.val = j.val; omega))
    · exact congrArg (V c (Pipeline.arrRef spec7 2) : S192x64.Idx → EReal) (ix2_of_val _ _ _
        (by show win7_2.index t 0 * 192 + 1 * k.val = k.val; omega) (by show win7_2.index t 1 * 64 + 1 * o.val = o.val; omega))
    · refine congrArg (V c (Pipeline.arrRef spec7 3) : S64.Idx → EReal) (funext fun a => Fin.ext ?_)
      match a with
      | ⟨0, _⟩ => show win7_3.index t 0 * 64 + 1 * o.val = o.val; omega
    · exact congrArg (V c (Pipeline.arrRef spec7 4) : S50000x1.Idx → EReal) (ix2_of_val _ _ _
        (by show win7_4.index t 0 * 5000 + 1 * r.val = n.val; omega) (by show win7_4.index t 1 * 1 + 1 * 0 = 0; omega))
  · obtain ⟨t, ht, hi⟩ := cover_blocks win7_5.index (fun t => (blkfacts t).2.2.2.2.2.2.2.2.2) i
    refine ⟨t, (flush7_5 t).mpr ht, ?_⟩
    show i ∈ ((View.whole (Pipeline.arrRef spec7 5)).slice (win7_5.rect t)).set
    rw [View.set_slice_whole, Rect.mem_set_unit]
    exact hi

end

end Cert.KernelIdeal.Val.R7
end
-- ==== Proof.V.ValAll.lean ====
import proofs.«408094_j50861002719986_3_alg».proof.Proof.V.Through
import proofs.«408094_j50861002719986_3_alg».proof.Proof.V.Val0
import proofs.«408094_j50861002719986_3_alg».proof.Proof.V.Val1
import proofs.«408094_j50861002719986_3_alg».proof.Proof.V.Val2
import proofs.«408094_j50861002719986_3_alg».proof.Proof.V.Val3
import proofs.«408094_j50861002719986_3_alg».proof.Proof.V.Val4
import proofs.«408094_j50861002719986_3_alg».proof.Proof.V.Val5
import proofs.«408094_j50861002719986_3_alg».proof.Proof.V.Val6
import proofs.«408094_j50861002719986_3_alg».proof.Proof.V.Val7
import proofs.«408094_j50861002719986_3_alg».proof.Proof.Spec
import Idealize.ShloMosaic.Lib.ValueIdx
import Idealize.ShloMosaic.Lib.Pipeline.Value
import Idealize.ShloMosaic.Lib.StableHlo.Run

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Cert.Spec

variable (m : (ℓ : Loc nD τ sig) → Buf (Elt Ideal) ℓ)

section
variable (c : Dev nD)

abbrev xM : Fin 50000 → Fin 128 → EReal := fun n k => (m ((c.tc : Thread nD τ).loc main_arg0) : S50000x128.Idx → EReal) (ix2 n k)
abbrev srcM : Fin 800000 → BitVec 32 := fun e => (m ((c.tc : Thread nD τ).loc main_arg1) : S2x800000.Idx → BitVec 32) (ix2 0 e)
abbrev tgtM : Fin 800000 → BitVec 32 := fun e => (m ((c.tc : Thread nD τ).loc main_arg1) : S2x800000.Idx → BitVec 32) (ix2 1 e)
abbrev eaM : Fin 800000 → Fin 3 → EReal := fun e k => (m ((c.tc : Thread nD τ).loc main_arg2) : S800000x3.Idx → EReal) (ix2 e k)
abbrev pwM : Fin 128 → Fin 64 → EReal := fun k o => (m ((c.tc : Thread nD τ).loc main_arg3) : S128x64.Idx → EReal) (ix2 k o)
abbrev pbM : Fin 64 → EReal := fun o => (m ((c.tc : Thread nD τ).loc main_arg4) : S64.Idx → EReal) (ix1 o)
abbrev w1M : Fin 192 → Fin 64 → EReal := fun k o => (m ((c.tc : Thread nD τ).loc main_arg5) : S192x64.Idx → EReal) (ix2 k o)
abbrev b1M : Fin 64 → EReal := fun o => (m ((c.tc : Thread nD τ).loc main_arg6) : S64.Idx → EReal) (ix1 o)
abbrev w2M : Fin 192 → Fin 64 → EReal := fun k o => (m ((c.tc : Thread nD τ).loc main_arg7) : S192x64.Idx → EReal) (ix2 k o)
abbrev b2M : Fin 64 → EReal := fun o => (m ((c.tc : Thread nD τ).loc main_arg8) : S64.Idx → EReal) (ix1 o)
abbrev w3M : Fin 192 → Fin 64 → EReal := fun k o => (m ((c.tc : Thread nD τ).loc main_arg9) : S192x64.Idx → EReal) (ix2 k o)
abbrev b3M : Fin 64 → EReal := fun o => (m ((c.tc : Thread nD τ).loc main_arg10) : S64.Idx → EReal) (ix1 o)

def h0M : Fin 50000 → Fin 64 → EReal := lin (xM m c) (pwM m c) (pbM m c)
def h1M : Fin 50000 → Fin 64 → EReal := relu (layer (h0M m c) (srcM m c) (tgtM m c) (eaM m c) (indeg (tgtM m c)) (w1M m c) (b1M m c))
def h2M : Fin 50000 → Fin 64 → EReal := relu (layer (h1M m c) (srcM m c) (tgtM m c) (eaM m c) (indeg (tgtM m c)) (w2M m c) (b2M m c))

theorem cnt_eq : (U2 m c main_v10 : S50000x1.Idx → EReal) = arr2 (fun n (_ : Fin 1) => indeg (tgtM m c) n) := by
  rw [U2_v10]
  refine (R0.final0 (rd (U1 m)) c).trans ?_
  have ht : R0.tgtW (rd (U1 m)) c = tgtM m c := funext fun e => U1_v5 m c e
  rw [ht]

theorem cnt_at (n : Fin 50000) : (U2 m c main_v10 : S50000x1.Idx → EReal) (ix2 n 0) = indeg (tgtM m c) n := by
  rw [cnt_eq]; rfl

theorem h0_eq : (U3 m c main_v11 : S50000x64.Idx → EReal) = arr2 (h0M m c) := by
  rw [U3_v11]
  refine (R1.final1 (rd (U2 m)) c).trans ?_
  have hx : R1.xA (rd (U2 m)) c = xM m c :=
    funext fun n => funext fun k => congrFun ((U2_x m c).trans (U1_of m c main_arg0 (by decide))) (ix2 n k)
  have hw : R1.pwA (rd (U2 m)) c = pwM m c :=
    funext fun k => funext fun o => congrFun ((U2_pw m c).trans (U1_v6 m c)) (ix2 k o)
  have hb : R1.pbA (rd (U2 m)) c = pbM m c :=
    funext fun o => congrFun ((U2_pb m c).trans (U1_of m c main_arg4 (by decide))) (ix1 o)
  rw [hx, hw, hb]; rfl

variable (hsrc : ∀ e : Fin 800000, 0 ≤ (srcM m c e).toInt ∧ (srcM m c e).toInt < 50000)
include hsrc

theorem msg1_eq : (U5 m c main_v13 : S800000x192.Idx → EReal) = arr2 (msg (h0M m c) (srcM m c) (eaM m c)) := by
  rw [U5_v13]
  have hs : R2.srcW (rd (U4 m)) c = srcM m c :=
    funext fun e => (congrFun (U4_src m c) (ix2 e 0)).trans (U1_v2 m c e)
  have ha : R2.eaA (rd (U4 m)) c = eaM m c :=
    funext fun e => funext fun k => congrFun ((U4_ea m c).trans (U1_of m c main_arg2 (by decide))) (ix2 e k)
  have hh : R2.hA (rd (U4 m)) c = h0M m c :=
    funext fun n => funext fun o => (congrFun ((U4_v12 m c).trans (h0_eq m c)) (ix2 n o)).trans rfl
  refine (R2.final2 (rd (U4 m)) c (by rw [hs]; exact hsrc)).trans ?_
  rw [hs, ha, hh]

theorem h1_eq : (U6 m c main_v14 : S50000x64.Idx → EReal) = arr2 (h1M m c) := by
  rw [U6_v14]
  have hm : R3.msgA (rd (U5 m)) c = msg (h0M m c) (srcM m c) (eaM m c) :=
    funext fun e => funext fun j => (congrFun (msg1_eq m c hsrc) (ix2 e j)).trans rfl
  have ht : R3.tgtW (rd (U5 m)) c = tgtM m c :=
    funext fun e => (congrFun (U5_tgt m c) (ix2 0 e)).trans (U1_v5 m c e)
  have hw : R3.wA (rd (U5 m)) c = w1M m c :=
    funext fun k => funext fun o => congrFun ((U5_w m c).trans (U1_v7 m c)) (ix2 k o)
  have hb : R3.bA (rd (U5 m)) c = b1M m c :=
    funext fun o => congrFun ((U5_b m c).trans (U1_of m c main_arg6 (by decide))) (ix1 o)
  have hc : R3.cntA (rd (U5 m)) c = indeg (tgtM m c) :=
    funext fun n => (congrFun (U5_cnt m c) (ix2 n 0)).trans (cnt_at m c n)
  refine (R3.final3 (rd (U5 m)) c).trans ?_
  rw [hm, ht, hw, hb, hc]; rfl

theorem msg2_eq : (U7 m c main_v15 : S800000x192.Idx → EReal) = arr2 (msg (h1M m c) (srcM m c) (eaM m c)) := by
  rw [U7_v15]
  have hs : R4.srcW (rd (U6 m)) c = srcM m c :=
    funext fun e => (congrFun (U6_src m c) (ix2 e 0)).trans (U1_v2 m c e)
  have ha : R4.eaA (rd (U6 m)) c = eaM m c :=
    funext fun e => funext fun k => congrFun ((U6_ea m c).trans (U1_of m c main_arg2 (by decide))) (ix2 e k)
  have hh : R4.hA (rd (U6 m)) c = h1M m c :=
    funext fun n => funext fun o => (congrFun (h1_eq m c hsrc) (ix2 n o)).trans rfl
  refine (R4.final4 (rd (U6 m)) c (by rw [hs]; exact hsrc)).trans ?_
  rw [hs, ha, hh]

theorem h2_eq : (U8 m c main_v16 : S50000x64.Idx → EReal) = arr2 (h2M m c) := by
  rw [U8_v16]
  have hm : R5.msgA (rd (U7 m)) c = msg (h1M m c) (srcM m c) (eaM m c) :=
    funext fun e => funext fun j => (congrFun (msg2_eq m c hsrc) (ix2 e j)).trans rfl
  have ht : R5.tgtW (rd (U7 m)) c = tgtM m c :=
    funext fun e => (congrFun (U7_tgt m c) (ix2 0 e)).trans (U1_v5 m c e)
  have hw : R5.wA (rd (U7 m)) c = w2M m c :=
    funext fun k => funext fun o => congrFun ((U7_w m c).trans (U1_v8 m c)) (ix2 k o)
  have hb : R5.bA (rd (U7 m)) c = b2M m c :=
    funext fun o => congrFun ((U7_b m c).trans (U1_of m c main_arg8 (by decide))) (ix1 o)
  have hc : R5.cntA (rd (U7 m)) c = indeg (tgtM m c) :=
    funext fun n => (congrFun (U7_cnt m c) (ix2 n 0)).trans (cnt_at m c n)
  refine (R5.final5 (rd (U7 m)) c).trans ?_
  rw [hm, ht, hw, hb, hc]; rfl

theorem msg3_eq : (U9 m c main_v17 : S800000x192.Idx → EReal) = arr2 (msg (h2M m c) (srcM m c) (eaM m c)) := by
  rw [U9_v17]
  have hs : R6.srcW (rd (U8 m)) c = srcM m c :=
    funext fun e => (congrFun (U8_src m c) (ix2 e 0)).trans (U1_v2 m c e)
  have ha : R6.eaA (rd (U8 m)) c = eaM m c :=
    funext fun e => funext fun k => congrFun ((U8_ea m c).trans (U1_of m c main_arg2 (by decide))) (ix2 e k)
  have hh : R6.hA (rd (U8 m)) c = h2M m c :=
    funext fun n => funext fun o => (congrFun (h2_eq m c hsrc) (ix2 n o)).trans rfl
  refine (R6.final6 (rd (U8 m)) c (by rw [hs]; exact hsrc)).trans ?_
  rw [hs, ha, hh]

theorem kernel_value :
    (U10 m c main_v18 : S50000x64.Idx → EReal)
      = arr2 (net (Ideal.ofBits .f32 0x2B8CBCCC#32) (xM m c) (srcM m c) (tgtM m c) (eaM m c) (pwM m c) (pbM m c)
          (w1M m c) (b1M m c) (w2M m c) (b2M m c) (w3M m c) (b3M m c)) := by
  rw [U10_v18]
  have hm : R7.msgA (rd (U9 m)) c = msg (h2M m c) (srcM m c) (eaM m c) :=
    funext fun e => funext fun j => (congrFun (msg3_eq m c hsrc) (ix2 e j)).trans rfl
  have ht : R7.tgtW (rd (U9 m)) c = tgtM m c :=
    funext fun e => (congrFun (U9_tgt m c) (ix2 0 e)).trans (U1_v5 m c e)
  have hw : R7.wA (rd (U9 m)) c = w3M m c :=
    funext fun k => funext fun o => congrFun ((U9_w m c).trans (U1_v9 m c)) (ix2 k o)
  have hb : R7.bA (rd (U9 m)) c = b3M m c :=
    funext fun o => congrFun ((U9_b m c).trans (U1_of m c main_arg10 (by decide))) (ix1 o)
  have hc : R7.cntA (rd (U9 m)) c = indeg (tgtM m c) :=
    funext fun n => (congrFun (U9_cnt m c) (ix2 n 0)).trans (cnt_at m c n)
  refine (R7.final7 (rd (U9 m)) c).trans ?_
  rw [hm, ht, hw, hb, hc]; rfl

end

end Cert.KernelIdeal.Val
end
-- ==== Proof.HostIdx.lean ====
import Mathlib.Algebra.BigOperators.Group.Finset.Basic
import Mathlib.Algebra.BigOperators.Fin
import Idealize.ShloMosaic.PureOps.Ideal
import Idealize.ShloMosaic.Lib.ValueIdxRank1

noncomputable section

open scoped BigOperators
open Idealize.ShloMosaic Idealize.ShloMosaic.ValueIdx

namespace Cert.HostIdx

section RowGather
variable {α : Type}

abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg]
      intro h
      exact Nat.one_ne_zero (congrArg Fin.val (List.mem_singleton.mp h))
    rw [hst]
    simp only [Nat.add_zero, Nat.zero_add]
    rfl

end RowGather

section Scatter

theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i hr
    rw [Option.some.injEq, funext_iff]
    refine forall_congr' fun a => ?_
    rw [Fin.ext_iff]
    show (d.start j idx a + d.window j a).toNat = (i a).val ↔ _
    have := (hr a).1
    omega
  · rename_i hr
    refine iff_of_false (by simp) fun h => hr fun a => ?_
    have := (i a).isLt
    rw [h a]
    omega

abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (j : Fin C) :
    (rowScatterDims N E C wf).resultIdx? (ix2 e c) idx = some (ix2 n j)
      ↔ (idx (ix2 e ⟨0, Nat.one_pos⟩)).toInt = (n.val : Int) ∧ c = j := by
  rw [resultIdx?_eq_some_iff]
  have s0 : (rowScatterDims N E C wf).start (ix2 e c) idx 0 = (idx (ix2 e ⟨0, Nat.one_pos⟩)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
  have w0 : (rowScatterDims N E C wf).window (ix2 e c) 0 = 0 := by
    unfold ScatterDims.window
    rw [dif_neg]
    intro h
    simp [ScatterDims.sKept, Shape.kept] at h
  have s1 : (rowScatterDims N E C wf).start (ix2 e c) idx 1 = 0 := by
    unfold ScatterDims.start
    rw [dif_neg]
    intro h
    exact Nat.one_ne_zero (congrArg Fin.val (List.mem_singleton.mp h))
  have w1 : (rowScatterDims N E C wf).window (ix2 e c) 1 = c.val := rfl
  rw [Fin.forall_fin_two]
  show (rowScatterDims N E C wf).start (ix2 e c) idx 0 + (rowScatterDims N E C wf).window (ix2 e c) 0 = (n.val : Int)
    ∧ (rowScatterDims N E C wf).start (ix2 e c) idx 1 + (rowScatterDims N E C wf).window (ix2 e c) 1 = (j.val : Int) ↔ _
  rw [s0, w0, s1, w1, Fin.ext_iff]
  omega

theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatterDims N E C wf) x idx upd (ix2 n j)
      = x (ix2 n j) + ∑ e : Fin E,
          if (idx (ix2 e ⟨0, Nat.one_pos⟩)).toInt = (n.val : Int) then upd (ix2 e j) else 0 := by
  unfold Ideal.hostScatterAdd
  congr 1
  rw [Finset.sum_filter, sum_idx2]
  refine Finset.sum_congr rfl (fun e _ => ?_)
  refine (Finset.sum_congr rfl (g := fun c : Fin C => if c = j then
      (if (idx (ix2 e ⟨0, Nat.one_pos⟩)).toInt = (n.val : Int) then upd (ix2 e j) else 0) else 0)
      (fun c _ => ?_)).trans ?_
  · by_cases hc : c = j
    · rw [hc, if_pos rfl]
      by_cases hT : (idx (ix2 e ⟨0, Nat.one_pos⟩)).toInt = (n.val : Int)
      · rw [if_pos hT, if_pos ((rowScatter_lands wf idx e j n j).mpr ⟨hT, rfl⟩)]
      · rw [if_neg hT, if_neg (fun h => hT ((rowScatter_lands wf idx e j n j).mp h).1)]
    · rw [if_neg hc, if_neg (fun h => hc ((rowScatter_lands wf idx e c n j).mp h).2)]
  · rw [Finset.sum_ite_eq', if_pos (Finset.mem_univ _)]

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e ⟨0, Nat.one_pos⟩)).toInt = (n.val : Int) := by
  rw [resultIdx?_eq_some_iff]
  have s0 : (vecScatterDims N E wf).start (ix1 e) idx 0 = (idx (ix2 e ⟨0, Nat.one_pos⟩)).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
  have w0 : (vecScatterDims N E wf).window (ix1 e) 0 = 0 := by
    unfold ScatterDims.window
    rw [dif_neg]
    intro h
    simp [ScatterDims.sKept, Shape.kept] at h
  rw [Fin.forall_fin_one]
  show (vecScatterDims N E wf).start (ix1 e) idx 0 + (vecScatterDims N E wf).window (ix1 e) 0 = (n.val : Int) ↔ _
  rw [s0, w0]
  omega

theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e : Fin E,
          if (idx (ix2 e ⟨0, Nat.one_pos⟩)).toInt = (n.val : Int) then upd (ix1 e) else 0 := by
  unfold Ideal.hostScatterAdd
  congr 1
  rw [Finset.sum_filter, sum_idx1]
  refine Finset.sum_congr rfl (fun e _ => ?_)
  by_cases hT : (idx (ix2 e ⟨0, Nat.one_pos⟩)).toInt = (n.val : Int)
  · rw [if_pos hT, if_pos ((vecScatter_lands wf idx e n).mpr hT)]
  · rw [if_neg hT, if_neg (fun h => hT ((vecScatter_lands wf idx e n).mp h))]

end Scatter

end Cert.HostIdx

end
-- ==== Proof.V.RefOps.lean ====
import proofs.«408094_j50861002719986_3_alg».proof.Proof.Gen.ReferenceIdeal.Run
import proofs.«408094_j50861002719986_3_alg».proof.Proof.Gen.ReferenceIdeal.Read
import proofs.«408094_j50861002719986_3_alg».proof.Proof.Spec
import proofs.«408094_j50861002719986_3_alg».proof.Proof.HostIdx
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

set_option maxRecDepth 16384

noncomputable section

open scoped BigOperators

namespace Cert.ReferenceIdeal.RefVal

open Cert.ReferenceIdeal Cert.ReferenceIdeal.Gen Idealize.ShloMosaic Idealize.ShloMosaic.ValueIdx
open Cert.Spec Cert.HostIdx

abbrev V (s : Shape) : Type := FVec Ideal s .f32

abbrev W (s : Shape) : Type := IVec s 32

theorem col_apply (v : W S800000) (e : Fin 800000) :
    broadcastInDim S800000x1 ![0] bcast_S800000_S800000x1_0 v (ix2 e ⟨0, Nat.one_pos⟩) = v (ix1 e) :=
  broadcastInDim_apply _ bcast_S800000_S800000x1_0 v _ (ix1 e) (fun a => match a with
    | ⟨0, _⟩ => (if_neg (by decide +revert)).symm)

theorem wrap_eq (w : BitVec 32) (hw : 0 ≤ w.toInt) :
    Scalar.select (IntOp.cmpi .slt w 0#32) (IntOp.addi w 50000#32) w = w := by
  have h : IntOp.cmpi .slt w 0#32 = 0#1 := by
    unfold IntOp.cmpi
    have hs : w.slt 0#32 = false := by
      rw [BitVec.slt]
      simp
      omega
    simp [hs]
  rw [h]
  exact select_zero _ _

theorem wrapped_apply (srcw : W S800000) (e : Fin 800000) :
    select (cmpi .slt srcw (broadcastInDim S800000 ![] bcast_S_S800000 (constantI S_ 32 0#32)))
        (addi srcw (broadcastInDim S800000 ![] bcast_S_S800000 (constantI S_ 32 50000#32))) srcw (ix1 e)
      = Scalar.select (IntOp.cmpi .slt (srcw (ix1 e)) 0#32) (IntOp.addi (srcw (ix1 e)) 50000#32) (srcw (ix1 e)) := rfl

theorem gather_apply (h : V S50000x64) (sidx : W S800000) (e : Fin 800000) (c : Fin 64) :
    Host.gather gather_S50000x64_S800000x1_S800000x64_1_0_n_n_0_1_164 h
        (broadcastInDim S800000x1 ![0] bcast_S800000_S800000x1_0 sidx) (ix2 e c)
      = h (ix2 (rowOf (sidx (ix1 e))) c) := by
  have key := rowGather_apply (N := 50000) (E := 800000) (C := 64) (by decide)
    gather_S50000x64_S800000x1_S800000x64_1_0_n_n_0_1_164_wf h
    (broadcastInDim S800000x1 ![0] bcast_S800000_S800000x1_0 sidx) e c
  refine key.trans (congrArg h ?_)
  have hc := col_apply sidx e
  funext a
  refine Fin.ext ?_
  match a with
  | ⟨0, _⟩ =>
    show min (broadcastInDim S800000x1 ![0] bcast_S800000_S800000x1_0 sidx (ix2 e ⟨0, Nat.one_pos⟩)).toInt.toNat (50000 - 1)
      = min (sidx (ix1 e)).toInt.toNat 49999
    rw [hc]
  | ⟨1, _⟩ => rfl

theorem msgT_apply (ea : V S800000x3) (g : V S800000x64) (e : Fin 800000) (j : Fin 192) :
    shapeCast S800000x192 (mulf (F := Ideal) (φ := .f32)
        (broadcastInDim S800000x3x64 ![0, 1, 2] bcast_S800000x3x1_S800000x3x64_0_1_2
          (broadcastInDim S800000x3x1 ![0, 1] bcast_S800000x3_S800000x3x1_0_1 ea))
        (broadcastInDim S800000x3x64 ![0, 1, 2] bcast_S800000x1x64_S800000x3x64_0_1_2
          (broadcastInDim S800000x1x64 ![0, 2] bcast_S800000x64_S800000x1x64_0_2 g)))
      shapeCasts_S800000x3x64_S800000x192 (ix2 e j)
      = ea (ix2 e ⟨j.val / 64, by omega⟩) * g (ix2 e ⟨j.val % 64, Nat.mod_lt _ (by decide)⟩) := by
  have hj := j.isLt
  have he := e.isLt
  rw [shapeCast_apply _ shapeCasts_S800000x3x64_S800000x192 (ix2 e j)
    (ix3 e ⟨j.val / 64, by omega⟩ ⟨j.val % 64, Nat.mod_lt _ (by decide)⟩)
    (by rewrite [Shape.rowMajor_val_three, Shape.rowMajor_val_two]
        show (e.val * 3 + j.val / 64) * 64 + j.val % 64 = e.val * 192 + j.val
        omega)]
  rw [mulf_apply]
  congr 1
  · rw [broadcastInDim_apply _ bcast_S800000x3x1_S800000x3x64_0_1_2 _ _
      (ix3 e ⟨j.val / 64, by omega⟩ ⟨0, Nat.one_pos⟩) (fun a => match a with
        | ⟨0, _⟩ => (if_neg (by decide +revert)).symm
        | ⟨1, _⟩ => (if_neg (by decide +revert)).symm
        | ⟨2, _⟩ => (if_pos rfl).symm)]
    exact broadcastInDim_apply _ bcast_S800000x3_S800000x3x1_0_1 ea _ (ix2 e ⟨j.val / 64, by omega⟩)
      (fun a => match a with
        | ⟨0, _⟩ => (if_neg (by decide +revert)).symm
        | ⟨1, _⟩ => (if_neg (by decide +revert)).symm)
  · rw [broadcastInDim_apply _ bcast_S800000x1x64_S800000x3x64_0_1_2 _ _
      (ix3 e ⟨0, Nat.one_pos⟩ ⟨j.val % 64, Nat.mod_lt _ (by decide)⟩) (fun a => match a with
        | ⟨0, _⟩ => (if_neg (by decide +revert)).symm
        | ⟨1, _⟩ => (if_pos rfl).symm
        | ⟨2, _⟩ => (if_neg (by decide +revert)).symm)]
    exact broadcastInDim_apply _ bcast_S800000x64_S800000x1x64_0_2 g _
      (ix2 e ⟨j.val % 64, Nat.mod_lt _ (by decide)⟩) (fun a => match a with
        | ⟨0, _⟩ => (if_neg (by decide +revert)).symm
        | ⟨1, _⟩ => (if_neg (by decide +revert)).symm)

theorem hscat_def {s si su : Shape} {w : Nat} (d : ScatterDims s si su) (x : FVec Ideal s .f32) (idx : IVec si w)
    (u : FVec Ideal su .f32) :
    Host.scatterAdd (F := Ideal) (φ := .f32) d x idx u = Ideal.hostScatterAdd d x idx u := rfl

theorem rowDims_eq : scatter_S50000x192_S800000x1_S800000x192_1_0_0_1
      = rowScatterDims 50000 800000 192 scatter_S50000x192_S800000x1_S800000x192_1_0_0_1_wf := rfl

theorem vecDims_eq : scatter_S50000_S800000x1_S800000_n_0_0_1
      = vecScatterDims 50000 800000 scatter_S50000_S800000x1_S800000_n_0_0_1_wf := rfl

theorem zeros192_apply (i : S50000x192.Idx) :
    (broadcastInDim S50000x192 ![] bcast_S_S50000x192 (constant (F := Ideal) S_ .f32 0x00000000#32) : V S50000x192) i = 0 := by
  show Ideal.ofBits .f32 0x00000000#32 = 0
  exact Ideal.ofBits_zero_f32

theorem ssum_apply (tgtw : W S800000) (u : V S800000x192) (n : Fin 50000) (j : Fin 192) :
    Host.scatterAdd (F := Ideal) (φ := .f32) scatter_S50000x192_S800000x1_S800000x192_1_0_0_1
        (broadcastInDim S50000x192 ![] bcast_S_S50000x192 (constant (F := Ideal) S_ .f32 0x00000000#32))
        (broadcastInDim S800000x1 ![0] bcast_S800000_S800000x1_0 tgtw) u (ix2 n j)
      = ∑ e : Fin 800000, if (tgtw (ix1 e)).toInt = (n.val : Int) then u (ix2 e j) else 0 := by
  have key := rowScatterAdd_apply (N := 50000) (E := 800000) (C := 192)
    scatter_S50000x192_S800000x1_S800000x192_1_0_0_1_wf
    (broadcastInDim S50000x192 ![] bcast_S_S50000x192 (constant (F := Ideal) S_ .f32 0x00000000#32))
    (broadcastInDim S800000x1 ![0] bcast_S800000_S800000x1_0 tgtw) u n j
  rw [zeros192_apply, zero_add] at key
  rw [hscat_def, rowDims_eq]
  refine key.trans (Finset.sum_congr rfl fun e _ => ?_)
  rw [col_apply tgtw e]

theorem cnt_apply (tgtw : W S800000) (n : Fin 50000) :
    Host.scatterAdd (F := Ideal) (φ := .f32) scatter_S50000_S800000x1_S800000_n_0_0_1
        (broadcastInDim S50000 ![] bcast_S_S50000 (constant (F := Ideal) S_ .f32 0x00000000#32))
        (broadcastInDim S800000x1 ![0] bcast_S800000_S800000x1_0 tgtw)
        (broadcastInDim S800000 ![] bcast_S_S800000 (constant (F := Ideal) S_ .f32 0x3F800000#32)) (ix1 n)
      = indeg (fun e => tgtw (ix1 e)) n := by
  have key := vecScatterAdd_apply (N := 50000) (E := 800000)
    scatter_S50000_S800000x1_S800000_n_0_0_1_wf
    (broadcastInDim S50000 ![] bcast_S_S50000 (constant (F := Ideal) S_ .f32 0x00000000#32))
    (broadcastInDim S800000x1 ![0] bcast_S800000_S800000x1_0 tgtw)
    (broadcastInDim S800000 ![] bcast_S_S800000 (constant (F := Ideal) S_ .f32 0x3F800000#32)) n
  have hz : (broadcastInDim S50000 ![] bcast_S_S50000 (constant (F := Ideal) S_ .f32 0x00000000#32) : V S50000) (ix1 n) = 0 :=
    Ideal.ofBits_zero_f32
  have ho : ∀ e : Fin 800000,
      (broadcastInDim S800000 ![] bcast_S_S800000 (constant (F := Ideal) S_ .f32 0x3F800000#32) : V S800000) (ix1 e) = 1 :=
    fun _ => Ideal.ofBits_one_f32
  rw [hz, zero_add] at key
  unfold indeg
  rw [hscat_def, vecDims_eq]
  refine key.trans (Finset.sum_congr rfl fun e _ => ?_)
  rw [col_apply tgtw e, ho e]

theorem den_apply (cnt : V S50000) (n : Fin 50000) (j : Fin 192) :
    broadcastInDim S50000x192 ![0, 1] bcast_S50000x1_S50000x192_0_1
        (broadcastInDim S50000x1 ![0] bcast_S50000_S50000x1_0
          (maximumf (F := Ideal) (φ := .f32) cnt
            (broadcastInDim S50000 ![] bcast_S_S50000 (constant (F := Ideal) S_ .f32 0x3F800000#32)))) (ix2 n j)
      = max (cnt (ix1 n)) 1 := by
  rw [broadcastInDim_apply _ bcast_S50000x1_S50000x192_0_1 _ _ (ix2 n ⟨0, Nat.one_pos⟩) (fun a => match a with
    | ⟨0, _⟩ => (if_neg (by decide +revert)).symm
    | ⟨1, _⟩ => (if_pos rfl).symm)]
  rw [broadcastInDim_apply _ bcast_S50000_S50000x1_0 _ _ (ix1 n) (fun a => match a with
    | ⟨0, _⟩ => (if_neg (by decide +revert)).symm)]
  rw [maximumf_apply]
  congr 1
  exact Ideal.ofBits_one_f32

theorem dot192_apply (a : V S50000x192) (w : V S192x64) (n : Fin 50000) (o : Fin 64) :
    Host.dotGeneral (F := Ideal) dot_S50000x192_S192x64_S50000x64_1_0_0_1_n_n none a w (ix2 n o)
      = ∑ k : Fin 192, a (ix2 n k) * w (ix2 k o) :=
  StackMember.dotGeneral_plain_apply none a w n o

theorem dot128_apply (a : V S50000x128) (w : V S128x64) (n : Fin 50000) (o : Fin 64) :
    Host.dotGeneral (F := Ideal) dot_S50000x128_S128x64_S50000x64_1_0_0_1_n_n none a w (ix2 n o)
      = ∑ k : Fin 128, a (ix2 n k) * w (ix2 k o) :=
  StackMember.dotGeneral_plain_apply none a w n o

theorem bias_apply (b : V S64) (n : Fin 50000) (o : Fin 64) :
    broadcastInDim S50000x64 ![0, 1] bcast_S1x64_S50000x64_0_1
        (broadcastInDim S1x64 ![1] bcast_S64_S1x64_1 b) (ix2 n o) = b (ix1 o) := by
  rw [broadcastInDim_apply _ bcast_S1x64_S50000x64_0_1 _ _ (ix2 ⟨0, Nat.one_pos⟩ o) (fun a => match a with
    | ⟨0, _⟩ => (if_pos rfl).symm
    | ⟨1, _⟩ => (if_neg (by decide +revert)).symm)]
  exact broadcastInDim_apply _ bcast_S64_S1x64_1 b _ (ix1 o) (fun a => match a with
    | ⟨0, _⟩ => (if_neg (by decide +revert)).symm)

end Cert.ReferenceIdeal.RefVal

end
-- ==== Proof.V.RefLayer.lean ====
import proofs.«408094_j50861002719986_3_alg».proof.Proof.V.RefOps

set_option maxRecDepth 16384

noncomputable section

open scoped BigOperators

namespace Cert.ReferenceIdeal.RefVal

open Cert.ReferenceIdeal Cert.ReferenceIdeal.Gen Idealize.ShloMosaic Idealize.ShloMosaic.ValueIdx
open Cert.Spec Cert.HostIdx

theorem hdivf_apply {s : Shape} (a b : V s) (i : s.Idx) :
    Host.divf (F := Ideal) (φ := .f32) a b i = Ideal.div (a i) (b i) := rfl

theorem hsqrt_apply {s : Shape} (a : V s) (i : s.Idx) :
    Host.sqrt (F := Ideal) (φ := .f32) a i = Ideal.sqrt (a i) := rfl

def refMsgs (h : V S50000x64) (srcw : W S800000) (ea : V S800000x3) : V S800000x192 :=
  shapeCast S800000x192 (mulf (F := Ideal) (φ := .f32)
      (broadcastInDim S800000x3x64 ![0, 1, 2] bcast_S800000x3x1_S800000x3x64_0_1_2
        (broadcastInDim S800000x3x1 ![0, 1] bcast_S800000x3_S800000x3x1_0_1 ea))
      (broadcastInDim S800000x3x64 ![0, 1, 2] bcast_S800000x1x64_S800000x3x64_0_1_2
        (broadcastInDim S800000x1x64 ![0, 2] bcast_S800000x64_S800000x1x64_0_2
          (Host.gather gather_S50000x64_S800000x1_S800000x64_1_0_n_n_0_1_164 h
            (broadcastInDim S800000x1 ![0] bcast_S800000_S800000x1_0
              (select (cmpi .slt srcw (broadcastInDim S800000 ![] bcast_S_S800000 (constantI S_ 32 0#32)))
                (addi srcw (broadcastInDim S800000 ![] bcast_S_S800000 (constantI S_ 32 50000#32))) srcw))))))
    shapeCasts_S800000x3x64_S800000x192

def refAggr (tgtw : W S800000) (u : V S800000x192) : V S50000x192 :=
  Host.divf (F := Ideal) (φ := .f32)
    (Host.scatterAdd (F := Ideal) (φ := .f32) scatter_S50000x192_S800000x1_S800000x192_1_0_0_1
      (broadcastInDim S50000x192 ![] bcast_S_S50000x192 (constant (F := Ideal) S_ .f32 0x00000000#32))
      (broadcastInDim S800000x1 ![0] bcast_S800000_S800000x1_0 tgtw) u)
    (broadcastInDim S50000x192 ![0, 1] bcast_S50000x1_S50000x192_0_1
      (broadcastInDim S50000x1 ![0] bcast_S50000_S50000x1_0
        (maximumf (F := Ideal) (φ := .f32)
          (Host.scatterAdd (F := Ideal) (φ := .f32) scatter_S50000_S800000x1_S800000_n_0_0_1
            (broadcastInDim S50000 ![] bcast_S_S50000 (constant (F := Ideal) S_ .f32 0x00000000#32))
            (broadcastInDim S800000x1 ![0] bcast_S800000_S800000x1_0 tgtw)
            (broadcastInDim S800000 ![] bcast_S_S800000 (constant (F := Ideal) S_ .f32 0x3F800000#32)))
          (broadcastInDim S50000 ![] bcast_S_S50000 (constant (F := Ideal) S_ .f32 0x3F800000#32)))))

def refLayer (h : V S50000x64) (srcw tgtw : W S800000) (ea : V S800000x3) (w : V S192x64) (b : V S64) :
    V S50000x64 :=
  addf (F := Ideal) (φ := .f32)
    (Host.dotGeneral (F := Ideal) dot_S50000x192_S192x64_S50000x64_1_0_0_1_n_n none (refAggr tgtw (refMsgs h srcw ea)) w)
    (broadcastInDim S50000x64 ![0, 1] bcast_S1x64_S50000x64_0_1 (broadcastInDim S1x64 ![1] bcast_S64_S1x64_1 b))

theorem msgs_apply (h : V S50000x64) (srcw : W S800000) (ea : V S800000x3)
    (hsrc : ∀ e : Fin 800000, 0 ≤ (srcw (ix1 e)).toInt) (e : Fin 800000) (k : Fin 192) :
    refMsgs h srcw ea (ix2 e k) = msg (fun n o => h (ix2 n o)) (fun e => srcw (ix1 e)) (fun e k => ea (ix2 e k)) e k := by
  unfold refMsgs
  rw [msgT_apply, gather_apply, wrapped_apply, wrap_eq _ (hsrc e)]
  exact mul_comm _ _

theorem aggr_apply (tgtw : W S800000) (u : V S800000x192) (M : Fin 800000 → Fin 192 → EReal)
    (hu : ∀ e k, u (ix2 e k) = M e k) (n : Fin 50000) (k : Fin 192) :
    refAggr tgtw u (ix2 n k) = agg M (fun e => tgtw (ix1 e)) (indeg fun e => tgtw (ix1 e)) n k := by
  unfold refAggr
  rw [hdivf_apply, ssum_apply, den_apply, cnt_apply]
  simp only [hu]
  rfl

theorem refLayer_eq (h : V S50000x64) (srcw tgtw : W S800000) (ea : V S800000x3) (w : V S192x64) (b : V S64)
    (hsrc : ∀ e : Fin 800000, 0 ≤ (srcw (ix1 e)).toInt) :
    refLayer h srcw tgtw ea w b
      = arr2 (layer (fun n o => h (ix2 n o)) (fun e => srcw (ix1 e)) (fun e => tgtw (ix1 e))
          (fun e k => ea (ix2 e k)) (indeg fun e => tgtw (ix1 e)) (fun k o => w (ix2 k o)) (fun o => b (ix1 o))) := by
  funext i
  obtain ⟨n, o, rfl⟩ : ∃ n o, i = ix2 n o := ⟨i 0, i 1, eq_ix2 i⟩
  unfold refLayer
  rw [arr2_ix2, addf_apply, dot192_apply, bias_apply]
  exact congrArg₂ (· + ·) (Finset.sum_congr rfl fun k _ => congrArg (· * w (ix2 k o))
    (aggr_apply tgtw _ _ (msgs_apply h srcw ea hsrc) n k)) rfl

def refLin0 (x : V S50000x128) (pw : V S128x64) (pb : V S64) : V S50000x64 :=
  addf (F := Ideal) (φ := .f32)
    (Host.dotGeneral (F := Ideal) dot_S50000x128_S128x64_S50000x64_1_0_0_1_n_n none x pw)
    (broadcastInDim S50000x64 ![0, 1] bcast_S1x64_S50000x64_0_1 (broadcastInDim S1x64 ![1] bcast_S64_S1x64_1 pb))

theorem lin0_eq (x : V S50000x128) (pw : V S128x64) (pb : V S64) :
    refLin0 x pw pb = arr2 (lin (fun n k => x (ix2 n k)) (fun k o => pw (ix2 k o)) (fun o => pb (ix1 o))) := by
  funext i
  obtain ⟨n, o, rfl⟩ : ∃ n o, i = ix2 n o := ⟨i 0, i 1, eq_ix2 i⟩
  unfold refLin0
  rw [arr2_ix2, addf_apply, dot128_apply, bias_apply]
  rfl

def refRelu (h : V S50000x64) : V S50000x64 :=
  maximumf (F := Ideal) (φ := .f32) h
    (broadcastInDim S50000x64 ![] bcast_S_S50000x64 (constant (F := Ideal) S_ .f32 0x00000000#32))

theorem relu_stage (h : V S50000x64) (H : Fin 50000 → Fin 64 → EReal) (hh : h = arr2 H) :
    refRelu h = arr2 (relu H) := by
  subst hh
  funext i
  obtain ⟨n, o, rfl⟩ : ∃ n o, i = ix2 n o := ⟨i 0, i 1, eq_ix2 i⟩
  exact congrArg (max (H n o)) Ideal.ofBits_zero_f32

theorem rsum_apply (y : V S50000x64) (n : Fin 50000) :
    Host.reduceAdd (F := Ideal) (φ := .f32) y (constant (F := Ideal) S_ .f32 0x00000000#32)
        reducesTo_S50000x64_S50000_d1 h_S_ (ix1 n)
      = ∑ k : Fin 64, y (ix2 n k) := by
  simp only [Host.reduceAdd, Ideal.hostReduceAdd_def]
  rw [Ideal.hostReduceAdd_single reducesTo_S50000x64_S50000_d1 (by decide)]
  have h0 : (constant (F := Ideal) S_ .f32 0x00000000#32) (Shape.Idx.first h_S_) = 0 := Ideal.ofBits_zero_f32
  rw [h0, zero_add]
  exact Finset.sum_congr rfl fun k _ =>
    congrArg y (funext fun a => Fin.ext (by match a with | ⟨0, _⟩ => rfl | ⟨1, _⟩ => rfl))

def refNorm (h : V S50000x64) : V S50000x64 :=
  Host.divf (F := Ideal) (φ := .f32) h
    (broadcastInDim S50000x64 ![0, 1] bcast_S50000x1_S50000x64_0_1
      (maximumf (F := Ideal) (φ := .f32)
        (Host.sqrt (F := Ideal) (φ := .f32)
          (broadcastInDim S50000x1 ![0] bcast_S50000_S50000x1_0
            (Host.reduceAdd (F := Ideal) (φ := .f32) (mulf (F := Ideal) (φ := .f32) h h)
              (constant (F := Ideal) S_ .f32 0x00000000#32) reducesTo_S50000x64_S50000_d1 h_S_)))
        (broadcastInDim S50000x1 ![] bcast_S_S50000x1 (constant (F := Ideal) S_ .f32 0x2B8CBCCC#32))))

theorem norm_stage (h : V S50000x64) (H : Fin 50000 → Fin 64 → EReal) (hh : h = arr2 H) :
    refNorm h = arr2 (normalize (Ideal.ofBits .f32 0x2B8CBCCC#32) H) := by
  subst hh
  funext i
  obtain ⟨n, o, rfl⟩ : ∃ n o, i = ix2 n o := ⟨i 0, i 1, eq_ix2 i⟩
  unfold refNorm
  rw [arr2_ix2, hdivf_apply]
  rw [broadcastInDim_apply _ bcast_S50000x1_S50000x64_0_1 _ _ (ix2 n ⟨0, Nat.one_pos⟩) (fun a => match a with
    | ⟨0, _⟩ => (if_neg (by decide +revert)).symm
    | ⟨1, _⟩ => (if_pos rfl).symm)]
  rw [maximumf_apply, hsqrt_apply]
  rw [broadcastInDim_apply _ bcast_S50000_S50000x1_0 _ _ (ix1 n) (fun a => match a with
    | ⟨0, _⟩ => (if_neg (by decide +revert)).symm)]
  rw [rsum_apply]
  rfl

end Cert.ReferenceIdeal.RefVal

end
-- ==== Proof.V.RefVal.lean ====
import proofs.«408094_j50861002719986_3_alg».proof.Proof.V.RefLayer

set_option maxRecDepth 16384

noncomputable section

open scoped BigOperators

namespace Cert.ReferenceIdeal.RefVal

open Cert.ReferenceIdeal Cert.ReferenceIdeal.Gen Idealize.ShloMosaic Idealize.ShloMosaic.ValueIdx
open Cert.Spec Cert.HostIdx
open Idealize.ShloMosaic.TcCoe Idealize.SL.Sem Idealize.ShloMosaic.StableHlo
open Cert.ReferenceIdeal.Read

theorem flat_row (r : Fin 2) (e : Fin 800000) (i : S2x800000.Idx) (h0 : i 0 = r) (h1 : (i 1).val = e.val % 800000) : i = ix2 r e :=
  funext fun a => by
    match a with
    | ⟨0, _⟩ => exact h0
    | ⟨1, _⟩ => exact Fin.ext (h1.trans (Nat.mod_eq_of_lt e.isLt))

theorem srcw_apply (x1 : IVec S2x800000 32) (e : Fin 800000) : val_main_v1 (F := Ideal) x1 (ix1 e) = x1 (ix2 0 e) := by
  rw [val_main_v1_apply, val_main_v0_apply]
  exact congrArg x1 (flat_row 0 e _ rfl rfl)

theorem tgtw_apply (x1 : IVec S2x800000 32) (e : Fin 800000) : val_main_v3 (F := Ideal) x1 (ix1 e) = x1 (ix2 1 e) := by
  rw [val_main_v3_apply, val_main_v2_apply]
  exact congrArg x1 (flat_row 1 e _ rfl rfl)

theorem layer_stage (h : V S50000x64) (H : Fin 50000 → Fin 64 → EReal) (hh : h = arr2 H)
    (x1 : IVec S2x800000 32) (ea : V S800000x3) (w : V S192x64) (b : V S64)
    (hsrc : ∀ e : Fin 800000, 0 ≤ (x1 (ix2 0 e)).toInt) :
    refLayer h (val_main_v1 (F := Ideal) x1) (val_main_v3 (F := Ideal) x1) ea w b
      = arr2 (layer H (fun e => x1 (ix2 0 e)) (fun e => x1 (ix2 1 e)) (fun e k => ea (ix2 e k))
          (indeg fun e => x1 (ix2 1 e)) (fun k o => w (ix2 k o)) (fun o => b (ix1 o))) := by
  subst hh
  rw [refLayer_eq _ _ _ _ _ _ (fun e => by rw [srcw_apply]; exact hsrc e),
    show (fun e => val_main_v1 (F := Ideal) x1 (ix1 e)) = fun e => x1 (ix2 0 e) from funext (srcw_apply x1),
    show (fun e => val_main_v3 (F := Ideal) x1 (ix1 e)) = fun e => x1 (ix2 1 e) from funext (tgtw_apply x1)]
  rfl

-- Each stage of the program unfolds to the left side of the next stage lemma; chain them.
theorem net_eq (x0 : V S50000x128) (x1 : IVec S2x800000 32) (x2 : V S800000x3) (x3 : V S128x64) (x4 : V S64)
    (x5 : V S192x64) (x6 : V S64) (x7 : V S192x64) (x8 : V S64) (x9 : V S192x64) (x10 : V S64)
    (hsrc : ∀ e : Fin 800000, 0 ≤ (x1 (ix2 0 e)).toInt) :
    val_main_v104 (F := Ideal) x0 x1 x2 x3 x4 x5 x6 x7 x8 x9 x10
      = arr2 (net (Ideal.ofBits .f32 0x2B8CBCCC#32) (fun n k => x0 (ix2 n k))
          (fun e => x1 (ix2 0 e)) (fun e => x1 (ix2 1 e)) (fun e k => x2 (ix2 e k))
          (fun k o => x3 (ix2 k o)) (fun o => x4 (ix1 o))
          (fun k o => x5 (ix2 k o)) (fun o => x6 (ix1 o))
          (fun k o => x7 (ix2 k o)) (fun o => x8 (ix1 o))
          (fun k o => x9 (ix2 k o)) (fun o => x10 (ix1 o))) := by
  have A0 : val_main_v7 (F := Ideal) x0 x3 x4 = _ := lin0_eq x0 x3 x4
  have L1 : val_main_v36 (F := Ideal) x0 x1 x2 x3 x4 x5 x6 = _ := layer_stage _ _ A0 x1 x2 x5 x6 hsrc
  have A1 : val_main_v37 (F := Ideal) x0 x1 x2 x3 x4 x5 x6 = _ := relu_stage _ _ L1
  have L2 : val_main_v66 (F := Ideal) x0 x1 x2 x3 x4 x5 x6 x7 x8 = _ := layer_stage _ _ A1 x1 x2 x7 x8 hsrc
  have A2 : val_main_v67 (F := Ideal) x0 x1 x2 x3 x4 x5 x6 x7 x8 = _ := relu_stage _ _ L2
  have L3 : val_main_v96 (F := Ideal) x0 x1 x2 x3 x4 x5 x6 x7 x8 x9 x10 = _ := layer_stage _ _ A2 x1 x2 x9 x10 hsrc
  exact norm_stage _ _ L3

theorem result_eq (m : (ℓ : Loc nD τ sig) → Buf (Elt Ideal) ℓ) (c : Dev nD)
    (hsrc : ∀ e : Fin 800000,
      0 ≤ ((m ((c.tc : Thread nD τ).loc main_arg1) : S2x800000.Idx → BitVec 32) (ix2 0 e)).toInt
      ∧ ((m ((c.tc : Thread nD τ).loc main_arg1) : S2x800000.Idx → BitVec 32) (ix2 0 e)).toInt < 50000) :
    (Cert.ReferenceIdeal.Value.res_out0 (F := Ideal) m c : S50000x64.Idx → EReal)
      = arr2 (net (Ideal.ofBits .f32 0x2B8CBCCC#32)
          (fun n k => (m ((c.tc : Thread nD τ).loc main_arg0) : S50000x128.Idx → EReal) (ix2 n k))
          (fun e => (m ((c.tc : Thread nD τ).loc main_arg1) : S2x800000.Idx → BitVec 32) (ix2 0 e))
          (fun e => (m ((c.tc : Thread nD τ).loc main_arg1) : S2x800000.Idx → BitVec 32) (ix2 1 e))
          (fun e k => (m ((c.tc : Thread nD τ).loc main_arg2) : S800000x3.Idx → EReal) (ix2 e k))
          (fun k o => (m ((c.tc : Thread nD τ).loc main_arg3) : S128x64.Idx → EReal) (ix2 k o))
          (fun o => (m ((c.tc : Thread nD τ).loc main_arg4) : S64.Idx → EReal) (ix1 o))
          (fun k o => (m ((c.tc : Thread nD τ).loc main_arg5) : S192x64.Idx → EReal) (ix2 k o))
          (fun o => (m ((c.tc : Thread nD τ).loc main_arg6) : S64.Idx → EReal) (ix1 o))
          (fun k o => (m ((c.tc : Thread nD τ).loc main_arg7) : S192x64.Idx → EReal) (ix2 k o))
          (fun o => (m ((c.tc : Thread nD τ).loc main_arg8) : S64.Idx → EReal) (ix1 o))
          (fun k o => (m ((c.tc : Thread nD τ).loc main_arg9) : S192x64.Idx → EReal) (ix2 k o))
          (fun o => (m ((c.tc : Thread nD τ).loc main_arg10) : S64.Idx → EReal) (ix1 o))) :=
  (val_main_v104_eq (F := Ideal) m c).trans (net_eq _ _ _ _ _ _ _ _ _ _ _ fun e => (hsrc e).1)

end Cert.ReferenceIdeal.RefVal

end
-- ==== Proof.lean ====
/- Both programs end with the network of Proof/Spec.lean in their result array: a one-hot row times a block of rows
   selects one row, and over the extended reals 0 · x = 0 and 1 · x = x for every x, so the block products are the
   reference's gather and scatter-sum exactly, provided every source index names a node. -/
import proofs.«408094_j50861002719986_3_alg».proof.Defs
import proofs.«408094_j50861002719986_3_alg».proof.Proof.Gen.Kernel
import proofs.«408094_j50861002719986_3_alg».proof.Proof.Gen.KernelIdeal
import proofs.«408094_j50861002719986_3_alg».proof.Proof.Gen.KernelIdeal.Regions
import proofs.«408094_j50861002719986_3_alg».proof.Proof.Gen.ReferenceIdeal
import proofs.«408094_j50861002719986_3_alg».proof.Proof.Gen.ReferenceIdeal.Run
import proofs.«408094_j50861002719986_3_alg».proof.Proof.Gen.Pre_finite_inputs
import proofs.«408094_j50861002719986_3_alg».proof.Proof.Spec
import proofs.«408094_j50861002719986_3_alg».proof.Proof.I.PDats
import proofs.«408094_j50861002719986_3_alg».proof.Proof.V.PreDecode
import proofs.«408094_j50861002719986_3_alg».proof.Proof.B.Run
import proofs.«408094_j50861002719986_3_alg».proof.Proof.I.Run
import proofs.«408094_j50861002719986_3_alg».proof.Proof.I.RunV
import proofs.«408094_j50861002719986_3_alg».proof.Proof.V.ValAll
import proofs.«408094_j50861002719986_3_alg».proof.Proof.V.RefVal
import Idealize.ShloMosaic.Lib.ValueIdx

noncomputable section

namespace Cert.Proof

open Idealize.ShloMosaic Idealize.ShloMosaic.TcCoe Idealize.SL.Sem Idealize.ShloMosaic.ValueIdx

def netOf (a0 : Cert.KernelIdeal.S50000x128.Idx → EReal) (a1 : Cert.KernelIdeal.S2x800000.Idx → BitVec 32)
    (a2 : Cert.KernelIdeal.S800000x3.Idx → EReal) (a3 : Cert.KernelIdeal.S128x64.Idx → EReal) (a4 : Cert.KernelIdeal.S64.Idx → EReal)
    (a5 : Cert.KernelIdeal.S192x64.Idx → EReal) (a6 : Cert.KernelIdeal.S64.Idx → EReal)
    (a7 : Cert.KernelIdeal.S192x64.Idx → EReal) (a8 : Cert.KernelIdeal.S64.Idx → EReal)
    (a9 : Cert.KernelIdeal.S192x64.Idx → EReal) (a10 : Cert.KernelIdeal.S64.Idx → EReal) : Cert.KernelIdeal.S50000x64.Idx → EReal :=
  Cert.Spec.arr2 (Cert.Spec.net (Ideal.ofBits .f32 0x2B8CBCCC#32)
    (fun n k => a0 (ix2 n k)) (fun e => a1 (ix2 0 e)) (fun e => a1 (ix2 1 e)) (fun e k => a2 (ix2 e k))
    (fun k o => a3 (ix2 k o)) (fun o => a4 (ix1 o)) (fun k o => a5 (ix2 k o)) (fun o => a6 (ix1 o))
    (fun k o => a7 (ix2 k o)) (fun o => a8 (ix1 o)) (fun k o => a9 (ix2 k o)) (fun o => a10 (ix1 o)))

theorem netOf_congr {a0 a0' : Cert.KernelIdeal.S50000x128.Idx → EReal} {a1 a1' : Cert.KernelIdeal.S2x800000.Idx → BitVec 32}
    {a2 a2' : Cert.KernelIdeal.S800000x3.Idx → EReal} {a3 a3' : Cert.KernelIdeal.S128x64.Idx → EReal} {a4 a4' : Cert.KernelIdeal.S64.Idx → EReal}
    {a5 a5' : Cert.KernelIdeal.S192x64.Idx → EReal} {a6 a6' : Cert.KernelIdeal.S64.Idx → EReal}
    {a7 a7' : Cert.KernelIdeal.S192x64.Idx → EReal} {a8 a8' : Cert.KernelIdeal.S64.Idx → EReal}
    {a9 a9' : Cert.KernelIdeal.S192x64.Idx → EReal} {a10 a10' : Cert.KernelIdeal.S64.Idx → EReal}
    (e0 : a0' = a0) (e1 : a1' = a1) (e2 : a2' = a2) (e3 : a3' = a3) (e4 : a4' = a4) (e5 : a5' = a5) (e6 : a6' = a6)
    (e7 : a7' = a7) (e8 : a8' = a8) (e9 : a9' = a9) (e10 : a10' = a10) :
    netOf a0' a1' a2' a3' a4' a5' a6' a7' a8' a9' a10' = netOf a0 a1 a2 a3 a4 a5 a6 a7 a8 a9 a10 := by
  subst e0 e1 e2 e3 e4 e5 e6 e7 e8 e9 e10; rfl

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  have hsrc := fun c => Cert.KernelIdeal.PreDecode.src_in_range m hpre c
  refine ⟨fun c => Cert.KernelIdeal.Hand.U10 m c Cert.KernelIdeal.main_v18, ?_, ?_⟩
  · refine (θ_run Cert.KernelIdeal.defs _ _).mono (fun _ h c => ?_) (Cert.KernelIdeal.Hand.run_all m ρ)
    have keep := fun (b : Ref Cert.KernelIdeal.sig .tc) hb X (e : Cert.KernelIdeal.Gen.V10 m (Cert.KernelIdeal.Hand.outs m) c b = X) =>
      (h c (Proc.devRef .tc b) (Finset.mem_filter.mpr ⟨StableHlo.devRef_mem_tcRefs b, hb⟩)).trans
        ((congrFun (Cert.KernelIdeal.Hand.V10_eq m c) b).symm.trans e)
    exact ⟨h c (Proc.devRef .tc Cert.KernelIdeal.main_v18) (Finset.mem_filter.mpr ⟨StableHlo.devRef_mem_tcRefs Cert.KernelIdeal.main_v18, by decide⟩),
      keep Cert.KernelIdeal.main_arg0 (by decide) _ (Cert.KernelIdeal.Gen.V10_main_arg0 m _ c), keep Cert.KernelIdeal.main_arg1 (by decide) _ (Cert.KernelIdeal.Gen.V10_main_arg1 m _ c), keep Cert.KernelIdeal.main_arg2 (by decide) _ (Cert.KernelIdeal.Gen.V10_main_arg2 m _ c), keep Cert.KernelIdeal.main_arg3 (by decide) _ (Cert.KernelIdeal.Gen.V10_main_arg3 m _ c),
      keep Cert.KernelIdeal.main_arg4 (by decide) _ (Cert.KernelIdeal.Gen.V10_main_arg4 m _ c), keep Cert.KernelIdeal.main_arg5 (by decide) _ (Cert.KernelIdeal.Gen.V10_main_arg5 m _ c), keep Cert.KernelIdeal.main_arg6 (by decide) _ (Cert.KernelIdeal.Gen.V10_main_arg6 m _ c), keep Cert.KernelIdeal.main_arg7 (by decide) _ (Cert.KernelIdeal.Gen.V10_main_arg7 m _ c),
      keep Cert.KernelIdeal.main_arg8 (by decide) _ (Cert.KernelIdeal.Gen.V10_main_arg8 m _ c), keep Cert.KernelIdeal.main_arg9 (by decide) _ (Cert.KernelIdeal.Gen.V10_main_arg9 m _ c), keep Cert.KernelIdeal.main_arg10 (by decide) _ (Cert.KernelIdeal.Gen.V10_main_arg10 m _ c)⟩
  · refine (θ_run Cert.ReferenceIdeal.defs _ _).mono (fun _ h c => ⟨(h c).1.trans ?_, (h c).2⟩)
      (Cert.ReferenceIdeal.Value.run (F := Ideal) m' ρ')
    have hsrc' : ∀ e : Fin 800000, 0 ≤ ((m' ((c.tc : Thread Cert.ReferenceIdeal.nD Cert.ReferenceIdeal.τ).loc Cert.ReferenceIdeal.main_arg1) : Cert.ReferenceIdeal.S2x800000.Idx → BitVec 32) (ix2 0 e)).toInt ∧ ((m' ((c.tc : Thread Cert.ReferenceIdeal.nD Cert.ReferenceIdeal.τ).loc Cert.ReferenceIdeal.main_arg1) : Cert.ReferenceIdeal.S2x800000.Idx → BitVec 32) (ix2 0 e)).toInt < 50000 := fun e =>
      (congrArg (fun a : Cert.KernelIdeal.S2x800000.Idx → BitVec 32 => 0 ≤ (a (ix2 0 e)).toInt ∧ (a (ix2 0 e)).toInt < 50000) (hagree c).2.1).mpr (hsrc c e)
    exact (Cert.ReferenceIdeal.RefVal.result_eq m' c hsrc').trans
      ((netOf_congr ((hagree c).1) ((hagree c).2.1) ((hagree c).2.2.1) ((hagree c).2.2.2.1) ((hagree c).2.2.2.2.1) ((hagree c).2.2.2.2.2.1) ((hagree c).2.2.2.2.2.2.1) ((hagree c).2.2.2.2.2.2.2.1) ((hagree c).2.2.2.2.2.2.2.2.1) ((hagree c).2.2.2.2.2.2.2.2.2.1) ((hagree c).2.2.2.2.2.2.2.2.2.2)).trans (Cert.KernelIdeal.Val.kernel_value m c (hsrc c)).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
